-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S1 : Shape := ⟨1, ![1]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S256 .f32) (main_arg11 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S256 .f32) (main_arg6 : FVec F S1 .f32) (main_arg7 : FVec F S256x256 .f32) (main_arg8 : FVec F S256 .f32) (main_arg9 : FVec F S256 .f32) (main_arg10 : FVec F S256 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S256 .f32) (main_arg5 : FVec F S256 .f32) (main_arg6 : FVec F S1 .f32) (main_arg7 : FVec F S256x256 .f32) (main_arg8 : FVec F S256 .f32) (main_arg9 : FVec F S256 .f32) (main_arg10 : FVec F S256 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S1 : Shape := ⟨1, ![1]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S1x1 : Shape := ⟨2, ![1, 1]⟩

abbrev nBuf : Space → Nat
  | .hbm => 103
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S1, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x256, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x1, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x1, .f32⟩
  | .hbm, ⟨77, _⟩ => ⟨S50000x256, .f32⟩
  | .hbm, ⟨78, _⟩ => ⟨S50000x256, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x256, .f32⟩
  | .hbm, ⟨88, _⟩ => ⟨S850000x1, .f32⟩
  | .hbm, ⟨89, _⟩ => ⟨S850000x256, .f32⟩
  | .hbm, ⟨90, _⟩ => ⟨S850000x256, .f32⟩
  | .hbm, ⟨91, _⟩ => ⟨S_, .f32⟩
  | .hbm, ⟨92, _⟩ => ⟨S50000x256, .f32⟩
  | .hbm, ⟨93, _⟩ => ⟨S850000x1, .i32⟩
  | .hbm, ⟨94, _⟩ => ⟨S50000x256, .f32⟩
  | .hbm, ⟨95, _⟩ => ⟨S1x256, .f32⟩
  | .hbm, ⟨96, _⟩ => ⟨S50000x256, .f32⟩
  | .hbm, ⟨97, _⟩ => ⟨S1x256, .f32⟩
  | .hbm, ⟨98, _⟩ => ⟨S1x256, .f32⟩
  | .hbm, ⟨99, _⟩ => ⟨S1x256, .f32⟩
  | .hbm, ⟨100, _⟩ => ⟨S1x256, .f32⟩
  | .hbm, ⟨101, _⟩ => ⟨S1x1, .f32⟩
  | .hbm, ⟨102, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x1, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S256x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1x1, .f32⟩
  | .local _ .vmem, ⟨44, _⟩ => ⟨S2000x256, .f32⟩
  | .local _ .vmem, ⟨45, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46_0 : Ref sig .tc := ⟨.hbm, 71, rfl⟩
abbrev main_v46_1 : Ref sig .tc := ⟨.hbm, 72, rfl⟩
abbrev main_v46_2 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66_0 : Ref sig .tc := ⟨.hbm, 96, rfl⟩
abbrev main_v66_1 : Ref sig .tc := ⟨.hbm, 97, rfl⟩
abbrev main_v66_2 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_scratch0 : Ref sig .tc := ⟨.vmem, 35, rfl⟩
abbrev cc4_scratch1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg6_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem4_0 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v25 : BitVec 1 := Scalar.cmpi .eq arg0 c24_i32
  let v26 : BitVec 32 := Scalar.extui v25
  let c0_i32_15 : BitVec 32 := 0#32
  let v27 : BitVec 1 := Scalar.cmpi .ne v26 c0_i32_15
  v27

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v25 : BitVec 1 := Scalar.cmpi .eq arg0 c24_i32
  let v26 : BitVec 32 := Scalar.extui v25
  let c0_i32_15 : BitVec 32 := 0#32
  let v27 : BitVec 1 := Scalar.cmpi .ne v26 c0_i32_15
  v27

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S2000x256_S2000x256 : S2000x256.ShapeCasts S2000x256
  broadcasts_S1x256_S2000x256 : S1x256.Broadcasts S2000x256
  reduces_S2000x256_S256 : S2000x256.Reduces [0] S256
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S256x256_S256x256_0_0 : ∀ a, (![0, 0] : Fin 2 → Nat) a + S256x256.size a ≤ S256x256.size a
  h_S256x256 : 0 < S256x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1.size a ≤ S1x1.size a
  hwx5_5 : ∀ i : grid5.Coords, EltTy.bits .f32 = 32 ∨ (Rect.block (s := S1x1) S1x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S50000x256.size a
  hwx5_6 : ∀ i : grid5.Coords, EltTy.bits .f32 = 32 ∨ (Rect.block (s := S50000x256) S2000x256.size (cc5_transform_6 i) (hinb5_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46_0) S2000x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46_1) S1x256.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_2) S1x256.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v46_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46_1) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46_2) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66_0) S2000x256.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66_1) S1x256.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66_2) S1x256.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond2 i == 1#1) | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v66_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66_1) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66_2) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v68) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S1x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v70) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S1 : Shape := ⟨1, ![1]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S50000x256 : Shape := ⟨2, ![50000, 256]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 199
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S1, .f32⟩
  | 7 => ⟨S256x256, .f32⟩
  | 8 => ⟨S256, .f32⟩
  | 9 => ⟨S256, .f32⟩
  | 10 => ⟨S256, .f32⟩
  | 11 => ⟨S1, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S50000x256, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x256, .f32⟩
  | 63 => ⟨S850000x1, .f32⟩
  | 64 => ⟨S850000x256, .f32⟩
  | 65 => ⟨S850000x256, .f32⟩
  | 66 => ⟨S_, .f32⟩
  | 67 => ⟨S50000x256, .f32⟩
  | 68 => ⟨S850000x1, .i32⟩
  | 69 => ⟨S50000x256, .f32⟩
  | 70 => ⟨S1x256, .f32⟩
  | 71 => ⟨S50000x256, .f32⟩
  | 72 => ⟨S50000x256, .f32⟩
  | 73 => ⟨S_, .f32⟩
  | 74 => ⟨S256, .f32⟩
  | 75 => ⟨S_, .f32⟩
  | 76 => ⟨S256, .f32⟩
  | 77 => ⟨S256, .f32⟩
  | 78 => ⟨S1x256, .f32⟩
  | 79 => ⟨S50000x256, .f32⟩
  | 80 => ⟨S50000x256, .f32⟩
  | 81 => ⟨S50000x256, .f32⟩
  | 82 => ⟨S_, .f32⟩
  | 83 => ⟨S256, .f32⟩
  | 84 => ⟨S_, .f32⟩
  | 85 => ⟨S256, .f32⟩
  | 86 => ⟨S256, .f32⟩
  | 87 => ⟨S1x256, .f32⟩
  | 88 => ⟨S50000x256, .f32⟩
  | 89 => ⟨S50000x256, .f32⟩
  | 90 => ⟨S_, .f32⟩
  | 91 => ⟨S256, .f32⟩
  | 92 => ⟨S256, .f32⟩
  | 93 => ⟨S256, .f32⟩
  | 94 => ⟨S1x256, .f32⟩
  | 95 => ⟨S50000x256, .f32⟩
  | 96 => ⟨S50000x256, .f32⟩
  | 97 => ⟨S1x256, .f32⟩
  | 98 => ⟨S50000x256, .f32⟩
  | 99 => ⟨S50000x256, .f32⟩
  | 100 => ⟨S1x256, .f32⟩
  | 101 => ⟨S50000x256, .f32⟩
  | 102 => ⟨S50000x256, .f32⟩
  | 103 => ⟨S_, .f32⟩
  | 104 => ⟨S50000x256, .f32⟩
  | 105 => ⟨S50000x256, .i1⟩
  | 106 => ⟨S_, .f32⟩
  | 107 => ⟨S50000x256, .f32⟩
  | 108 => ⟨S50000x256, .f32⟩
  | 109 => ⟨S50000x256, .f32⟩
  | 110 => ⟨S50000x256, .f32⟩
  | 111 => ⟨S_, .f32⟩
  | 112 => ⟨S50000, .f32⟩
  | 113 => ⟨S850000x1, .i32⟩
  | 114 => ⟨S50000, .f32⟩
  | 115 => ⟨S_, .f32⟩
  | 116 => ⟨S50000, .f32⟩
  | 117 => ⟨S50000, .i1⟩
  | 118 => ⟨S50000, .f32⟩
  | 119 => ⟨S_, .f32⟩
  | 120 => ⟨S_, .f32⟩
  | 121 => ⟨S50000, .f32⟩
  | 122 => ⟨S50000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000, .f32⟩
  | 4 => ⟨S850000, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000, .f32⟩
  | 14 => ⟨S850000, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S850000x256, .f32⟩
  | 24 => ⟨S850000x1, .f32⟩
  | 25 => ⟨S850000x256, .f32⟩
  | 26 => ⟨S850000x256, .f32⟩
  | 27 => ⟨S_, .f32⟩
  | 28 => ⟨S50000x256, .f32⟩
  | 29 => ⟨S850000x1, .i32⟩
  | 30 => ⟨S50000x256, .f32⟩
  | 31 => ⟨S1x256, .f32⟩
  | 32 => ⟨S50000x256, .f32⟩
  | 33 => ⟨S50000x256, .f32⟩
  | 34 => ⟨S_, .f32⟩
  | 35 => ⟨S256, .f32⟩
  | 36 => ⟨S_, .f32⟩
  | 37 => ⟨S256, .f32⟩
  | 38 => ⟨S256, .f32⟩
  | 39 => ⟨S1x256, .f32⟩
  | 40 => ⟨S50000x256, .f32⟩
  | 41 => ⟨S50000x256, .f32⟩
  | 42 => ⟨S50000x256, .f32⟩
  | 43 => ⟨S_, .f32⟩
  | 44 => ⟨S256, .f32⟩
  | 45 => ⟨S_, .f32⟩
  | 46 => ⟨S256, .f32⟩
  | 47 => ⟨S256, .f32⟩
  | 48 => ⟨S1x256, .f32⟩
  | 49 => ⟨S50000x256, .f32⟩
  | 50 => ⟨S50000x256, .f32⟩
  | 51 => ⟨S_, .f32⟩
  | 52 => ⟨S256, .f32⟩
  | 53 => ⟨S256, .f32⟩
  | 54 => ⟨S256, .f32⟩
  | 55 => ⟨S1x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S1x256, .f32⟩
  | 62 => ⟨S50000x256, .f32⟩
  | 63 => ⟨S50000x256, .f32⟩
  | 64 => ⟨S_, .f32⟩
  | 65 => ⟨S50000x256, .f32⟩
  | 66 => ⟨S50000x256, .i1⟩
  | 67 => ⟨S_, .f32⟩
  | 68 => ⟨S50000x256, .f32⟩
  | 69 => ⟨S50000x256, .f32⟩
  | 70 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_17 : Ref sig .tc := ⟨.hbm, 119, rfl⟩
abbrev main_call2_v0 : Ref sig .tc := ⟨.hbm, 120, rfl⟩
abbrev main_call2_v1 : Ref sig .tc := ⟨.hbm, 121, rfl⟩
abbrev main_v86 : Ref sig .tc := ⟨.hbm, 122, rfl⟩
abbrev main_c_18 : Ref sig .tc := ⟨.hbm, 123, rfl⟩
abbrev main_v87 : Ref sig .tc := ⟨.hbm, 124, rfl⟩
abbrev main_v88 : Ref sig .tc := ⟨.hbm, 125, rfl⟩
abbrev main_c_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_20 : Ref sig .tc := ⟨.hbm, 133, rfl⟩
abbrev main_v95 : Ref sig .tc := ⟨.hbm, 134, rfl⟩
abbrev main_v96 : Ref sig .tc := ⟨.hbm, 135, rfl⟩
abbrev main_c_21 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_22 : Ref sig .tc := ⟨.hbm, 143, rfl⟩
abbrev main_v103 : Ref sig .tc := ⟨.hbm, 144, rfl⟩
abbrev main_v104 : Ref sig .tc := ⟨.hbm, 145, rfl⟩
abbrev main_c_23 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_24 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_25 : Ref sig .tc := ⟨.hbm, 162, rfl⟩
abbrev main_v119 : Ref sig .tc := ⟨.hbm, 163, rfl⟩
abbrev main_cst_26 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_27 : Ref sig .tc := ⟨.hbm, 171, rfl⟩
abbrev main_v126 : Ref sig .tc := ⟨.hbm, 172, rfl⟩
abbrev main_cst_28 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_29 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_30 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  shapeCasts_S1_S_ : S1.ShapeCasts S_
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.K.RunCond.lean ====
-- The run of @main given each call's region run.
import proofs.«164947_j60361470378157_1_alg».proof.Proof.Gen.Kernel.Regions

set_option maxRecDepth 1108

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

theorem V13_main_v70 (c : Dev nD) : V13 m outs c main_v70 = outs 13 main_v70 c :=
  Function.update_self ..

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c)) :
    θ_run defs (onTc (τ := τ) (main (F := F))) ⟨m, fun _ => 0, ρ⟩ (fun r => ∀ c : Dev nD,
      r.2.mem ((c.tc : Thread nD τ).loc main_v70) = outs 13 main_v70 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, hpre0 c, hpost0 c, hpre1 c, hpost1 c, hpre2 c, (hpost2 c).trans (hpre3 c), hpost3 c, hpre4 c, hpost4 c, hpre5 c, (hpost5 c).trans (sep_mono .rfl (hE6 c))⟩)
    (hinit := ?_)
    (hfin := fun c s' => ?_) (hQ := fun _ h => h)
  ·
    simp only [← Pipeline.unscopedBufs_held (Ix := Ix) (Name := ℕ) (U := U) (Lvl := Lvl)]
    rw [bigSep_sep']
    iintro ⟨⟨Hh, Hr⟩, Hla⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      have rd := fun (r : Ref sig .tc) hr => h (Proc.devRef .tc r) (Finset.mem_filter.mpr ⟨StableHlo.devRef_mem_tcRefs r, hr⟩)
      exact ⟨(rd main_v70 (by decide)).trans (V13_main_v70 m outs c),
        (rd main_arg0 (by decide)).trans (V13_main_arg0 m outs c),
        (rd main_arg1 (by decide)).trans (V13_main_arg1 m outs c),
        (rd main_arg2 (by decide)).trans (V13_main_arg2 m outs c),
        (rd main_arg3 (by decide)).trans (V13_main_arg3 m outs c),
        (rd main_arg4 (by decide)).trans (V13_main_arg4 m outs c),
        (rd main_arg5 (by decide)).trans (V13_main_arg5 m outs c),
        (rd main_arg6 (by decide)).trans (V13_main_arg6 m outs c),
        (rd main_arg7 (by decide)).trans (V13_main_arg7 m outs c),
        (rd main_arg8 (by decide)).trans (V13_main_arg8 m outs c),
        (rd main_arg9 (by decide)).trans (V13_main_arg9 m outs c),
        (rd main_arg10 (by decide)).trans (V13_main_arg10 m outs c),
        (rd main_arg11 (by decide)).trans (V13_main_arg11 m outs c)⟩
    · iexact HSI

end Cert.Kernel.Gen

end
-- ==== Proof.K.R0.lean ====
-- A matrix product, one tile of 2000 rows at a time: proof data and body obligation at arbitrary entry contents.
import proofs.«164947_j60361470378157_1_alg».proof.Proof.Gen.Kernel.Launch
import proofs.«164947_j60361470378157_1_alg».proof.Proof.Gen.Kernel.Skeleton
import proofs.«164947_j60361470378157_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x256 := Rect.unit (s := S2000x256) ![0, 0] S2000x256.size inb_S2000x256_S2000x256_0_0

def out0_2 (x0 : Vec F S2000x128 .f32) (x1 : Vec F S128x256 .f32) : Vec F S2000x256 .f32 :=
  View.canon [⟨r0_2, k0_pay1 (View.ld x0 r0_0) (View.ld x1 r0_1)⟩]

-- Every entry of the output is written, so it depends on the two inputs alone.
theorem sound_kernel0 (c : Dev nD) {E : Set ℕ} {i : grid0.Coords} {arg1 : Memref sig .tc .vmem S2000x128 .f32}
    {arg2 : Memref sig .tc .vmem S128x256 .f32} {arg3 : Memref sig .tc .vmem S2000x256 .f32} {harg1 harg2 harg3}
    (x0 : Vec F S2000x128 .f32) (x1 : Vec F S128x256 .f32) (x2 : Vec F S2000x256 .f32) {K : PUnit → sProp 𝕄} :
    iprop(ownsTc c arg1 fullShare x0 ∗ ownsTc c arg2 fullShare x1 ∗ ownsTc c arg3 fullShare x2
        ∗ (iprop(ownsTc c arg1 fullShare x0 ∗ ownsTc c arg2 fullShare x1 ∗ ownsTc c arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton, ownsTc]; unfold cc0__matmul_kernel_skel owns
  iintro ⟨⟨%f0, %hf0, H0⟩, ⟨%f1, %hf1, H1⟩, ⟨%f2, -, H2⟩, Hk⟩
  subst hf0 hf1
  sl_exec
  sl_step
  iapply Hk
  isplitl [H0]; swap; isplitl [H1]
  all_goals
    iexists _; isplitr; swap; · iassumption
    ipureintro
    first | exact View.read_writes_eq_canon _ _ _ (View.cover_of_tiled _ S2000x256.size (by rfl)) | rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0 (c : Dev nD) (t : Fin cfg0.N) : ∀ w : Fin 3, w ≠ 2 → ∀ d, (dat0 V c).before w t d = (dat0 V c).after w t
  | 0, _, d | 1, _, d => (dat0 V c).before_in_eq_fetched _ rfl (fun _ => rfl) (fun _ _ _ => rfl) (fun _ => rfl) t d
  | 2, h, _ => absurd rfl h
  | ⟨_ + 3, h⟩, _, _ => by omega

theorem body_obligation0 (c : Dev nD) : BodyObligation (dat0 (F := F) V c) (defs₀ (F := F)) Variants.none () Set.univ := fun t => by
  rw [bigSep_W0, bigSep_W0]
  simp +decide only [before0 V c t, after0_2]
  show _ ⊢ wp _ _ _ (bodyAt0 t) fun _ => iprop((dat0 V c).Φ t.castSucc ∗ (dat0 V c).owesAt () t.castSucc ∗ _)
  iintro ⟨HΦ, Ho, ⟨%_, H0⟩, ⟨%_, H1⟩, ⟨%d, H2⟩⟩
  iapply sound_kernel0 c ((dat0 V c).after 0 t) ((dat0 V c).after 1 t) ((dat0 V c).before 2 t d)
  iframe
  iintro ⟨H0, H1, H2⟩
  iframe
  iexact H2

end Cert.Kernel.Hand

end
-- ==== Proof.K.R1Runs.lean ====
-- One run of the column-statistics body in each of its three cases (first tile, a middle tile, last tile).
import proofs.«164947_j60361470378157_1_alg».proof.Proof.Gen.Kernel.Launch
import proofs.«164947_j60361470378157_1_alg».proof.Proof.Gen.Kernel.Skeleton
import proofs.«164947_j60361470378157_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev r1_0 : Rect S2000x256 := Rect.unit (s := S2000x256) ![0, 0] S2000x256.size inb_S2000x256_S2000x256_0_0
abbrev r1_1 : Rect S1x256 := Rect.unit (s := S1x256) ![0, 0] S1x256.size inb_S1x256_S1x256_0_0

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by decide +kernel

abbrev cond1_2 (i : grid1.Coords) : Prop := k1_cond2 i = 1#1
theorem hcond1_2 : ∀ t : Fin cfg1.N, cond1_2 (grid1.coords t) ↔ t.val = 24 := by decide +kernel

def out1_2 (x0 : Vec F S2000x256 .f32) (x1 : Vec F S1x256 .f32) : Vec F S2000x256 .f32 :=
  View.canon [⟨r1_0, k1_pay3 (View.ld x0 r1_0) (View.ld x1 r1_1)⟩]
def acc1_0 (x0 : Vec F S2000x256 .f32) (x1 s0 : Vec F S1x256 .f32) : Vec F S1x256 .f32 :=
  View.canon [⟨r1_1, k1_pay4 (View.ld x0 r1_0) (View.ld x1 r1_1) (View.ld s0 r1_1)⟩]
def acc1_1 (x0 : Vec F S2000x256 .f32) (x1 s1 : Vec F S1x256 .f32) : Vec F S1x256 .f32 :=
  View.canon [⟨r1_1, k1_pay5 (View.ld x0 r1_0) (View.ld x1 r1_1) (View.ld s1 r1_1)⟩]
def zero1_0 : Vec F S1x256 .f32 := View.canon [⟨r1_1, k1_pay1 (F := F)⟩]
def zero1_1 : Vec F S1x256 .f32 := View.canon [⟨r1_1, k1_pay2 (F := F)⟩]
def mean1 (a0 : Vec F S1x256 .f32) : Vec F S1x256 .f32 :=
  View.canon [⟨r1_1, k1_pay6 (View.ld a0 r1_1)⟩]
def var1 (a0 a1 : Vec F S1x256 .f32) : Vec F S1x256 .f32 :=
  View.canon [⟨r1_1, k1_pay7 (View.ld a0 r1_1) (View.ld a1 r1_1)⟩]

theorem cover1_0 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y
theorem cover1_1 (p0 : Vec F S1x256 .f32) (y : S1x256.Idx) :
    ∃ pc ∈ ([⟨r1_1, p0⟩] : List (View.Piece (Elt F) S1x256 .f32)), y ∈ pc.1.set :=
  View.cover_of_tiled [⟨r1_1, p0⟩] S1x256.size (by rfl) y
theorem mem1_1 (y : S1x256.Idx) : y ∈ r1_1.set :=
  View.mem_set_unit_zero (S := S1x256) (by funext a; fin_cases a <;> rfl) _ y

variable (c : Dev nD) {E : Set ℕ} {i : grid1.Coords} {arg1 arg3 : Memref sig .tc .vmem S2000x256 .f32} {arg2 arg4 arg5 arg6 arg7 : Memref sig .tc .vmem S1x256 .f32} {harg1 : arg1.IsWhole} {harg2 : arg2.IsWhole} {harg3 : arg3.IsWhole} {harg4 : arg4.IsWhole} {harg5 : arg5.IsWhole} {harg6 : arg6.IsWhole} {harg7 : arg7.IsWhole}

theorem sound_kernel1_B (hc0 : ¬cond1_0 i) (hc2 : ¬cond1_2 i)
    (x0 : Vec F S2000x256 .f32) (x1 : Vec F S1x256 .f32) {xi3 xi4 s0 s1 : Vec F S1x256 .f32} {K : PUnit → sProp 𝕄} :
    iprop(ownsTc c arg1 fullShare x0 ∗ ownsTc c arg2 fullShare x1 ∗ (∃ d, ownsTc c arg3 fullShare d) ∗ ownsTc c arg4 fullShare xi3 ∗ ownsTc c arg5 fullShare xi4 ∗ ownsTc c arg6 fullShare s0 ∗ ownsTc c arg7 fullShare s1
        ∗ (iprop(ownsTc c arg1 fullShare x0 ∗ ownsTc c arg2 fullShare x1 ∗ ownsTc c arg3 fullShare (out1_2 x0 x1) ∗ ownsTc c arg4 fullShare xi3 ∗ ownsTc c arg5 fullShare xi4 ∗ ownsTc c arg6 fullShare (acc1_0 x0 x1 s0) ∗ ownsTc c arg7 fullShare (acc1_1 x0 x1 s1)) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton, ownsTc]; unfold cc1__stats_kernel_skel owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0 hf1 hf3 hf4 hf5 hf6
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
    first | exact View.read_writes_eq_canon _ _ _ (cover1_0 _) | exact View.read_writes_eq_canon _ _ _ (cover1_1 _) | rfl

set_option maxHeartbeats 400000 in
theorem sound_kernel1_A (hc0 : cond1_0 i) (hc2 : ¬cond1_2 i)
    (x0 : Vec F S2000x256 .f32) (x1 : Vec F S1x256 .f32) {xi3 xi4 : Vec F S1x256 .f32} {K : PUnit → sProp 𝕄} :
    iprop(ownsTc c arg1 fullShare x0 ∗ ownsTc c arg2 fullShare x1 ∗ (∃ d, ownsTc c arg3 fullShare d) ∗ ownsTc c arg4 fullShare xi3 ∗ ownsTc c arg5 fullShare xi4 ∗ (∃ d, ownsTc c arg6 fullShare d) ∗ (∃ d, ownsTc c arg7 fullShare d)
        ∗ (iprop(ownsTc c arg1 fullShare x0 ∗ ownsTc c arg2 fullShare x1 ∗ ownsTc c arg3 fullShare (out1_2 x0 x1) ∗ ownsTc c arg4 fullShare xi3 ∗ ownsTc c arg5 fullShare xi4 ∗ ownsTc c arg6 fullShare (acc1_0 x0 x1 zero1_0) ∗ ownsTc c arg7 fullShare (acc1_1 x0 x1 zero1_1)) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton, ownsTc]; unfold cc1__stats_kernel_skel owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0 hf1 hf3 hf4
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
  iterate 2
    sl_unfold_run_names
    rw [View.readCov_eq_canon_ld _ _ r1_1 (cover1_1 _)]
    exact (View.read_writes_of_cover_last _ _ arg6.view f5 _ _ [] mem1_1).trans (View.read_writes_eq_canon _ _ _ (cover1_1 _))
  all_goals first | exact View.read_writes_eq_canon _ _ _ (cover1_0 _) | rfl

theorem sound_kernel1_C (hc0 : ¬cond1_0 i) (hc2 : cond1_2 i)
    (x0 : Vec F S2000x256 .f32) (x1 : Vec F S1x256 .f32) {s0 s1 : Vec F S1x256 .f32} {K : PUnit → sProp 𝕄} :
    iprop(ownsTc c arg1 fullShare x0 ∗ ownsTc c arg2 fullShare x1 ∗ (∃ d, ownsTc c arg3 fullShare d) ∗ (∃ d, ownsTc c arg4 fullShare d) ∗ (∃ d, ownsTc c arg5 fullShare d) ∗ ownsTc c arg6 fullShare s0 ∗ ownsTc c arg7 fullShare s1
        ∗ (iprop(ownsTc c arg1 fullShare x0 ∗ ownsTc c arg2 fullShare x1 ∗ ownsTc c arg3 fullShare (out1_2 x0 x1) ∗ ownsTc c arg4 fullShare (mean1 (acc1_0 x0 x1 s0)) ∗ ownsTc c arg5 fullShare (var1 (acc1_0 x0 x1 s0) (acc1_1 x0 x1 s1)) ∗ ownsTc c arg6 fullShare (acc1_0 x0 x1 s0) ∗ ownsTc c arg7 fullShare (acc1_1 x0 x1 s1)) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton, ownsTc]; unfold cc1__stats_kernel_skel owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0 hf1 hf5 hf6
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
  iterate 2 exact View.read_writes_eq_canon _ _ _ (cover1_1 _)
  iterate 2
    sl_unfold_run_names
    repeat rw [View.readCov_eq_canon_ld _ _ r1_1 (cover1_1 _)]
    exact View.read_writes_eq_canon _ _ _ (cover1_1 _)
  all_goals first | exact View.read_writes_eq_canon _ _ _ (cover1_0 _) | rfl

end Cert.Kernel.Hand

end
-- ==== Proof.K.R1.lean ====
-- The column-statistics call: running column sums and sums of squares carried from tile to tile, mean and variance written at the last tile.
import proofs.«164947_j60361470378157_1_alg».proof.Proof.K.R1Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem idle1 : ∀ (t : Fin cfg1.N) (w : Fin cfg1.W), 3 ≤ w.val →
    (t.val = 24 → cfg1.idle w (grid1.coords t) = false) ∧
    (¬t.val = 24 → cfg1.idle w (grid1.coords t) = true ∧ (cfg1.win w).flush t = false) := by decide +kernel

theorem PhiA1_eq (c : Dev nD) :
    (Pipeline.ΦA spec1 c : sProp 𝕄)
      = iprop(iprop(iprop((∃ d, owns (c : Thread nD τ) (Memref.whole cc1_scratch0) fullShare d) ∗ (∃ d, owns (c : Thread nD τ) (Memref.whole cc1_scratch1) fullShare d))
          ∗ Pipeline.scopedRestBut spec1 c [cc1_scratch0, cc1_scratch1]) ∗ (∃ r, prngReg c r)) := by
  unfold Pipeline.ΦA; rw [scopedRest1_split]; simp only [owns_whole]

def sums1 (c : Dev nD) : (n : ℕ) → n < cfg1.N → Vec F S1x256 .f32 × Vec F S1x256 .f32
  | 0, hn => (acc1_0 (iblk1 V c 0 ⟨0, hn⟩) (iblk1 V c 1 ⟨0, hn⟩) zero1_0, acc1_1 (iblk1 V c 0 ⟨0, hn⟩) (iblk1 V c 1 ⟨0, hn⟩) zero1_1)
  | n + 1, hn => (acc1_0 (iblk1 V c 0 ⟨n + 1, hn⟩) (iblk1 V c 1 ⟨n + 1, hn⟩) (sums1 c n (Nat.lt_of_succ_lt hn)).1,
      acc1_1 (iblk1 V c 0 ⟨n + 1, hn⟩) (iblk1 V c 1 ⟨n + 1, hn⟩) (sums1 c n (Nat.lt_of_succ_lt hn)).2)

def outsAt1 (c : Dev nD) (n : ℕ) (hn : n < cfg1.N) :
    Vec F S2000x256 .f32 × Vec F S1x256 .f32 × Vec F S1x256 .f32 × Vec F S1x256 .f32 × Vec F S1x256 .f32 :=
  (out1_2 (iblk1 V c 0 ⟨n, hn⟩) (iblk1 V c 1 ⟨n, hn⟩),
   mean1 (sums1 V c n hn).1, var1 (sums1 V c n hn).1 (sums1 V c n hn).2,
   (sums1 V c n hn).1, (sums1 V c n hn).2)

def kept1 (c : Dev nD) (s : Vec F S1x256 .f32 × Vec F S1x256 .f32) : sProp 𝕄 :=
  iprop(iprop(iprop(owns (c : Thread nD τ) (Memref.whole cc1_scratch0) fullShare s.1 ∗ owns (c : Thread nD τ) (Memref.whole cc1_scratch1) fullShare s.2)
      ∗ Pipeline.scopedRestBut spec1 c [cc1_scratch0, cc1_scratch1]) ∗ (∃ r, prngReg c r))

def PhiS1 (c : Dev nD) : (n : ℕ) → n ≤ cfg1.N → sProp 𝕄
  | 0, _ => Pipeline.ΦA spec1 c
  | n + 1, hn => kept1 c (sums1 V c n hn)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2.1
  Φ t := PhiS1 V c t.val (Nat.le_of_lt_succ t.isLt)
  q _ := fullShare
  owed _ := 0

theorem live1 (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1, outsAt1]
theorem after1_3 (c : Dev nD) (t : Fin cfg1.N) : (dat1 V c).after 3 t = mean1 (sums1 V c t.val t.isLt).1 := by dsimp only [dat1, outsAt1]
theorem after1_4 (c : Dev nD) (t : Fin cfg1.N) : (dat1 V c).after 4 t = var1 (sums1 V c t.val t.isLt).1 (sums1 V c t.val t.isLt).2 := by dsimp only [dat1, outsAt1]

theorem before1 (c : Dev nD) (t : Fin cfg1.N) :
    (∀ d, (dat1 V c).before 0 t d = iblk1 V c 0 t) ∧ ∀ d, (dat1 V c).before 1 t d = iblk1 V c 1 t :=
  ⟨fun d => ((dat1 V c).before_in_eq_fetched 0 rfl (fun _ => rfl) (fun _ _ _ => rfl) (fun _ => rfl) t d).trans rfl,
   fun d => ((dat1 V c).before_in_eq_fetched 1 rfl (fun _ => rfl) (fun _ _ _ => rfl) (fun _ => rfl) t d).trans rfl⟩

theorem leaves1 (c : Dev nD) (t : Fin cfg1.N) (w : Fin cfg1.W) (hw : 3 ≤ w.val) :
    (dat1 V c).leavesExact w t = if t.val = 24 then owns (c : Thread nD τ) ((cfg1.win w).stage (cfg1.slots t w)) fullShare ((dat1 V c).after w t)
      else iprop(∃ d, owns (c : Thread nD τ) ((cfg1.win w).stage (cfg1.slots t w)) fullShare ((dat1 V c).before w t d)) := by
  by_cases h : t.val = 24
  · rw [if_pos h]; exact live1 V c w t ((idle1 t w hw).1 h)
  · rw [if_neg h]; exact Dat.leavesExact_idle _ w t ((idle1 t w hw).2 h).1 ((idle1 t w hw).2 h).2

-- At the first tile the sums start from zero.
theorem first1 (c : Dev nD) (t : Fin cfg1.N) (h0 : t.val = 0) :
    (dat1 V c).Φ t.castSucc = Pipeline.ΦA spec1 c ∧ sums1 V c t.val t.isLt
      = (acc1_0 (iblk1 V c 0 t) (iblk1 V c 1 t) zero1_0, acc1_1 (iblk1 V c 0 t) (iblk1 V c 1 t) zero1_1) := by
  obtain ⟨_ | n, hn⟩ := t
  exacts [⟨rfl, rfl⟩, absurd h0 (Nat.succ_ne_zero n)]

-- At a later tile the sums go on from what the tile before left.
theorem later1 (c : Dev nD) (t : Fin cfg1.N) (h0 : ¬t.val = 0) :
    ∃ s, (dat1 V c).Φ t.castSucc = kept1 c s ∧ sums1 V c t.val t.isLt
      = (acc1_0 (iblk1 V c 0 t) (iblk1 V c 1 t) s.1, acc1_1 (iblk1 V c 0 t) (iblk1 V c 1 t) s.2) := by
  obtain ⟨_ | n, hn⟩ := t
  exacts [absurd rfl h0, ⟨sums1 V c n (Nat.lt_of_succ_lt hn), rfl, rfl⟩]

-- The first, the last and the other tiles differ only in which rows are named: one argument serves the three.
theorem body_obligation1 (c : Dev nD) : BodyObligation (dat1 (F := F) V c) (defs₀ (F := F)) Variants.none () Set.univ := fun t => by
  rw [bigSep_W1, bigSep_W1]
  show _ ⊢ wp _ _ _ (bodyAt1 t) fun _ => iprop(_ ∗ _ ∗ (dat1 V c).leavesExact 0 t ∗ (dat1 V c).leavesExact 1 t
    ∗ (dat1 V c).leavesExact 2 t ∗ (dat1 V c).leavesExact 3 t ∗ (dat1 V c).leavesExact 4 t)
  unfold bodyAt1
  simp only [(before1 V c t).1, (before1 V c t).2]
  rw [show (dat1 V c).owesAt () t.succ = (dat1 V c).owesAt () t.castSucc from rfl,
    show (dat1 V c).Φ t.succ = kept1 c (sums1 V c t.val t.isLt) from rfl,
    live1 V c 0 t rfl, live1 V c 1 t rfl, live1 V c 2 t rfl, leaves1 V c t 3 (by decide), leaves1 V c t 4 (by decide),
    after1_0, after1_1, after1_2, after1_3, after1_4]
  by_cases h0 : t.val = 0 <;> by_cases h2 : t.val = 24
  · exact absurd h2 (by omega)
  on_goal 1 => rw [(first1 V c t h0).1, (first1 V c t h0).2, PhiA1_eq, if_neg h2, if_neg h2]
  on_goal 2 => obtain ⟨s, e, e'⟩ := later1 V c t h0; rw [e, e', if_pos h2, if_pos h2]
  on_goal 3 => obtain ⟨s, e, e'⟩ := later1 V c t h0; rw [e, e', if_neg h2, if_neg h2]
  all_goals
    unfold kept1
    iintro ⟨⟨⟨⟨HS0, HS1⟩, Hr⟩, Hg⟩, Ho, ⟨%d0, H0⟩, ⟨%d1, H1⟩, ⟨%d2, H2⟩, ⟨%d3, H3⟩, ⟨%d4, H4⟩⟩
  on_goal 3 => iapply sound_kernel1_B c (mt (hcond1_0 t).mp h0) (mt (hcond1_2 t).mp h2) (iblk1 V c 0 t) (iblk1 V c 1 t)
  on_goal 2 => iapply sound_kernel1_C c (mt (hcond1_0 t).mp h0) ((hcond1_2 t).mpr h2) (iblk1 V c 0 t) (iblk1 V c 1 t)
  on_goal 1 => iapply sound_kernel1_A c ((hcond1_0 t).mpr h0) (mt (hcond1_2 t).mp h2) (iblk1 V c 0 t) (iblk1 V c 1 t)
  all_goals
    iframe H0 H1
    isplitl [H2]; · iexists _; iexact H2
    isplitl [H3]; · first | iexact H3 | (iexists _; iexact H3)
    isplitl [H4]; · first | iexact H4 | (iexists _; iexact H4)
    isplitl [HS0]; · iexact HS0
    isplitl [HS1]; · iexact HS1
    iintro ⟨H0, H1, H2, H3, H4, HS0, HS1⟩
    iframe HS0 HS1 Hr Hg Ho H0 H1 H2
    isplitl [H3] <;> first | iassumption | (iexists _; iassumption)

theorem hin1 (c : Dev nD) : Pipeline.ΦA spec1 c ⊢ (dat1 V c).Φ 0 := Entails.refl _

theorem hout1 (c : Dev nD) : (dat1 V c).Φ (Fin.last cfg1.N) ⊢ Pipeline.ΦA spec1 c := by
  rw [show (dat1 V c).Φ (Fin.last cfg1.N) = kept1 c (sums1 V c 24 (by decide)) from rfl, PhiA1_eq]; unfold kept1
  iintro ⟨⟨⟨HS0, HS1⟩, Hr⟩, Hg⟩
  iframe Hr Hg
  isplitl [HS0] <;> iexists _ <;> iassumption

end Cert.Kernel.Hand

end
-- ==== Proof.K.R2.lean ====
-- The normalise-and-threshold call: proof data and body obligation at arbitrary entry contents.
import proofs.«164947_j60361470378157_1_alg».proof.Proof.Gen.Kernel.Launch
import proofs.«164947_j60361470378157_1_alg».proof.Proof.Gen.Kernel.Skeleton
import proofs.«164947_j60361470378157_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x256 := Rect.unit (s := S2000x256) ![0, 0] S2000x256.size inb_S2000x256_S2000x256_0_0
abbrev r2_1 : Rect S1x256 := Rect.unit (s := S1x256) ![0, 0] S1x256.size inb_S1x256_S1x256_0_0
abbrev r2_2 : Rect S1x1 := Rect.unit (s := S1x1) ![0, 0] S1x1.size inb_S1x1_S1x1_0_0

def out2_6 (x0 : Vec F S2000x256 .f32) (x1 x2 x3 x4 : Vec F S1x256 .f32) (x5 : Vec F S1x1 .f32) : Vec F S2000x256 .f32 :=
  View.canon [⟨r2_0, k2_pay1 (View.ld x0 r2_0) (View.ld x1 r2_1) (View.ld x2 r2_1) (View.ld x3 r2_1) (View.ld x4 r2_1) (View.ld x5 r2_2)⟩]

-- Every entry of the output is written, so it depends on the six inputs alone.
theorem sound_kernel2 (c : Dev nD) {E : Set ℕ} {i : grid2.Coords} {arg1 arg7 : Memref sig .tc .vmem S2000x256 .f32}
    {arg2 arg3 arg4 arg5 : Memref sig .tc .vmem S1x256 .f32} {arg6 : Memref sig .tc .vmem S1x1 .f32}
    {harg1 harg2 harg3 harg4 harg5 harg6 harg7} (x0 x6 : Vec F S2000x256 .f32) (x1 x2 x3 x4 : Vec F S1x256 .f32)
    (x5 : Vec F S1x1 .f32) {K : PUnit → sProp 𝕄} :
    let P := iprop(ownsTc c arg1 fullShare x0 ∗ ownsTc c arg2 fullShare x1 ∗ ownsTc c arg3 fullShare x2 ∗ ownsTc c arg4 fullShare x3
      ∗ ownsTc c arg5 fullShare x4 ∗ ownsTc c arg6 fullShare x5)
    iprop(P ∗ ownsTc c arg7 fullShare x6 ∗ (iprop(P ∗ ownsTc c arg7 fullShare (out2_6 x0 x1 x2 x3 x4 x5)) -∗ K ⟨⟩))
      ⊢ wp frame (wpE (defs₀ (F := F)) Variants.none c none) E
        (cc2__normalize_kernel i arg1 harg1 arg2 harg2 arg3 harg3 arg4 harg4 arg5 harg5 arg6 harg6 arg7 harg7) K := by
  simp only [cc2__normalize_kernel_eq_skeleton, ownsTc]; unfold cc2__normalize_kernel_skel owns
  iintro ⟨⟨⟨%f0, %hf0, H0⟩, ⟨%f1, %hf1, H1⟩, ⟨%f2, %hf2, H2⟩, ⟨%f3, %hf3, H3⟩, ⟨%f4, %hf4, H4⟩, %f5, %hf5, H5⟩, ⟨%f6, -, H6⟩, Hk⟩
  subst hf0 hf1 hf2 hf3 hf4 hf5
  sl_exec
  sl_step
  iapply Hk
  isplitr [H6]; isplitl [H0]; swap; isplitl [H1]; swap; isplitl [H2]; swap; isplitl [H3]; swap; isplitl [H4]
  all_goals
    iexists _; isplitr; swap; · iassumption
    ipureintro
    first | exact View.read_writes_eq_canon _ _ _ (View.cover_of_tiled _ S2000x256.size (by rfl)) | rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) : ∀ w : Fin 7, w ≠ 6 → ∀ d, (dat2 V c).before w t d = (dat2 V c).after w t
  | 0, _, d | 1, _, d | 2, _, d | 3, _, d | 4, _, d | 5, _, d =>
    (dat2 V c).before_in_eq_fetched _ rfl (fun _ => rfl) (fun _ _ _ => rfl) (fun _ => rfl) t d
  | 6, h, _ => absurd rfl h
  | ⟨_ + 7, h⟩, _, _ => by omega

theorem body_obligation2 (c : Dev nD) : BodyObligation (dat2 (F := F) V c) (defs₀ (F := F)) Variants.none () Set.univ := fun t => by
  rw [bigSep_W2, bigSep_W2]
  simp +decide only [before2 V c t, after2_6]
  show _ ⊢ wp _ _ _ (bodyAt2 t) fun _ => iprop((dat2 V c).Φ t.castSucc ∗ (dat2 V c).owesAt () t.castSucc ∗ _)
  iintro ⟨HΦ, Ho, ⟨%_, H0⟩, ⟨%_, H1⟩, ⟨%_, H2⟩, ⟨%_, H3⟩, ⟨%_, H4⟩, ⟨%_, H5⟩, ⟨%d, H6⟩⟩
  iapply sound_kernel2 c ((dat2 V c).after 0 t) ((dat2 V c).before 6 t d) ((dat2 V c).after 1 t) ((dat2 V c).after 2 t)
    ((dat2 V c).after 3 t) ((dat2 V c).after 4 t) ((dat2 V c).after 5 t)
  iframe
  iintro ⟨⟨H0, H1, H2, H3, H4, H5⟩, H6⟩
  iframe
  iexact H6

end Cert.Kernel.Hand

end
-- ==== Proof.K.R3.lean ====
-- A matrix product, one tile of 2000 rows at a time: proof data and body obligation at arbitrary entry contents.
import proofs.«164947_j60361470378157_1_alg».proof.Proof.Gen.Kernel.Launch
import proofs.«164947_j60361470378157_1_alg».proof.Proof.Gen.Kernel.Skeleton
import proofs.«164947_j60361470378157_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x256 := Rect.unit (s := S2000x256) ![0, 0] S2000x256.size inb_S2000x256_S2000x256_0_0
abbrev r3_1 : Rect S256x256 := Rect.unit (s := S256x256) ![0, 0] S256x256.size inb_S256x256_S256x256_0_0
abbrev r3_2 : Rect S2000x256 := Rect.unit (s := S2000x256) ![0, 0] S2000x256.size inb_S2000x256_S2000x256_0_0

def out3_2 (x0 : Vec F S2000x256 .f32) (x1 : Vec F S256x256 .f32) : Vec F S2000x256 .f32 :=
  View.canon [⟨r3_2, k3_pay1 (View.ld x0 r3_0) (View.ld x1 r3_1)⟩]

-- Every entry of the output is written, so it depends on the two inputs alone.
theorem sound_kernel3 (c : Dev nD) {E : Set ℕ} {i : grid3.Coords} {arg1 : Memref sig .tc .vmem S2000x256 .f32}
    {arg2 : Memref sig .tc .vmem S256x256 .f32} {arg3 : Memref sig .tc .vmem S2000x256 .f32} {harg1 harg2 harg3}
    (x0 : Vec F S2000x256 .f32) (x1 : Vec F S256x256 .f32) (x2 : Vec F S2000x256 .f32) {K : PUnit → sProp 𝕄} :
    iprop(ownsTc c arg1 fullShare x0 ∗ ownsTc c arg2 fullShare x1 ∗ ownsTc c arg3 fullShare x2
        ∗ (iprop(ownsTc c arg1 fullShare x0 ∗ ownsTc c arg2 fullShare x1 ∗ ownsTc c arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton, ownsTc]; unfold cc3__matmul_kernel_skel owns
  iintro ⟨⟨%f0, %hf0, H0⟩, ⟨%f1, %hf1, H1⟩, ⟨%f2, -, H2⟩, Hk⟩
  subst hf0 hf1
  sl_exec
  sl_step
  iapply Hk
  isplitl [H0]; swap; isplitl [H1]
  all_goals
    iexists _; isplitr; swap; · iassumption
    ipureintro
    first | exact View.read_writes_eq_canon _ _ _ (View.cover_of_tiled _ S2000x256.size (by rfl)) | rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

theorem before3 (c : Dev nD) (t : Fin cfg3.N) : ∀ w : Fin 3, w ≠ 2 → ∀ d, (dat3 V c).before w t d = (dat3 V c).after w t
  | 0, _, d | 1, _, d => (dat3 V c).before_in_eq_fetched _ rfl (fun _ => rfl) (fun _ _ _ => rfl) (fun _ => rfl) t d
  | 2, h, _ => absurd rfl h
  | ⟨_ + 3, h⟩, _, _ => by omega

theorem body_obligation3 (c : Dev nD) : BodyObligation (dat3 (F := F) V c) (defs₀ (F := F)) Variants.none () Set.univ := fun t => by
  rw [bigSep_W3, bigSep_W3]
  simp +decide only [before3 V c t, after3_2]
  show _ ⊢ wp _ _ _ (bodyAt3 t) fun _ => iprop((dat3 V c).Φ t.castSucc ∗ (dat3 V c).owesAt () t.castSucc ∗ _)
  iintro ⟨HΦ, Ho, ⟨%_, H0⟩, ⟨%_, H1⟩, ⟨%d, H2⟩⟩
  iapply sound_kernel3 c ((dat3 V c).after 0 t) ((dat3 V c).after 1 t) ((dat3 V c).before 2 t d)
  iframe
  iintro ⟨H0, H1, H2⟩
  iframe
  iexact H2

end Cert.Kernel.Hand

end
-- ==== Proof.K.R4Runs.lean ====
-- One run of the column-statistics body in each of its three cases (first tile, a middle tile, last tile).
import proofs.«164947_j60361470378157_1_alg».proof.Proof.Gen.Kernel.Launch
import proofs.«164947_j60361470378157_1_alg».proof.Proof.Gen.Kernel.Skeleton
import proofs.«164947_j60361470378157_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

abbrev r4_0 : Rect S2000x256 := Rect.unit (s := S2000x256) ![0, 0] S2000x256.size inb_S2000x256_S2000x256_0_0
abbrev r4_1 : Rect S1x256 := Rect.unit (s := S1x256) ![0, 0] S1x256.size inb_S1x256_S1x256_0_0

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 := by decide +kernel

abbrev cond4_2 (i : grid4.Coords) : Prop := k4_cond2 i = 1#1
theorem hcond4_2 : ∀ t : Fin cfg4.N, cond4_2 (grid4.coords t) ↔ t.val = 24 := by decide +kernel

def out4_2 (x0 : Vec F S2000x256 .f32) (x1 : Vec F S1x256 .f32) : Vec F S2000x256 .f32 :=
  View.canon [⟨r4_0, k4_pay3 (View.ld x0 r4_0) (View.ld x1 r4_1)⟩]
def acc4_0 (x0 : Vec F S2000x256 .f32) (x1 s0 : Vec F S1x256 .f32) : Vec F S1x256 .f32 :=
  View.canon [⟨r4_1, k4_pay4 (View.ld x0 r4_0) (View.ld x1 r4_1) (View.ld s0 r4_1)⟩]
def acc4_1 (x0 : Vec F S2000x256 .f32) (x1 s1 : Vec F S1x256 .f32) : Vec F S1x256 .f32 :=
  View.canon [⟨r4_1, k4_pay5 (View.ld x0 r4_0) (View.ld x1 r4_1) (View.ld s1 r4_1)⟩]
def zero4_0 : Vec F S1x256 .f32 := View.canon [⟨r4_1, k4_pay1 (F := F)⟩]
def zero4_1 : Vec F S1x256 .f32 := View.canon [⟨r4_1, k4_pay2 (F := F)⟩]
def mean4 (a0 : Vec F S1x256 .f32) : Vec F S1x256 .f32 :=
  View.canon [⟨r4_1, k4_pay6 (View.ld a0 r4_1)⟩]
def var4 (a0 a1 : Vec F S1x256 .f32) : Vec F S1x256 .f32 :=
  View.canon [⟨r4_1, k4_pay7 (View.ld a0 r4_1) (View.ld a1 r4_1)⟩]

theorem cover4_0 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y
theorem cover4_1 (p0 : Vec F S1x256 .f32) (y : S1x256.Idx) :
    ∃ pc ∈ ([⟨r4_1, p0⟩] : List (View.Piece (Elt F) S1x256 .f32)), y ∈ pc.1.set :=
  View.cover_of_tiled [⟨r4_1, p0⟩] S1x256.size (by rfl) y
theorem mem4_1 (y : S1x256.Idx) : y ∈ r4_1.set :=
  View.mem_set_unit_zero (S := S1x256) (by funext a; fin_cases a <;> rfl) _ y

variable (c : Dev nD) {E : Set ℕ} {i : grid4.Coords} {arg1 arg3 : Memref sig .tc .vmem S2000x256 .f32} {arg2 arg4 arg5 arg6 arg7 : Memref sig .tc .vmem S1x256 .f32} {harg1 : arg1.IsWhole} {harg2 : arg2.IsWhole} {harg3 : arg3.IsWhole} {harg4 : arg4.IsWhole} {harg5 : arg5.IsWhole} {harg6 : arg6.IsWhole} {harg7 : arg7.IsWhole}

theorem sound_kernel4_B (hc0 : ¬cond4_0 i) (hc2 : ¬cond4_2 i)
    (x0 : Vec F S2000x256 .f32) (x1 : Vec F S1x256 .f32) {xi3 xi4 s0 s1 : Vec F S1x256 .f32} {K : PUnit → sProp 𝕄} :
    iprop(ownsTc c arg1 fullShare x0 ∗ ownsTc c arg2 fullShare x1 ∗ (∃ d, ownsTc c arg3 fullShare d) ∗ ownsTc c arg4 fullShare xi3 ∗ ownsTc c arg5 fullShare xi4 ∗ ownsTc c arg6 fullShare s0 ∗ ownsTc c arg7 fullShare s1
        ∗ (iprop(ownsTc c arg1 fullShare x0 ∗ ownsTc c arg2 fullShare x1 ∗ ownsTc c arg3 fullShare (out4_2 x0 x1) ∗ ownsTc c arg4 fullShare xi3 ∗ ownsTc c arg5 fullShare xi4 ∗ ownsTc c arg6 fullShare (acc4_0 x0 x1 s0) ∗ ownsTc c arg7 fullShare (acc4_1 x0 x1 s1)) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton, ownsTc]; unfold cc4__stats_kernel_skel owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0 hf1 hf3 hf4 hf5 hf6
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
    first | exact View.read_writes_eq_canon _ _ _ (cover4_0 _) | exact View.read_writes_eq_canon _ _ _ (cover4_1 _) | rfl

set_option maxHeartbeats 400000 in
theorem sound_kernel4_A (hc0 : cond4_0 i) (hc2 : ¬cond4_2 i)
    (x0 : Vec F S2000x256 .f32) (x1 : Vec F S1x256 .f32) {xi3 xi4 : Vec F S1x256 .f32} {K : PUnit → sProp 𝕄} :
    iprop(ownsTc c arg1 fullShare x0 ∗ ownsTc c arg2 fullShare x1 ∗ (∃ d, ownsTc c arg3 fullShare d) ∗ ownsTc c arg4 fullShare xi3 ∗ ownsTc c arg5 fullShare xi4 ∗ (∃ d, ownsTc c arg6 fullShare d) ∗ (∃ d, ownsTc c arg7 fullShare d)
        ∗ (iprop(ownsTc c arg1 fullShare x0 ∗ ownsTc c arg2 fullShare x1 ∗ ownsTc c arg3 fullShare (out4_2 x0 x1) ∗ ownsTc c arg4 fullShare xi3 ∗ ownsTc c arg5 fullShare xi4 ∗ ownsTc c arg6 fullShare (acc4_0 x0 x1 zero4_0) ∗ ownsTc c arg7 fullShare (acc4_1 x0 x1 zero4_1)) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton, ownsTc]; unfold cc4__stats_kernel_skel owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0 hf1 hf3 hf4
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
  iterate 2
    sl_unfold_run_names
    rw [View.readCov_eq_canon_ld _ _ r4_1 (cover4_1 _)]
    exact (View.read_writes_of_cover_last _ _ arg6.view f5 _ _ [] mem4_1).trans (View.read_writes_eq_canon _ _ _ (cover4_1 _))
  all_goals first | exact View.read_writes_eq_canon _ _ _ (cover4_0 _) | rfl

theorem sound_kernel4_C (hc0 : ¬cond4_0 i) (hc2 : cond4_2 i)
    (x0 : Vec F S2000x256 .f32) (x1 : Vec F S1x256 .f32) {s0 s1 : Vec F S1x256 .f32} {K : PUnit → sProp 𝕄} :
    iprop(ownsTc c arg1 fullShare x0 ∗ ownsTc c arg2 fullShare x1 ∗ (∃ d, ownsTc c arg3 fullShare d) ∗ (∃ d, ownsTc c arg4 fullShare d) ∗ (∃ d, ownsTc c arg5 fullShare d) ∗ ownsTc c arg6 fullShare s0 ∗ ownsTc c arg7 fullShare s1
        ∗ (iprop(ownsTc c arg1 fullShare x0 ∗ ownsTc c arg2 fullShare x1 ∗ ownsTc c arg3 fullShare (out4_2 x0 x1) ∗ ownsTc c arg4 fullShare (mean4 (acc4_0 x0 x1 s0)) ∗ ownsTc c arg5 fullShare (var4 (acc4_0 x0 x1 s0) (acc4_1 x0 x1 s1)) ∗ ownsTc c arg6 fullShare (acc4_0 x0 x1 s0) ∗ ownsTc c arg7 fullShare (acc4_1 x0 x1 s1)) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton, ownsTc]; unfold cc4__stats_kernel_skel owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0 hf1 hf5 hf6
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
  iterate 2 exact View.read_writes_eq_canon _ _ _ (cover4_1 _)
  iterate 2
    sl_unfold_run_names
    repeat rw [View.readCov_eq_canon_ld _ _ r4_1 (cover4_1 _)]
    exact View.read_writes_eq_canon _ _ _ (cover4_1 _)
  all_goals first | exact View.read_writes_eq_canon _ _ _ (cover4_0 _) | rfl

end Cert.Kernel.Hand

end
-- ==== Proof.K.R4.lean ====
-- The column-statistics call: running column sums and sums of squares carried from tile to tile, mean and variance written at the last tile.
import proofs.«164947_j60361470378157_1_alg».proof.Proof.K.R4Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem idle4 : ∀ (t : Fin cfg4.N) (w : Fin cfg4.W), 3 ≤ w.val →
    (t.val = 24 → cfg4.idle w (grid4.coords t) = false) ∧
    (¬t.val = 24 → cfg4.idle w (grid4.coords t) = true ∧ (cfg4.win w).flush t = false) := by decide +kernel

theorem PhiA4_eq (c : Dev nD) :
    (Pipeline.ΦA spec4 c : sProp 𝕄)
      = iprop(iprop(iprop((∃ d, owns (c : Thread nD τ) (Memref.whole cc4_scratch0) fullShare d) ∗ (∃ d, owns (c : Thread nD τ) (Memref.whole cc4_scratch1) fullShare d))
          ∗ Pipeline.scopedRestBut spec4 c [cc4_scratch0, cc4_scratch1]) ∗ (∃ r, prngReg c r)) := by
  unfold Pipeline.ΦA; rw [scopedRest4_split]; simp only [owns_whole]

def sums4 (c : Dev nD) : (n : ℕ) → n < cfg4.N → Vec F S1x256 .f32 × Vec F S1x256 .f32
  | 0, hn => (acc4_0 (iblk4 V c 0 ⟨0, hn⟩) (iblk4 V c 1 ⟨0, hn⟩) zero4_0, acc4_1 (iblk4 V c 0 ⟨0, hn⟩) (iblk4 V c 1 ⟨0, hn⟩) zero4_1)
  | n + 1, hn => (acc4_0 (iblk4 V c 0 ⟨n + 1, hn⟩) (iblk4 V c 1 ⟨n + 1, hn⟩) (sums4 c n (Nat.lt_of_succ_lt hn)).1,
      acc4_1 (iblk4 V c 0 ⟨n + 1, hn⟩) (iblk4 V c 1 ⟨n + 1, hn⟩) (sums4 c n (Nat.lt_of_succ_lt hn)).2)

def outsAt4 (c : Dev nD) (n : ℕ) (hn : n < cfg4.N) :
    Vec F S2000x256 .f32 × Vec F S1x256 .f32 × Vec F S1x256 .f32 × Vec F S1x256 .f32 × Vec F S1x256 .f32 :=
  (out4_2 (iblk4 V c 0 ⟨n, hn⟩) (iblk4 V c 1 ⟨n, hn⟩),
   mean4 (sums4 V c n hn).1, var4 (sums4 V c n hn).1 (sums4 V c n hn).2,
   (sums4 V c n hn).1, (sums4 V c n hn).2)

def kept4 (c : Dev nD) (s : Vec F S1x256 .f32 × Vec F S1x256 .f32) : sProp 𝕄 :=
  iprop(iprop(iprop(owns (c : Thread nD τ) (Memref.whole cc4_scratch0) fullShare s.1 ∗ owns (c : Thread nD τ) (Memref.whole cc4_scratch1) fullShare s.2)
      ∗ Pipeline.scopedRestBut spec4 c [cc4_scratch0, cc4_scratch1]) ∗ (∃ r, prngReg c r))

def PhiS4 (c : Dev nD) : (n : ℕ) → n ≤ cfg4.N → sProp 𝕄
  | 0, _ => Pipeline.ΦA spec4 c
  | n + 1, hn => kept4 c (sums4 V c n hn)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
    | ⟨4, _⟩ => (outsAt4 V c t.val t.isLt).2.2.1
  Φ t := PhiS4 V c t.val (Nat.le_of_lt_succ t.isLt)
  q _ := fullShare
  owed _ := 0

theorem live4 (c : Dev nD) (w : Fin cfg4.W) (t : Fin cfg4.N) (h : cfg4.idle w (cfg4.grid.coords t) = false) :
    (dat4 V c).leavesExact w t = owns (c : Thread nD τ) ((cfg4.win w).stage (cfg4.slots t w)) fullShare ((dat4 V c).after w t) := by
  unfold Dat.leavesExact; rw [h]

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4, outsAt4]
theorem after4_3 (c : Dev nD) (t : Fin cfg4.N) : (dat4 V c).after 3 t = mean4 (sums4 V c t.val t.isLt).1 := by dsimp only [dat4, outsAt4]
theorem after4_4 (c : Dev nD) (t : Fin cfg4.N) : (dat4 V c).after 4 t = var4 (sums4 V c t.val t.isLt).1 (sums4 V c t.val t.isLt).2 := by dsimp only [dat4, outsAt4]

theorem before4 (c : Dev nD) (t : Fin cfg4.N) :
    (∀ d, (dat4 V c).before 0 t d = iblk4 V c 0 t) ∧ ∀ d, (dat4 V c).before 1 t d = iblk4 V c 1 t :=
  ⟨fun d => ((dat4 V c).before_in_eq_fetched 0 rfl (fun _ => rfl) (fun _ _ _ => rfl) (fun _ => rfl) t d).trans rfl,
   fun d => ((dat4 V c).before_in_eq_fetched 1 rfl (fun _ => rfl) (fun _ _ _ => rfl) (fun _ => rfl) t d).trans rfl⟩

theorem leaves4 (c : Dev nD) (t : Fin cfg4.N) (w : Fin cfg4.W) (hw : 3 ≤ w.val) :
    (dat4 V c).leavesExact w t = if t.val = 24 then owns (c : Thread nD τ) ((cfg4.win w).stage (cfg4.slots t w)) fullShare ((dat4 V c).after w t)
      else iprop(∃ d, owns (c : Thread nD τ) ((cfg4.win w).stage (cfg4.slots t w)) fullShare ((dat4 V c).before w t d)) := by
  by_cases h : t.val = 24
  · rw [if_pos h]; exact live4 V c w t ((idle4 t w hw).1 h)
  · rw [if_neg h]; exact Dat.leavesExact_idle _ w t ((idle4 t w hw).2 h).1 ((idle4 t w hw).2 h).2

-- At the first tile the sums start from zero.
theorem first4 (c : Dev nD) (t : Fin cfg4.N) (h0 : t.val = 0) :
    (dat4 V c).Φ t.castSucc = Pipeline.ΦA spec4 c ∧ sums4 V c t.val t.isLt
      = (acc4_0 (iblk4 V c 0 t) (iblk4 V c 1 t) zero4_0, acc4_1 (iblk4 V c 0 t) (iblk4 V c 1 t) zero4_1) := by
  obtain ⟨_ | n, hn⟩ := t
  exacts [⟨rfl, rfl⟩, absurd h0 (Nat.succ_ne_zero n)]

-- At a later tile the sums go on from what the tile before left.
theorem later4 (c : Dev nD) (t : Fin cfg4.N) (h0 : ¬t.val = 0) :
    ∃ s, (dat4 V c).Φ t.castSucc = kept4 c s ∧ sums4 V c t.val t.isLt
      = (acc4_0 (iblk4 V c 0 t) (iblk4 V c 1 t) s.1, acc4_1 (iblk4 V c 0 t) (iblk4 V c 1 t) s.2) := by
  obtain ⟨_ | n, hn⟩ := t
  exacts [absurd rfl h0, ⟨sums4 V c n (Nat.lt_of_succ_lt hn), rfl, rfl⟩]

-- The first, the last and the other tiles differ only in which rows are named: one argument serves the three.
theorem body_obligation4 (c : Dev nD) : BodyObligation (dat4 (F := F) V c) (defs₀ (F := F)) Variants.none () Set.univ := fun t => by
  rw [bigSep_W4, bigSep_W4]
  show _ ⊢ wp _ _ _ (bodyAt4 t) fun _ => iprop(_ ∗ _ ∗ (dat4 V c).leavesExact 0 t ∗ (dat4 V c).leavesExact 1 t
    ∗ (dat4 V c).leavesExact 2 t ∗ (dat4 V c).leavesExact 3 t ∗ (dat4 V c).leavesExact 4 t)
  unfold bodyAt4
  simp only [(before4 V c t).1, (before4 V c t).2]
  rw [show (dat4 V c).owesAt () t.succ = (dat4 V c).owesAt () t.castSucc from rfl,
    show (dat4 V c).Φ t.succ = kept4 c (sums4 V c t.val t.isLt) from rfl,
    live4 V c 0 t rfl, live4 V c 1 t rfl, live4 V c 2 t rfl, leaves4 V c t 3 (by decide), leaves4 V c t 4 (by decide),
    after4_0, after4_1, after4_2, after4_3, after4_4]
  by_cases h0 : t.val = 0 <;> by_cases h2 : t.val = 24
  · exact absurd h2 (by omega)
  on_goal 1 => rw [(first4 V c t h0).1, (first4 V c t h0).2, PhiA4_eq, if_neg h2, if_neg h2]
  on_goal 2 => obtain ⟨s, e, e'⟩ := later4 V c t h0; rw [e, e', if_pos h2, if_pos h2]
  on_goal 3 => obtain ⟨s, e, e'⟩ := later4 V c t h0; rw [e, e', if_neg h2, if_neg h2]
  all_goals
    unfold kept4
    iintro ⟨⟨⟨⟨HS0, HS1⟩, Hr⟩, Hg⟩, Ho, ⟨%d0, H0⟩, ⟨%d1, H1⟩, ⟨%d2, H2⟩, ⟨%d3, H3⟩, ⟨%d4, H4⟩⟩
  on_goal 3 => iapply sound_kernel4_B c (mt (hcond4_0 t).mp h0) (mt (hcond4_2 t).mp h2) (iblk4 V c 0 t) (iblk4 V c 1 t)
  on_goal 2 => iapply sound_kernel4_C c (mt (hcond4_0 t).mp h0) ((hcond4_2 t).mpr h2) (iblk4 V c 0 t) (iblk4 V c 1 t)
  on_goal 1 => iapply sound_kernel4_A c ((hcond4_0 t).mpr h0) (mt (hcond4_2 t).mp h2) (iblk4 V c 0 t) (iblk4 V c 1 t)
  all_goals
    iframe H0 H1
    isplitl [H2]; · iexists _; iexact H2
    isplitl [H3]; · first | iexact H3 | (iexists _; iexact H3)
    isplitl [H4]; · first | iexact H4 | (iexists _; iexact H4)
    isplitl [HS0]; · iexact HS0
    isplitl [HS1]; · iexact HS1
    iintro ⟨H0, H1, H2, H3, H4, HS0, HS1⟩
    iframe HS0 HS1 Hr Hg Ho H0 H1 H2
    isplitl [H3] <;> first | iassumption | (iexists _; iassumption)

theorem hin4 (c : Dev nD) : Pipeline.ΦA spec4 c ⊢ (dat4 V c).Φ 0 := Entails.refl _

theorem hout4 (c : Dev nD) : (dat4 V c).Φ (Fin.last cfg4.N) ⊢ Pipeline.ΦA spec4 c := by
  rw [show (dat4 V c).Φ (Fin.last cfg4.N) = kept4 c (sums4 V c 24 (by decide)) from rfl, PhiA4_eq]; unfold kept4
  iintro ⟨⟨⟨HS0, HS1⟩, Hr⟩, Hg⟩
  iframe Hr Hg
  isplitl [HS0] <;> iexists _ <;> iassumption

end Cert.Kernel.Hand

end
-- ==== Proof.K.R5.lean ====
-- The normalise-and-threshold call: proof data and body obligation at arbitrary entry contents.
import proofs.«164947_j60361470378157_1_alg».proof.Proof.Gen.Kernel.Launch
import proofs.«164947_j60361470378157_1_alg».proof.Proof.Gen.Kernel.Skeleton
import proofs.«164947_j60361470378157_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x256 := Rect.unit (s := S2000x256) ![0, 0] S2000x256.size inb_S2000x256_S2000x256_0_0
abbrev r5_1 : Rect S1x256 := Rect.unit (s := S1x256) ![0, 0] S1x256.size inb_S1x256_S1x256_0_0
abbrev r5_2 : Rect S1x1 := Rect.unit (s := S1x1) ![0, 0] S1x1.size inb_S1x1_S1x1_0_0

def out5_6 (x0 : Vec F S2000x256 .f32) (x1 x2 x3 x4 : Vec F S1x256 .f32) (x5 : Vec F S1x1 .f32) : Vec F S2000x256 .f32 :=
  View.canon [⟨r5_0, k5_pay1 (View.ld x0 r5_0) (View.ld x1 r5_1) (View.ld x2 r5_1) (View.ld x3 r5_1) (View.ld x4 r5_1) (View.ld x5 r5_2)⟩]

-- Every entry of the output is written, so it depends on the six inputs alone.
theorem sound_kernel5 (c : Dev nD) {E : Set ℕ} {i : grid5.Coords} {arg1 arg7 : Memref sig .tc .vmem S2000x256 .f32}
    {arg2 arg3 arg4 arg5 : Memref sig .tc .vmem S1x256 .f32} {arg6 : Memref sig .tc .vmem S1x1 .f32}
    {harg1 harg2 harg3 harg4 harg5 harg6 harg7} (x0 x6 : Vec F S2000x256 .f32) (x1 x2 x3 x4 : Vec F S1x256 .f32)
    (x5 : Vec F S1x1 .f32) {K : PUnit → sProp 𝕄} :
    let P := iprop(ownsTc c arg1 fullShare x0 ∗ ownsTc c arg2 fullShare x1 ∗ ownsTc c arg3 fullShare x2 ∗ ownsTc c arg4 fullShare x3
      ∗ ownsTc c arg5 fullShare x4 ∗ ownsTc c arg6 fullShare x5)
    iprop(P ∗ ownsTc c arg7 fullShare x6 ∗ (iprop(P ∗ ownsTc c arg7 fullShare (out5_6 x0 x1 x2 x3 x4 x5)) -∗ K ⟨⟩))
      ⊢ wp frame (wpE (defs₀ (F := F)) Variants.none c none) E
        (cc5__normalize_kernel i arg1 harg1 arg2 harg2 arg3 harg3 arg4 harg4 arg5 harg5 arg6 harg6 arg7 harg7) K := by
  simp only [cc5__normalize_kernel_eq_skeleton, ownsTc]; unfold cc5__normalize_kernel_skel owns
  iintro ⟨⟨⟨%f0, %hf0, H0⟩, ⟨%f1, %hf1, H1⟩, ⟨%f2, %hf2, H2⟩, ⟨%f3, %hf3, H3⟩, ⟨%f4, %hf4, H4⟩, %f5, %hf5, H5⟩, ⟨%f6, -, H6⟩, Hk⟩
  subst hf0 hf1 hf2 hf3 hf4 hf5
  sl_exec
  sl_step
  iapply Hk
  isplitr [H6]; isplitl [H0]; swap; isplitl [H1]; swap; isplitl [H2]; swap; isplitl [H3]; swap; isplitl [H4]
  all_goals
    iexists _; isplitr; swap; · iassumption
    ipureintro
    first | exact View.read_writes_eq_canon _ _ _ (View.cover_of_tiled _ S2000x256.size (by rfl)) | rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) : ∀ w : Fin 7, w ≠ 6 → ∀ d, (dat5 V c).before w t d = (dat5 V c).after w t
  | 0, _, d | 1, _, d | 2, _, d | 3, _, d | 4, _, d | 5, _, d =>
    (dat5 V c).before_in_eq_fetched _ rfl (fun _ => rfl) (fun _ _ _ => rfl) (fun _ => rfl) t d
  | 6, h, _ => absurd rfl h
  | ⟨_ + 7, h⟩, _, _ => by omega

theorem body_obligation5 (c : Dev nD) : BodyObligation (dat5 (F := F) V c) (defs₀ (F := F)) Variants.none () Set.univ := fun t => by
  rw [bigSep_W5, bigSep_W5]
  simp +decide only [before5 V c t, after5_6]
  show _ ⊢ wp _ _ _ (bodyAt5 t) fun _ => iprop((dat5 V c).Φ t.castSucc ∗ (dat5 V c).owesAt () t.castSucc ∗ _)
  iintro ⟨HΦ, Ho, ⟨%_, H0⟩, ⟨%_, H1⟩, ⟨%_, H2⟩, ⟨%_, H3⟩, ⟨%_, H4⟩, ⟨%_, H5⟩, ⟨%d, H6⟩⟩
  iapply sound_kernel5 c ((dat5 V c).after 0 t) ((dat5 V c).before 6 t d) ((dat5 V c).after 1 t) ((dat5 V c).after 2 t)
    ((dat5 V c).after 3 t) ((dat5 V c).after 4 t) ((dat5 V c).after 5 t)
  iframe
  iintro ⟨⟨H0, H1, H2, H3, H4, H5⟩, H6⟩
  iframe
  iexact H6

end Cert.Kernel.Hand

end
-- ==== Proof.K.RunVals.lean ====
-- A core's buffer contents between the items of @main, with each call's output arrays named.
import proofs.«164947_j60361470378157_1_alg».proof.Proof.K.RunCond
import proofs.«164947_j60361470378157_1_alg».proof.Proof.K.R0
import proofs.«164947_j60361470378157_1_alg».proof.Proof.K.R1
import proofs.«164947_j60361470378157_1_alg».proof.Proof.K.R2
import proofs.«164947_j60361470378157_1_alg».proof.Proof.K.R3
import proofs.«164947_j60361470378157_1_alg».proof.Proof.K.R4
import proofs.«164947_j60361470378157_1_alg».proof.Proof.K.R5

noncomputable section

namespace Cert.Kernel.Hand

open Cert.Kernel Cert.Kernel.Gen
open Idealize.ShloMosaic Idealize.ShloMosaic.TcCoe
open Idealize.ShloMosaic.Pipeline (Dat)

variable {F : FTy → Type} [FloatOps F]

abbrev asV (W : Dev nD → Valuation τ sig (Elt F)) : (c : Dev nD) → (b : Ref sig .tc) → Buf (Elt F) ((c : Thread nD τ).loc b) :=
  fun c b => W c b

theorem upd_ne {V : Valuation τ sig (Elt F)} {a r : Ref sig .tc} {x} (h : r ≠ a) : Function.update V a x r = V r :=
  Function.update_of_ne (StableHlo.devRef_ne_of_ne h) _ _

theorem upd1_of {V : Valuation τ sig (Elt F)} {a r : Ref sig .tc} {x} (h : r ∉ [a]) : Function.update V a x r = V r :=
  upd_ne (List.ne_of_not_mem_cons h)

theorem upd3_of {V : Valuation τ sig (Elt F)} {a b d r : Ref sig .tc} {x y z} (h : r ∉ [a, b, d]) :
    Function.update (Function.update (Function.update V a x) b y) d z r = V r := by
  simp only [List.mem_cons, List.not_mem_nil, or_false, not_or] at h
  rw [upd_ne h.2.2, upd_ne h.2.1, upd_ne h.1]

-- An input window's array is the same after the call as before it.
theorem kept {cfg : Pipeline.Cfg sig Λ₀} {c : Dev nD} (D : Dat τ (Elt F) Unit ℕ (UR sig nD τ) ℕ cfg c) {w : Fin cfg.W}
    (hin : (cfg.win w).isOut = false) {x y : Buf (Elt F) ((cfg.win w).arr.view.loc (c.tc : Thread nD τ))}
    (hA : D.A w = x) (hW : y = x) : D.arrAt w cfg.N = y :=
  (D.arrAt_in w hin _).trans (hA.trans hW.symm)

-- Outside the image of `arrRef` over all windows, hence outside its image over any list of them.
theorem off {W gr : ℕ} {win : Fin W → Pipeline.WinSpec sig gr} {b : Ref sig .tc} (hb : b ∉ Finset.univ.image (Pipeline.arrRef win))
    (l : List (Fin W)) : b ∉ l.map (Pipeline.arrRef win) :=
  fun h => let ⟨w, _, e⟩ := List.mem_map.mp h; hb (Finset.mem_image.mpr ⟨w, Finset.mem_univ _, e⟩)

variable (m : (ℓ : Loc nD τ sig) → Buf (Elt F) ℓ)

def X31 (c : Dev nD) : Buf (Elt F) ((c : Thread nD τ).loc main_v31) := (dat0 (asV (Gen.V3 m)) c).arrAt 2 cfg0.N
def W4 (c : Dev nD) : Valuation τ sig (Elt F) := Function.update (Gen.V3 m c) main_v31 (X31 m c)
theorem W4_of (c : Dev nD) (r : Ref sig .tc) (h : r ∉ ([main_v31] : List (Ref sig .tc))) : W4 m c r = Gen.V3 m c r :=
  upd1_of h
theorem W4_main_v31 (c : Dev nD) : W4 m c main_v31 = X31 m c :=
  Function.update_self ..
theorem hF0 (c : Dev nD) : ∀ w : Fin cfg0.W, (dat0 (asV (Gen.V3 m)) c).arrAt w cfg0.N = W4 m c (Proc.devRef .tc (Pipeline.arrRef spec0 w))
  | ⟨0, _⟩ => kept _ rfl (A_eq0 _ c 0) (W4_of m c main_arg0 (by decide))
  | ⟨1, _⟩ => kept _ rfl (A_eq0 _ c 1) (W4_of m c main_arg2 (by decide))
  | ⟨2, _⟩ => (W4_main_v31 m c).symm
theorem hrest0 (c : Dev nD) : ∀ b, b ∉ Finset.univ.image (Pipeline.arrRef spec0) → W4 m c b = Gen.V3 m c b :=
  fun b hb => W4_of m c b (off hb [2])

def W5 (c : Dev nD) : Valuation τ sig (Elt F) := StableHlo.after hostOps1 (W4 m c)
theorem W5_of (c : Dev nD) (r : Ref sig .tc) (h : r ∉ hostOps1_W) : W5 m c r = W4 m c r :=
  StableHlo.after_of_writes_sub hostOps1 _ hostOps1_writes h

def X46_0 (c : Dev nD) : Buf (Elt F) ((c : Thread nD τ).loc main_v46_0) := (dat1 (asV (W5 m)) c).arrAt 2 cfg1.N
def X46_1 (c : Dev nD) : Buf (Elt F) ((c : Thread nD τ).loc main_v46_1) := (dat1 (asV (W5 m)) c).arrAt 3 cfg1.N
def X46_2 (c : Dev nD) : Buf (Elt F) ((c : Thread nD τ).loc main_v46_2) := (dat1 (asV (W5 m)) c).arrAt 4 cfg1.N
def W6 (c : Dev nD) : Valuation τ sig (Elt F) := Function.update (Function.update (Function.update (W5 m c) main_v46_0 (X46_0 m c)) main_v46_1 (X46_1 m c)) main_v46_2 (X46_2 m c)
theorem W6_of (c : Dev nD) (r : Ref sig .tc) (h : r ∉ ([main_v46_0, main_v46_1, main_v46_2] : List (Ref sig .tc))) : W6 m c r = W5 m c r :=
  upd3_of h
theorem W6_main_v46_0 (c : Dev nD) : W6 m c main_v46_0 = X46_0 m c := by
  rw [W6, upd_ne, upd_ne, Function.update_self] <;> decide
theorem W6_main_v46_1 (c : Dev nD) : W6 m c main_v46_1 = X46_1 m c := by
  rw [W6, upd_ne, Function.update_self]; decide
theorem W6_main_v46_2 (c : Dev nD) : W6 m c main_v46_2 = X46_2 m c :=
  Function.update_self ..
theorem hF1 (c : Dev nD) : ∀ w : Fin cfg1.W, (dat1 (asV (W5 m)) c).arrAt w cfg1.N = W6 m c (Proc.devRef .tc (Pipeline.arrRef spec1 w))
  | ⟨0, _⟩ => kept _ rfl (A_eq1 _ c 0) (W6_of m c main_v44 (by decide))
  | ⟨1, _⟩ => kept _ rfl (A_eq1 _ c 1) (W6_of m c main_v45 (by decide))
  | ⟨2, _⟩ => (W6_main_v46_0 m c).symm
  | ⟨3, _⟩ => (W6_main_v46_1 m c).symm
  | ⟨4, _⟩ => (W6_main_v46_2 m c).symm
theorem hrest1 (c : Dev nD) : ∀ b, b ∉ Finset.univ.image (Pipeline.arrRef spec1) → W6 m c b = W5 m c b :=
  fun b hb => W6_of m c b (off hb [2, 3, 4])

def W7 (c : Dev nD) : Valuation τ sig (Elt F) := StableHlo.after hostOps2 (W6 m c)
theorem W7_of (c : Dev nD) (r : Ref sig .tc) (h : r ∉ hostOps2_W) : W7 m c r = W6 m c r :=
  StableHlo.after_of_writes_sub hostOps2 _ hostOps2_writes h

def X50 (c : Dev nD) : Buf (Elt F) ((c : Thread nD τ).loc main_v50) := (dat2 (asV (W7 m)) c).arrAt 6 cfg2.N
def W8 (c : Dev nD) : Valuation τ sig (Elt F) := Function.update (W7 m c) main_v50 (X50 m c)
theorem W8_of (c : Dev nD) (r : Ref sig .tc) (h : r ∉ ([main_v50] : List (Ref sig .tc))) : W8 m c r = W7 m c r :=
  upd1_of h
theorem W8_main_v50 (c : Dev nD) : W8 m c main_v50 = X50 m c :=
  Function.update_self ..
set_option maxHeartbeats 4000000 in
theorem hF2 (c : Dev nD) : ∀ w : Fin cfg2.W, (dat2 (asV (W7 m)) c).arrAt w cfg2.N = W8 m c (Proc.devRef .tc (Pipeline.arrRef spec2 w))
  | ⟨0, _⟩ => kept _ rfl (A_eq2 _ c 0) (W8_of m c main_v46_0 (by decide))
  | ⟨1, _⟩ => kept _ rfl (A_eq2 _ c 1) (W8_of m c main_v46_1 (by decide))
  | ⟨2, _⟩ => kept _ rfl (A_eq2 _ c 2) (W8_of m c main_v46_2 (by decide))
  | ⟨3, _⟩ => kept _ rfl (A_eq2 _ c 3) (W8_of m c main_v47 (by decide))
  | ⟨4, _⟩ => kept _ rfl (A_eq2 _ c 4) (W8_of m c main_v48 (by decide))
  | ⟨5, _⟩ => kept _ rfl (A_eq2 _ c 5) (W8_of m c main_v49 (by decide))
  | ⟨6, _⟩ => (W8_main_v50 m c).symm
theorem hrest2 (c : Dev nD) : ∀ b, b ∉ Finset.univ.image (Pipeline.arrRef spec2) → W8 m c b = W7 m c b :=
  fun b hb => W8_of m c b (off hb [6])

def X51 (c : Dev nD) : Buf (Elt F) ((c : Thread nD τ).loc main_v51) := (dat3 (asV (W8 m)) c).arrAt 2 cfg3.N
def W9 (c : Dev nD) : Valuation τ sig (Elt F) := Function.update (W8 m c) main_v51 (X51 m c)
theorem W9_of (c : Dev nD) (r : Ref sig .tc) (h : r ∉ ([main_v51] : List (Ref sig .tc))) : W9 m c r = W8 m c r :=
  upd1_of h
theorem W9_main_v51 (c : Dev nD) : W9 m c main_v51 = X51 m c :=
  Function.update_self ..
theorem hF3 (c : Dev nD) : ∀ w : Fin cfg3.W, (dat3 (asV (W8 m)) c).arrAt w cfg3.N = W9 m c (Proc.devRef .tc (Pipeline.arrRef spec3 w))
  | ⟨0, _⟩ => kept _ rfl (A_eq3 _ c 0) (W9_of m c main_v50 (by decide))
  | ⟨1, _⟩ => kept _ rfl (A_eq3 _ c 1) (W9_of m c main_arg7 (by decide))
  | ⟨2, _⟩ => (W9_main_v51 m c).symm
theorem hrest3 (c : Dev nD) : ∀ b, b ∉ Finset.univ.image (Pipeline.arrRef spec3) → W9 m c b = W8 m c b :=
  fun b hb => W9_of m c b (off hb [2])

def W10 (c : Dev nD) : Valuation τ sig (Elt F) := StableHlo.after hostOps4 (W9 m c)
theorem W10_of (c : Dev nD) (r : Ref sig .tc) (h : r ∉ hostOps4_W) : W10 m c r = W9 m c r :=
  StableHlo.after_of_writes_sub hostOps4 _ hostOps4_writes h

def X66_0 (c : Dev nD) : Buf (Elt F) ((c : Thread nD τ).loc main_v66_0) := (dat4 (asV (W10 m)) c).arrAt 2 cfg4.N
def X66_1 (c : Dev nD) : Buf (Elt F) ((c : Thread nD τ).loc main_v66_1) := (dat4 (asV (W10 m)) c).arrAt 3 cfg4.N
def X66_2 (c : Dev nD) : Buf (Elt F) ((c : Thread nD τ).loc main_v66_2) := (dat4 (asV (W10 m)) c).arrAt 4 cfg4.N
def W11 (c : Dev nD) : Valuation τ sig (Elt F) := Function.update (Function.update (Function.update (W10 m c) main_v66_0 (X66_0 m c)) main_v66_1 (X66_1 m c)) main_v66_2 (X66_2 m c)
theorem W11_of (c : Dev nD) (r : Ref sig .tc) (h : r ∉ ([main_v66_0, main_v66_1, main_v66_2] : List (Ref sig .tc))) : W11 m c r = W10 m c r :=
  upd3_of h
theorem W11_main_v66_0 (c : Dev nD) : W11 m c main_v66_0 = X66_0 m c := by
  rw [W11, upd_ne, upd_ne, Function.update_self] <;> decide
theorem W11_main_v66_1 (c : Dev nD) : W11 m c main_v66_1 = X66_1 m c := by
  rw [W11, upd_ne, Function.update_self]; decide
theorem W11_main_v66_2 (c : Dev nD) : W11 m c main_v66_2 = X66_2 m c :=
  Function.update_self ..
theorem hF4 (c : Dev nD) : ∀ w : Fin cfg4.W, (dat4 (asV (W10 m)) c).arrAt w cfg4.N = W11 m c (Proc.devRef .tc (Pipeline.arrRef spec4 w))
  | ⟨0, _⟩ => kept _ rfl (A_eq4 _ c 0) (W11_of m c main_v64 (by decide))
  | ⟨1, _⟩ => kept _ rfl (A_eq4 _ c 1) (W11_of m c main_v65 (by decide))
  | ⟨2, _⟩ => (W11_main_v66_0 m c).symm
  | ⟨3, _⟩ => (W11_main_v66_1 m c).symm
  | ⟨4, _⟩ => (W11_main_v66_2 m c).symm
theorem hrest4 (c : Dev nD) : ∀ b, b ∉ Finset.univ.image (Pipeline.arrRef spec4) → W11 m c b = W10 m c b :=
  fun b hb => W11_of m c b (off hb [2, 3, 4])

def W12 (c : Dev nD) : Valuation τ sig (Elt F) := StableHlo.after hostOps5 (W11 m c)
theorem W12_of (c : Dev nD) (r : Ref sig .tc) (h : r ∉ hostOps5_W) : W12 m c r = W11 m c r :=
  StableHlo.after_of_writes_sub hostOps5 _ hostOps5_writes h

def X70 (c : Dev nD) : Buf (Elt F) ((c : Thread nD τ).loc main_v70) := (dat5 (asV (W12 m)) c).arrAt 6 cfg5.N
def W13 (c : Dev nD) : Valuation τ sig (Elt F) := Function.update (W12 m c) main_v70 (X70 m c)
theorem W13_of (c : Dev nD) (r : Ref sig .tc) (h : r ∉ ([main_v70] : List (Ref sig .tc))) : W13 m c r = W12 m c r :=
  upd1_of h
theorem W13_main_v70 (c : Dev nD) : W13 m c main_v70 = X70 m c :=
  Function.update_self ..
set_option maxHeartbeats 4000000 in
theorem hF5 (c : Dev nD) : ∀ w : Fin cfg5.W, (dat5 (asV (W12 m)) c).arrAt w cfg5.N = W13 m c (Proc.devRef .tc (Pipeline.arrRef spec5 w))
  | ⟨0, _⟩ => kept _ rfl (A_eq5 _ c 0) (W13_of m c main_v66_0 (by decide))
  | ⟨1, _⟩ => kept _ rfl (A_eq5 _ c 1) (W13_of m c main_v66_1 (by decide))
  | ⟨2, _⟩ => kept _ rfl (A_eq5 _ c 2) (W13_of m c main_v66_2 (by decide))
  | ⟨3, _⟩ => kept _ rfl (A_eq5 _ c 3) (W13_of m c main_v67 (by decide))
  | ⟨4, _⟩ => kept _ rfl (A_eq5 _ c 4) (W13_of m c main_v68 (by decide))
  | ⟨5, _⟩ => kept _ rfl (A_eq5 _ c 5) (W13_of m c main_v69 (by decide))
  | ⟨6, _⟩ => (W13_main_v70 m c).symm
theorem hrest5 (c : Dev nD) : ∀ b, b ∉ Finset.univ.image (Pipeline.arrRef spec5) → W13 m c b = W12 m c b :=
  fun b hb => W13_of m c b (off hb [6])

end Cert.Kernel.Hand

end
-- ==== Proof.K.Run.lean ====
-- The program's run assembled from its six calls and the host stretches between them.
import proofs.«164947_j60361470378157_1_alg».proof.Proof.K.RunVals

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def outs : Gen.Outs (F := F) := fun J r c =>
  if J = 4 then W4 m c r
  else if J = 6 then W6 m c r
  else if J = 8 then W8 m c r
  else if J = 9 then W9 m c r
  else if J = 11 then W11 m c r
  else if J = 13 then W13 m c r
  else m ((c : Thread nD τ).loc r)

theorem outs4 (r : Ref sig .tc) (c : Dev nD) : outs m 4 r c = W4 m c r := by
  unfold outs; repeat rw [if_neg (by decide)]
  rw [if_pos rfl]
theorem outs6 (r : Ref sig .tc) (c : Dev nD) : outs m 6 r c = W6 m c r := by
  unfold outs; repeat rw [if_neg (by decide)]
  rw [if_pos rfl]
theorem outs8 (r : Ref sig .tc) (c : Dev nD) : outs m 8 r c = W8 m c r := by
  unfold outs; repeat rw [if_neg (by decide)]
  rw [if_pos rfl]
theorem outs9 (r : Ref sig .tc) (c : Dev nD) : outs m 9 r c = W9 m c r := by
  unfold outs; repeat rw [if_neg (by decide)]
  rw [if_pos rfl]
theorem outs11 (r : Ref sig .tc) (c : Dev nD) : outs m 11 r c = W11 m c r := by
  unfold outs; repeat rw [if_neg (by decide)]
  rw [if_pos rfl]
theorem outs13 (r : Ref sig .tc) (c : Dev nD) : outs m 13 r c = W13 m c r := by
  unfold outs; repeat rw [if_neg (by decide)]
  rw [if_pos rfl]

theorem L4 (c : Dev nD) : Gen.V4 m (outs m) c = W4 m c := by
  unfold Gen.V4; rw [outs4, W4_main_v31]; rfl
theorem L5 (c : Dev nD) : Gen.V5 m (outs m) c = W5 m c := by
  unfold Gen.V5 W5; rw [L4]
theorem L6 (c : Dev nD) : Gen.V6 m (outs m) c = W6 m c := by
  unfold Gen.V6; rw [L5, outs6, outs6, outs6, W6_main_v46_0, W6_main_v46_1, W6_main_v46_2]; rfl
theorem L7 (c : Dev nD) : Gen.V7 m (outs m) c = W7 m c := by
  unfold Gen.V7 W7; rw [L6]
theorem L8 (c : Dev nD) : Gen.V8 m (outs m) c = W8 m c := by
  unfold Gen.V8; rw [L7, outs8, W8_main_v50]; rfl
theorem L9 (c : Dev nD) : Gen.V9 m (outs m) c = W9 m c := by
  unfold Gen.V9; rw [L8, outs9, W9_main_v51]; rfl
theorem L10 (c : Dev nD) : Gen.V10 m (outs m) c = W10 m c := by
  unfold Gen.V10 W10; rw [L9]
theorem L11 (c : Dev nD) : Gen.V11 m (outs m) c = W11 m c := by
  unfold Gen.V11; rw [L10, outs11, outs11, outs11, W11_main_v66_0, W11_main_v66_1, W11_main_v66_2]; rfl
theorem L12 (c : Dev nD) : Gen.V12 m (outs m) c = W12 m c := by
  unfold Gen.V12 W12; rw [L11]
theorem L13 (c : Dev nD) : Gen.V13 m (outs m) c = W13 m c := by
  unfold Gen.V13; rw [L12, outs13, W13_main_v70]; rfl

def pdats : (p : Fin 6) → (c : Dev nD) → Dat τ (Elt F) Unit ℕ (UR sig nD τ) ℕ (cfgs p) c
  | ⟨0, _⟩ => fun c => dat0 (asV (Gen.V3 m)) c
  | ⟨1, _⟩ => fun c => dat1 (asV (W5 m)) c
  | ⟨2, _⟩ => fun c => dat2 (asV (W7 m)) c
  | ⟨3, _⟩ => fun c => dat3 (asV (W8 m)) c
  | ⟨4, _⟩ => fun c => dat4 (asV (W10 m)) c
  | ⟨5, _⟩ => fun c => dat5 (asV (W12 m)) c

abbrev L0 : GSem nD τ sig → Finset Unit := fun _ => ∅
abbrev lv0 : GSem nD τ sig → Unit → ℕ := fun _ _ => 0
abbrev Rr (c : Dev nD) : sProp 𝕄 := iprop((∃ r, prngReg c r) ∗ ∃ W, owes (c : Thread nD τ) (0 : CellTallies nD τ sig Unit) W)

theorem emp_prefHeld {c : Dev nD} {pre : Pipeline.Prefetch sig} (hK : pre.K = 0) {q V} :
    (BI.emp : sProp 𝕄) ⊢ Pipeline.prefHeld pre c q V := by
  haveI : IsEmpty (Fin pre.K) := by rw [hK]; infer_instance
  refine .of_eq ?_
  unfold Pipeline.prefHeld; rw [Finset.univ_eq_empty, BI.bigSep_empty]

-- `h` splits the held buffers into `A ∗ Z`; every other conjunct passes through unchanged.
theorem entry_of {c : Dev nD} {V : Valuation τ sig (Elt F)} {A Z S PH : sProp 𝕄} {B : Set (SemLoc sig × Unit)} {O : CellTallies nD τ sig Unit}
    (h : (unscopedBufs c (fun b => V b) : sProp 𝕄) ⊢ iprop(A ∗ Z)) (hp : (BI.emp : sProp 𝕄) ⊢ PH) (hO : O = 0) (hB : ∀ x, x ∈ B) :
    iprop((StableHlo.held (c : Thread nD τ) (Pipeline.ucRefs τ sig) V ∗ Rr c) ∗ S)
      ⊢ |={Set.univ}=> iprop(A ∗ PH ∗ Pipeline.owesWithin c O B ∗ (∃ r, prngReg c r) ∗ Z) := by
  subst hO; rw [Pipeline.unscopedBufs_held] at h
  iintro ⟨⟨Hub, Hp, %W, HO⟩, -⟩
  ihave H := h $$ Hub
  icases H with ⟨Ha, Hz⟩
  imodintro
  isplitl [Ha]; · iexact Ha
  isplitr; · iapply hp; iempintro
  isplitl [HO]
  · iexists W; isplitr; · ipureintro; exact fun x _ => hB x
    iexact HO
  isplitl [Hp]; · iexact Hp
  iexact Hz

-- `h` joins `A ∗ Z` back into the held buffers; every other conjunct passes through unchanged.
theorem exit_of {c : Dev nD} {V : Valuation τ sig (Elt F)} {A Z : sProp 𝕄} {B : Set (SemLoc sig × Unit)} {O : CellTallies nD τ sig Unit}
    (h : iprop(A ∗ Z) ⊢ (unscopedBufs c (fun b => V b) : sProp 𝕄)) (hO : O = 0) :
    iprop(A ∗ Pipeline.owesWithin c O B ∗ (∃ r, prngReg c r) ∗ Z)
      ⊢ |={Set.univ}=> iprop(StableHlo.held (c : Thread nD τ) (Pipeline.ucRefs τ sig) V ∗ Rr c) := by
  subst hO; rw [Pipeline.unscopedBufs_held] at h
  iintro ⟨Ha, ⟨%W, -, HO⟩, Hp, Hz⟩
  imodintro
  isplitl [Ha Hz]
  · iapply h; isplitl [Ha] <;> iassumption
  isplitl [Hp]; · iexact Hp
  iexists W; iexact HO

theorem in_of {gr W : ℕ} (win : Fin W → Pipeline.WinSpec sig gr) (c : Dev nD) {PH : sProp 𝕄} :
    iprop((∃ r, prngReg c r) ∗ PH ∗ Pipeline.scopedRest win c) ⊢ (Pipeline.ΦA win c : sProp 𝕄) := by
  unfold Pipeline.ΦA
  iintro ⟨Hp, -, Hr⟩
  isplitl [Hr] <;> iassumption

theorem out_of {gr W : ℕ} (win : Fin W → Pipeline.WinSpec sig gr) (c : Dev nD) : (Pipeline.ΦA win c : sProp 𝕄)
    ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

set_option backward.isDefEq.respectTransparency.types false in
def mkReg (p : Fin 6) (V W : Dev nD → Valuation τ sig (Elt F)) (lf : Pipeline.LaunchFacts (nD := nD) (τ := τ) cfgs p)
    (hbody : ∀ c, Pipeline.BodyObligationLoose (pdats m p c) defs₀ Variants.none () Set.univ)
    (howed : ∀ c t, (pdats m p c).owed t = 0) (hq : ∀ c w, (pdats m p c).q w = fullShare)
    (hB : ∀ c x, x ∈ (pdats m p c).bound () 0)
    (hA : ∀ c w, (pdats m p c).A w = asV V c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (hF : ∀ c w, (pdats m p c).arrAt w (cfgs p).N = W c (Pipeline.arrRef (cfgs p).spec w))
    (hrest : ∀ c b, b ∉ Finset.univ.image (Pipeline.arrRef (cfgs p).spec) → W c b = V c b) :
    Pipeline.RegionSeg (pcfgs (F := F)) Gen.adm (pdats m) () defs₀ Variants.none L0 lv0 p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L0 lv0 p howed
  pre c := iprop(StableHlo.held (c : Thread nD τ) (Pipeline.ucRefs τ sig) (V c) ∗ Rr c)
  post c := iprop(StableHlo.held (c : Thread nD τ) (Pipeline.ucRefs τ sig) (W c) ∗ Rr c)
  X c := iprop(∃ r, prngReg c r)
  Y c := iprop(∃ r, prngReg c r)
  Z c := Pipeline.unscopedRest (Ix := Unit) (Name := ℕ) (U := UR sig nD τ) (Lvl := ℕ) (cfgs p).spec c (asV V c)
  hentry c := entry_of (Pipeline.arrays_of_unscopedBufs (p := p) (pcfgs (F := F)) Gen.adm (pdats m) lf.win lf.arr_whole c ((pdats m p c).share_full (hq c)) (asV V c) (hA c))
    (emp_prefHeld rfl) (howed c 0) (hB c)
  hin c := (in_of _ c).trans (hin c)
  hout c := (hout c).trans (out_of _ c)
  hexit c := exit_of (Pipeline.unscopedBufs_of_arrays (p := p) (pcfgs (F := F)) Gen.adm (Ix := Unit) (Name := ℕ) (U := UR sig nD τ) (Lvl := ℕ)
    lf.win lf.arr_whole c (pdats m) ((pdats m p c).share_full (hq c)) (asV V c) (asV W c) ((pdats m p c).arrAt · (cfgs p).N) (hF c) (hrest c)) (howed c _)

def reg0 : Pipeline.RegionSeg (pcfgs (F := F)) Gen.adm (pdats m) () defs₀ Variants.none L0 lv0 0 :=
  mkReg m 0 (Gen.V3 m) (W4 m) launch0 (fun c => (body_obligation0 _ c).loose) (fun _ _ => rfl) (fun _ _ => rfl)
    (fun _ _ => Or.inl trivial) (A_eq0 _) (fun _ => .rfl) (fun _ => .rfl) (hF0 m) (hrest0 m)

def reg1 : Pipeline.RegionSeg (pcfgs (F := F)) Gen.adm (pdats m) () defs₀ Variants.none L0 lv0 1 :=
  mkReg m 1 (W5 m) (W6 m) launch1 (fun c => (body_obligation1 _ c).loose) (fun _ _ => rfl) (fun _ _ => rfl)
    (fun _ _ => Or.inl trivial) (A_eq1 _) (hin1 _) (hout1 _) (hF1 m) (hrest1 m)

def reg2 : Pipeline.RegionSeg (pcfgs (F := F)) Gen.adm (pdats m) () defs₀ Variants.none L0 lv0 2 :=
  mkReg m 2 (W7 m) (W8 m) launch2 (fun c => (body_obligation2 _ c).loose) (fun _ _ => rfl) (fun _ _ => rfl)
    (fun _ _ => Or.inl trivial) (A_eq2 _) (fun _ => .rfl) (fun _ => .rfl) (hF2 m) (hrest2 m)

def reg3 : Pipeline.RegionSeg (pcfgs (F := F)) Gen.adm (pdats m) () defs₀ Variants.none L0 lv0 3 :=
  mkReg m 3 (W8 m) (W9 m) launch3 (fun c => (body_obligation3 _ c).loose) (fun _ _ => rfl) (fun _ _ => rfl)
    (fun _ _ => Or.inl trivial) (A_eq3 _) (fun _ => .rfl) (fun _ => .rfl) (hF3 m) (hrest3 m)

def reg4 : Pipeline.RegionSeg (pcfgs (F := F)) Gen.adm (pdats m) () defs₀ Variants.none L0 lv0 4 :=
  mkReg m 4 (W10 m) (W11 m) launch4 (fun c => (body_obligation4 _ c).loose) (fun _ _ => rfl) (fun _ _ => rfl)
    (fun _ _ => Or.inl trivial) (A_eq4 _) (hin4 _) (hout4 _) (hF4 m) (hrest4 m)

def reg5 : Pipeline.RegionSeg (pcfgs (F := F)) Gen.adm (pdats m) () defs₀ Variants.none L0 lv0 5 :=
  mkReg m 5 (W12 m) (W13 m) launch5 (fun c => (body_obligation5 _ c).loose) (fun _ _ => rfl) (fun _ _ => rfl)
    (fun _ _ => Or.inl trivial) (A_eq5 _) (fun _ => .rfl) (fun _ => .rfl) (hF5 m) (hrest5 m)

theorem hpre0 (c : Dev nD) : iprop(StableHlo.held (c : Thread nD τ) (Pipeline.ucRefs τ sig) (Gen.V3 m c) ∗ Rr (F := F) c) ⊢ (reg0 m).pre c :=
  .rfl
theorem hpost0 (c : Dev nD) : (reg0 m).post c ⊢ iprop(StableHlo.held (c : Thread nD τ) (Pipeline.ucRefs τ sig) (Gen.V4 m (outs m) c) ∗ Rr (F := F) c) := by
  rw [L4]; exact .rfl
theorem hpre1 (c : Dev nD) : iprop(StableHlo.held (c : Thread nD τ) (Pipeline.ucRefs τ sig) (Gen.V5 m (outs m) c) ∗ Rr (F := F) c) ⊢ (reg1 m).pre c := by
  rw [L5]; exact .rfl
theorem hpost1 (c : Dev nD) : (reg1 m).post c ⊢ iprop(StableHlo.held (c : Thread nD τ) (Pipeline.ucRefs τ sig) (Gen.V6 m (outs m) c) ∗ Rr (F := F) c) := by
  rw [L6]; exact .rfl
theorem hpre2 (c : Dev nD) : iprop(StableHlo.held (c : Thread nD τ) (Pipeline.ucRefs τ sig) (Gen.V7 m (outs m) c) ∗ Rr (F := F) c) ⊢ (reg2 m).pre c := by
  rw [L7]; exact .rfl
theorem hpost2 (c : Dev nD) : (reg2 m).post c ⊢ iprop(StableHlo.held (c : Thread nD τ) (Pipeline.ucRefs τ sig) (Gen.V8 m (outs m) c) ∗ Rr (F := F) c) := by
  rw [L8]; exact .rfl
theorem hpre3 (c : Dev nD) : iprop(StableHlo.held (c : Thread nD τ) (Pipeline.ucRefs τ sig) (Gen.V8 m (outs m) c) ∗ Rr (F := F) c) ⊢ (reg3 m).pre c := by
  rw [L8]; exact .rfl
theorem hpost3 (c : Dev nD) : (reg3 m).post c ⊢ iprop(StableHlo.held (c : Thread nD τ) (Pipeline.ucRefs τ sig) (Gen.V9 m (outs m) c) ∗ Rr (F := F) c) := by
  rw [L9]; exact .rfl
theorem hpre4 (c : Dev nD) : iprop(StableHlo.held (c : Thread nD τ) (Pipeline.ucRefs τ sig) (Gen.V10 m (outs m) c) ∗ Rr (F := F) c) ⊢ (reg4 m).pre c := by
  rw [L10]; exact .rfl
theorem hpost4 (c : Dev nD) : (reg4 m).post c ⊢ iprop(StableHlo.held (c : Thread nD τ) (Pipeline.ucRefs τ sig) (Gen.V11 m (outs m) c) ∗ Rr (F := F) c) := by
  rw [L11]; exact .rfl
theorem hpre5 (c : Dev nD) : iprop(StableHlo.held (c : Thread nD τ) (Pipeline.ucRefs τ sig) (Gen.V12 m (outs m) c) ∗ Rr (F := F) c) ⊢ (reg5 m).pre c := by
  rw [L12]; exact .rfl
theorem hpost5 (c : Dev nD) : (reg5 m).post c ⊢ iprop(StableHlo.held (c : Thread nD τ) (Pipeline.ucRefs τ sig) (Gen.V13 m (outs m) c) ∗ Rr (F := F) c) := by
  rw [L13]; exact .rfl

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v70) = X70 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  have h := Gen.run_cond m (Ix := Unit) (U := UR sig nD τ) (Lvl := ℕ) emb₁ () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L0 lv0 fun c => ?_
      iintro ⟨⟨-, HO, -, Hp, -⟩, -⟩
      imodintro
      isplitl [Hp]; · iexists _; iexact Hp
      iexists ∅; iexact HO)
    (hE6 := fun c => by iintro ⟨-, H⟩; iexact H)
    (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m)
  refine (θ_run _ _ _).mono (fun r hr c => ?_) h
  have := hr c
  rw [outs13, W13_main_v70] at this
  exact this

end Cert.Kernel.Hand

end
-- ==== Proof.KI.RunCond.lean ====
-- The run of @main given each call's region run.
import proofs.«164947_j60361470378157_1_alg».proof.Proof.Gen.KernelIdeal.Regions

set_option maxRecDepth 1108

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ) (outs : Outs (F := F))

theorem V13_main_v70 (c : Dev nD) : V13 m outs c main_v70 = outs 13 main_v70 c :=
  Function.update_self ..

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c)) :
    θ_run defs (onTc (τ := τ) (main (F := F))) ⟨m, fun _ => 0, ρ⟩ (fun r => ∀ c : Dev nD,
      r.2.mem ((c.tc : Thread nD τ).loc main_v70) = outs 13 main_v70 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, hpre0 c, hpost0 c, hpre1 c, hpost1 c, hpre2 c, (hpost2 c).trans (hpre3 c), hpost3 c, hpre4 c, hpost4 c, hpre5 c, (hpost5 c).trans (sep_mono .rfl (hE6 c))⟩)
    (hinit := ?_)
    (hfin := fun c s' => ?_) (hQ := fun _ h => h)
  ·
    simp only [← Pipeline.unscopedBufs_held (Ix := Ix) (Name := ℕ) (U := U) (Lvl := Lvl)]
    rw [bigSep_sep']
    iintro ⟨⟨Hh, Hr⟩, Hla⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      have rd := fun (r : Ref sig .tc) hr => h (Proc.devRef .tc r) (Finset.mem_filter.mpr ⟨StableHlo.devRef_mem_tcRefs r, hr⟩)
      exact ⟨(rd main_v70 (by decide)).trans (V13_main_v70 m outs c),
        (rd main_arg0 (by decide)).trans (V13_main_arg0 m outs c),
        (rd main_arg1 (by decide)).trans (V13_main_arg1 m outs c),
        (rd main_arg2 (by decide)).trans (V13_main_arg2 m outs c),
        (rd main_arg3 (by decide)).trans (V13_main_arg3 m outs c),
        (rd main_arg4 (by decide)).trans (V13_main_arg4 m outs c),
        (rd main_arg5 (by decide)).trans (V13_main_arg5 m outs c),
        (rd main_arg6 (by decide)).trans (V13_main_arg6 m outs c),
        (rd main_arg7 (by decide)).trans (V13_main_arg7 m outs c),
        (rd main_arg8 (by decide)).trans (V13_main_arg8 m outs c),
        (rd main_arg9 (by decide)).trans (V13_main_arg9 m outs c),
        (rd main_arg10 (by decide)).trans (V13_main_arg10 m outs c),
        (rd main_arg11 (by decide)).trans (V13_main_arg11 m outs c)⟩
    · iexact HSI

end Cert.KernelIdeal.Gen

end
-- ==== Proof.KI.R0.lean ====
-- A matrix product, one tile of 2000 rows at a time: proof data and body obligation at arbitrary entry contents.
import proofs.«164947_j60361470378157_1_alg».proof.Proof.Gen.KernelIdeal.Launch
import proofs.«164947_j60361470378157_1_alg».proof.Proof.Gen.KernelIdeal.Skeleton
import proofs.«164947_j60361470378157_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x256 := Rect.unit (s := S128x256) ![0, 0] S128x256.size inb_S128x256_S128x256_0_0
abbrev r0_2 : Rect S2000x256 := Rect.unit (s := S2000x256) ![0, 0] S2000x256.size inb_S2000x256_S2000x256_0_0

def out0_2 (x0 : Vec F S2000x128 .f32) (x1 : Vec F S128x256 .f32) : Vec F S2000x256 .f32 :=
  View.canon [⟨r0_2, k0_pay1 (View.ld x0 r0_0) (View.ld x1 r0_1)⟩]

-- Every entry of the output is written, so it depends on the two inputs alone.
theorem sound_kernel0 (c : Dev nD) {E : Set ℕ} {i : grid0.Coords} {arg1 : Memref sig .tc .vmem S2000x128 .f32}
    {arg2 : Memref sig .tc .vmem S128x256 .f32} {arg3 : Memref sig .tc .vmem S2000x256 .f32} {harg1 harg2 harg3}
    (x0 : Vec F S2000x128 .f32) (x1 : Vec F S128x256 .f32) (x2 : Vec F S2000x256 .f32) {K : PUnit → sProp 𝕄} :
    iprop(ownsTc c arg1 fullShare x0 ∗ ownsTc c arg2 fullShare x1 ∗ ownsTc c arg3 fullShare x2
        ∗ (iprop(ownsTc c arg1 fullShare x0 ∗ ownsTc c arg2 fullShare x1 ∗ ownsTc c arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton, ownsTc]; unfold cc0__matmul_kernel_skel owns
  iintro ⟨⟨%f0, %hf0, H0⟩, ⟨%f1, %hf1, H1⟩, ⟨%f2, -, H2⟩, Hk⟩
  subst hf0 hf1
  sl_exec
  sl_step
  iapply Hk
  isplitl [H0]; swap; isplitl [H1]
  all_goals
    iexists _; isplitr; swap; · iassumption
    ipureintro
    first | exact View.read_writes_eq_canon _ _ _ (View.cover_of_tiled _ S2000x256.size (by rfl)) | rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := by dsimp only [dat0]

theorem before0 (c : Dev nD) (t : Fin cfg0.N) : ∀ w : Fin 3, w ≠ 2 → ∀ d, (dat0 V c).before w t d = (dat0 V c).after w t
  | 0, _, d | 1, _, d => (dat0 V c).before_in_eq_fetched _ rfl (fun _ => rfl) (fun _ _ _ => rfl) (fun _ => rfl) t d
  | 2, h, _ => absurd rfl h
  | ⟨_ + 3, h⟩, _, _ => by omega

theorem body_obligation0 (c : Dev nD) : BodyObligation (dat0 (F := F) V c) (defs₀ (F := F)) Variants.none () Set.univ := fun t => by
  rw [bigSep_W0, bigSep_W0]
  simp +decide only [before0 V c t, after0_2]
  show _ ⊢ wp _ _ _ (bodyAt0 t) fun _ => iprop((dat0 V c).Φ t.castSucc ∗ (dat0 V c).owesAt () t.castSucc ∗ _)
  iintro ⟨HΦ, Ho, ⟨%_, H0⟩, ⟨%_, H1⟩, ⟨%d, H2⟩⟩
  iapply sound_kernel0 c ((dat0 V c).after 0 t) ((dat0 V c).after 1 t) ((dat0 V c).before 2 t d)
  iframe
  iintro ⟨H0, H1, H2⟩
  iframe
  iexact H2

end Cert.KernelIdeal.Hand

end
-- ==== Proof.KI.R1Runs.lean ====
-- One run of the column-statistics body in each of its three cases (first tile, a middle tile, last tile).
import proofs.«164947_j60361470378157_1_alg».proof.Proof.Gen.KernelIdeal.Launch
import proofs.«164947_j60361470378157_1_alg».proof.Proof.Gen.KernelIdeal.Skeleton
import proofs.«164947_j60361470378157_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F] [Named F]

local notation "𝕄" => MT nD τ sig Unit (Elt F) ℕ (UR sig nD τ) ℕ

abbrev r1_0 : Rect S2000x256 := Rect.unit (s := S2000x256) ![0, 0] S2000x256.size inb_S2000x256_S2000x256_0_0
abbrev r1_1 : Rect S1x256 := Rect.unit (s := S1x256) ![0, 0] S1x256.size inb_S1x256_S1x256_0_0

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by decide +kernel

abbrev cond1_2 (i : grid1.Coords) : Prop := k1_cond2 i = 1#1
theorem hcond1_2 : ∀ t : Fin cfg1.N, cond1_2 (grid1.coords t) ↔ t.val = 24 := by decide +kernel

def out1_2 (x0 : Vec F S2000x256 .f32) (x1 : Vec F S1x256 .f32) : Vec F S2000x256 .f32 :=
  View.canon [⟨r1_0, k1_pay3 (View.ld x0 r1_0) (View.ld x1 r1_1)⟩]
def acc1_0 (x0 : Vec F S2000x256 .f32) (x1 s0 : Vec F S1x256 .f32) : Vec F S1x256 .f32 :=
  View.canon [⟨r1_1, k1_pay4 (View.ld x0 r1_0) (View.ld x1 r1_1) (View.ld s0 r1_1)⟩]
def acc1_1 (x0 : Vec F S2000x256 .f32) (x1 s1 : Vec F S1x256 .f32) : Vec F S1x256 .f32 :=
  View.canon [⟨r1_1, k1_pay5 (View.ld x0 r1_0) (View.ld x1 r1_1) (View.ld s1 r1_1)⟩]
def zero1_0 : Vec F S1x256 .f32 := View.canon [⟨r1_1, k1_pay1 (F := F)⟩]
def zero1_1 : Vec F S1x256 .f32 := View.canon [⟨r1_1, k1_pay2 (F := F)⟩]
def mean1 (a0 : Vec F S1x256 .f32) : Vec F S1x256 .f32 :=
  View.canon [⟨r1_1, k1_pay6 (View.ld a0 r1_1)⟩]
def var1 (a0 a1 : Vec F S1x256 .f32) : Vec F S1x256 .f32 :=
  View.canon [⟨r1_1, k1_pay7 (View.ld a0 r1_1) (View.ld a1 r1_1)⟩]

theorem cover1_0 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y
theorem cover1_1 (p0 : Vec F S1x256 .f32) (y : S1x256.Idx) :
    ∃ pc ∈ ([⟨r1_1, p0⟩] : List (View.Piece (Elt F) S1x256 .f32)), y ∈ pc.1.set :=
  View.cover_of_tiled [⟨r1_1, p0⟩] S1x256.size (by rfl) y
theorem mem1_1 (y : S1x256.Idx) : y ∈ r1_1.set :=
  View.mem_set_unit_zero (S := S1x256) (by funext a; fin_cases a <;> rfl) _ y

variable (c : Dev nD) {E : Set ℕ} {i : grid1.Coords} {arg1 arg3 : Memref sig .tc .vmem S2000x256 .f32} {arg2 arg4 arg5 arg6 arg7 : Memref sig .tc .vmem S1x256 .f32} {harg1 : arg1.IsWhole} {harg2 : arg2.IsWhole} {harg3 : arg3.IsWhole} {harg4 : arg4.IsWhole} {harg5 : arg5.IsWhole} {harg6 : arg6.IsWhole} {harg7 : arg7.IsWhole}

theorem sound_kernel1_B (hc0 : ¬cond1_0 i) (hc2 : ¬cond1_2 i)
    (x0 : Vec F S2000x256 .f32) (x1 : Vec F S1x256 .f32) {xi3 xi4 s0 s1 : Vec F S1x256 .f32} {K : PUnit → sProp 𝕄} :
    iprop(ownsTc c arg1 fullShare x0 ∗ ownsTc c arg2 fullShare x1 ∗ (∃ d, ownsTc c arg3 fullShare d) ∗ ownsTc c arg4 fullShare xi3 ∗ ownsTc c arg5 fullShare xi4 ∗ ownsTc c arg6 fullShare s0 ∗ ownsTc c arg7 fullShare s1
        ∗ (iprop(ownsTc c arg1 fullShare x0 ∗ ownsTc c arg2 fullShare x1 ∗ ownsTc c arg3 fullShare (out1_2 x0 x1) ∗ ownsTc c arg4 fullShare xi3 ∗ ownsTc c arg5 fullShare xi4 ∗ ownsTc c arg6 fullShare (acc1_0 x0 x1 s0) ∗ ownsTc c arg7 fullShare (acc1_1 x0 x1 s1)) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton, ownsTc]; unfold cc1__stats_kernel_skel owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0 hf1 hf3 hf4 hf5 hf6
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
    first | exact View.read_writes_eq_canon _ _ _ (cover1_0 _) | exact View.read_writes_eq_canon _ _ _ (cover1_1 _) | rfl

set_option maxHeartbeats 400000 in
theorem sound_kernel1_A (hc0 : cond1_0 i) (hc2 : ¬cond1_2 i)
    (x0 : Vec F S2000x256 .f32) (x1 : Vec F S1x256 .f32) {xi3 xi4 : Vec F S1x256 .f32} {K : PUnit → sProp 𝕄} :
    iprop(ownsTc c arg1 fullShare x0 ∗ ownsTc c arg2 fullShare x1 ∗ (∃ d, ownsTc c arg3 fullShare d) ∗ ownsTc c arg4 fullShare xi3 ∗ ownsTc c arg5 fullShare xi4 ∗ (∃ d, ownsTc c arg6 fullShare d) ∗ (∃ d, ownsTc c arg7 fullShare d)
        ∗ (iprop(ownsTc c arg1 fullShare x0 ∗ ownsTc c arg2 fullShare x1 ∗ ownsTc c arg3 fullShare (out1_2 x0 x1) ∗ ownsTc c arg4 fullShare xi3 ∗ ownsTc c arg5 fullShare xi4 ∗ ownsTc c arg6 fullShare (acc1_0 x0 x1 zero1_0) ∗ ownsTc c arg7 fullShare (acc1_1 x0 x1 zero1_1)) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton, ownsTc]; unfold cc1__stats_kernel_skel owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0 hf1 hf3 hf4
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
  iterate 2
    sl_unfold_run_names
    rw [View.readCov_eq_canon_ld _ _ r1_1 (cover1_1 _)]
    exact (View.read_writes_of_cover_last _ _ arg6.view f5 _ _ [] mem1_1).trans (View.read_writes_eq_canon _ _ _ (cover1_1 _))
  all_goals first | exact View.read_writes_eq_canon _ _ _ (cover1_0 _) | rfl

theorem sound_kernel1_C (hc0 : ¬cond1_0 i) (hc2 : cond1_2 i)
    (x0 : Vec F S2000x256 .f32) (x1 : Vec F S1x256 .f32) {s0 s1 : Vec F S1x256 .f32} {K : PUnit → sProp 𝕄} :
    iprop(ownsTc c arg1 fullShare x0 ∗ ownsTc c arg2 fullShare x1 ∗ (∃ d, ownsTc c arg3 fullShare d) ∗ (∃ d, ownsTc c arg4 fullShare d) ∗ (∃ d, ownsTc c arg5 fullShare d) ∗ ownsTc c arg6 fullShare s0 ∗ ownsTc c arg7 fullShare s1
        ∗ (iprop(ownsTc c arg1 fullShare x0 ∗ ownsTc c arg2 fullShare x1 ∗ ownsTc c arg3 fullShare (out1_2 x0 x1) ∗ ownsTc c arg4 fullShare (mean1 (acc1_0 x0 x1 s0)) ∗ ownsTc c arg5 fullShare (var1 (acc1_0 x0 x1 s0) (acc1_1 x0 x1 s1)) ∗ ownsTc c arg6 fullShare (acc1_0 x0 x1 s0) ∗ ownsTc c arg7 fullShare (acc1_1 x0 x1 s1)) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton, ownsTc]; unfold cc1__stats_kernel_skel owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0 hf1 hf5 hf6
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
  iterate 2 exact View.read_writes_eq_canon _ _ _ (cover1_1 _)
  iterate 2
    sl_unfold_run_names
    repeat rw [View.readCov_eq_canon_ld _ _ r1_1 (cover1_1 _)]
    exact View.read_writes_eq_canon _ _ _ (cover1_1 _)
  all_goals first | exact View.read_writes_eq_canon _ _ _ (cover1_0 _) | rfl

end Cert.KernelIdeal.Hand

end
-- ==== Proof.KI.R1.lean ====
-- The column-statistics call: running column sums and sums of squares carried from tile to tile, mean and variance written at the last tile.
import proofs.«164947_j60361470378157_1_alg».proof.Proof.KI.R1Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem idle1 : ∀ (t : Fin cfg1.N) (w : Fin cfg1.W), 3 ≤ w.val →
    (t.val = 24 → cfg1.idle w (grid1.coords t) = false) ∧
    (¬t.val = 24 → cfg1.idle w (grid1.coords t) = true ∧ (cfg1.win w).flush t = false) := by decide +kernel

theorem PhiA1_eq (c : Dev nD) :
    (Pipeline.ΦA spec1 c : sProp 𝕄)
      = iprop(iprop(iprop((∃ d, owns (c : Thread nD τ) (Memref.whole cc1_scratch0) fullShare d) ∗ (∃ d, owns (c : Thread nD τ) (Memref.whole cc1_scratch1) fullShare d))
          ∗ Pipeline.scopedRestBut spec1 c [cc1_scratch0, cc1_scratch1]) ∗ (∃ r, prngReg c r)) := by
  unfold Pipeline.ΦA; rw [scopedRest1_split]; simp only [owns_whole]

def sums1 (c : Dev nD) : (n : ℕ) → n < cfg1.N → Vec F S1x256 .f32 × Vec F S1x256 .f32
  | 0, hn => (acc1_0 (iblk1 V c 0 ⟨0, hn⟩) (iblk1 V c 1 ⟨0, hn⟩) zero1_0, acc1_1 (iblk1 V c 0 ⟨0, hn⟩) (iblk1 V c 1 ⟨0, hn⟩) zero1_1)
  | n + 1, hn => (acc1_0 (iblk1 V c 0 ⟨n + 1, hn⟩) (iblk1 V c 1 ⟨n + 1, hn⟩) (sums1 c n (Nat.lt_of_succ_lt hn)).1,
      acc1_1 (iblk1 V c 0 ⟨n + 1, hn⟩) (iblk1 V c 1 ⟨n + 1, hn⟩) (sums1 c n (Nat.lt_of_succ_lt hn)).2)

def outsAt1 (c : Dev nD) (n : ℕ) (hn : n < cfg1.N) :
    Vec F S2000x256 .f32 × Vec F S1x256 .f32 × Vec F S1x256 .f32 × Vec F S1x256 .f32 × Vec F S1x256 .f32 :=
  (out1_2 (iblk1 V c 0 ⟨n, hn⟩) (iblk1 V c 1 ⟨n, hn⟩),
   mean1 (sums1 V c n hn).1, var1 (sums1 V c n hn).1 (sums1 V c n hn).2,
   (sums1 V c n hn).1, (sums1 V c n hn).2)

def kept1 (c : Dev nD) (s : Vec F S1x256 .f32 × Vec F S1x256 .f32) : sProp 𝕄 :=
  iprop(iprop(iprop(owns (c : Thread nD τ) (Memref.whole cc1_scratch0) fullShare s.1 ∗ owns (c : Thread nD τ) (Memref.whole cc1_scratch1) fullShare s.2)
      ∗ Pipeline.scopedRestBut spec1 c [cc1_scratch0, cc1_scratch1]) ∗ (∃ r, prngReg c r))

def PhiS1 (c : Dev nD) : (n : ℕ) → n ≤ cfg1.N → sProp 𝕄
  | 0, _ => Pipeline.ΦA spec1 c
  | n + 1, hn => kept1 c (sums1 V c n hn)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2.1
  Φ t := PhiS1 V c t.val (Nat.le_of_lt_succ t.isLt)
  q _ := fullShare
  owed _ := 0

theorem live1 (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

theorem A_eq1 (c : Dev nD) (w : Fin cfg1.W) : (dat1 V c).A w = V c (Pipeline.arrRef spec1 w) := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1, outsAt1]
theorem after1_3 (c : Dev nD) (t : Fin cfg1.N) : (dat1 V c).after 3 t = mean1 (sums1 V c t.val t.isLt).1 := by dsimp only [dat1, outsAt1]
theorem after1_4 (c : Dev nD) (t : Fin cfg1.N) : (dat1 V c).after 4 t = var1 (sums1 V c t.val t.isLt).1 (sums1 V c t.val t.isLt).2 := by dsimp only [dat1, outsAt1]

theorem before1 (c : Dev nD) (t : Fin cfg1.N) :
    (∀ d, (dat1 V c).before 0 t d = iblk1 V c 0 t) ∧ ∀ d, (dat1 V c).before 1 t d = iblk1 V c 1 t :=
  ⟨fun d => ((dat1 V c).before_in_eq_fetched 0 rfl (fun _ => rfl) (fun _ _ _ => rfl) (fun _ => rfl) t d).trans rfl,
   fun d => ((dat1 V c).before_in_eq_fetched 1 rfl (fun _ => rfl) (fun _ _ _ => rfl) (fun _ => rfl) t d).trans rfl⟩

theorem leaves1 (c : Dev nD) (t : Fin cfg1.N) (w : Fin cfg1.W) (hw : 3 ≤ w.val) :
    (dat1 V c).leavesExact w t = if t.val = 24 then owns (c : Thread nD τ) ((cfg1.win w).stage (cfg1.slots t w)) fullShare ((dat1 V c).after w t)
      else iprop(∃ d, owns (c : Thread nD τ) ((cfg1.win w).stage (cfg1.slots t w)) fullShare ((dat1 V c).before w t d)) := by
  by_cases h : t.val = 24
  · rw [if_pos h]; exact live1 V c w t ((idle1 t w hw).1 h)
  · rw [if_neg h]; exact Dat.leavesExact_idle _ w t ((idle1 t w hw).2 h).1 ((idle1 t w hw).2 h).2

-- At the first tile the sums start from zero.
theorem first1 (c : Dev nD) (t : Fin cfg1.N) (h0 : t.val = 0) :
    (dat1 V c).Φ t.castSucc = Pipeline.ΦA spec1 c ∧ sums1 V c t.val t.isLt
      = (acc1_0 (iblk1 V c 0 t) (iblk1 V c 1 t) zero1_0, acc1_1 (iblk1 V c 0 t) (iblk1 V c 1 t) zero1_1) := by
  obtain ⟨_ | n, hn⟩ := t
  exacts [⟨rfl, rfl⟩, absurd h0 (Nat.succ_ne_zero n)]

-- At a later tile the sums go on from what the tile before left.
theorem later1 (c : Dev nD) (t : Fin cfg1.N) (h0 : ¬t.val = 0) :
    ∃ s, (dat1 V c).Φ t.castSucc = kept1 c s ∧ sums1 V c t.val t.isLt
      = (acc1_0 (iblk1 V c 0 t) (iblk1 V c 1 t) s.1, acc1_1 (iblk1 V c 0 t) (iblk1 V c 1 t) s.2) := by
  obtain ⟨_ | n, hn⟩ := t
  exacts [absurd rfl h0, ⟨sums1 V c n (Nat.lt_of_succ_lt hn), rfl, rfl⟩]

-- The first, the last and the other tiles differ only in which rows are named: one argument serves the three.
theorem body_obligation1 (c : Dev nD) : BodyObligation (dat1 (F := F) V c) (defs₀ (F := F)) Variants.none () Set.univ := fun t => by
  rw [bigSep_W1, bigSep_W1]
  show _ ⊢ wp _ _ _ (bodyAt1 t) fun _ => iprop(_ ∗ _ ∗ (dat1 V c).leavesExact 0 t ∗ (dat1 V c).leavesExact 1 t
    ∗ (dat1 V c).leavesExact 2 t ∗ (dat1 V c).leavesExact 3 t ∗ (dat1 V c).leavesExact 4 t)
  unfold bodyAt1
  simp only [(before1 V c t).1, (before1 V c t).2]
  rw [show (dat1 V c).owesAt () t.succ = (dat1 V c).owesAt () t.castSucc from rfl,
    show (dat1 V c).Φ t.succ = kept1 c (sums1 V c t.val t.isLt) from rfl,
    live1 V c 0 t rfl, live1 V c 1 t rfl, live1 V c 2 t rfl, leaves1 V c t 3 (by decide), leaves1 V c t 4 (by decide),
    after1_0, after1_1, after1_2, after1_3, after1_4]
  by_cases h0 : t.val = 0 <;> by_cases h2 : t.val = 24
  · exact absurd h2 (by omega)
  on_goal 1 => rw [(first1 V c t h0).1, (first1 V c t h0).2, PhiA1_eq, if_neg h2, if_neg h2]
  on_goal 2 => obtain ⟨s, e, e'⟩ := later1 V c t h0; rw [e, e', if_pos h2, if_pos h2]
  on_goal 3 => obtain ⟨s, e, e'⟩ := later1 V c t h0; rw [e, e', if_neg h2, if_neg h2]
  all_goals
    unfold kept1
    iintro ⟨⟨⟨⟨HS0, HS1⟩, Hr⟩, Hg⟩, Ho, ⟨%d0, H0⟩, ⟨%d1, H1⟩, ⟨%d2, H2⟩, ⟨%d3, H3⟩, ⟨%d4, H4⟩⟩
  on_goal 3 => iapply sound_kernel1_B c (mt (hcond1_0 t).mp h0) (mt (hcond1_2 t).mp h2) (iblk1 V c 0 t) (iblk1 V c 1 t)
  on_goal 2 => iapply sound_kernel1_C c (mt (hcond1_0 t).mp h0) ((hcond1_2 t).mpr h2) (iblk1 V c 0 t) (iblk1 V c 1 t)
  on_goal 1 => iapply sound_kernel1_A c ((hcond1_0 t).mpr h0) (mt (hcond1_2 t).mp h2) (iblk1 V c 0 t) (iblk1 V c 1 t)
  all_goals
    iframe H0 H1
    isplitl [H2]; · iexists _; iexact H2
    isplitl [H3]; · first | iexact H3 | (iexists _; iexact H3)
    isplitl [H4]; · first | iexact H4 | (iexists _; iexact H4)
    isplitl [HS0]; · iexact HS0
    isplitl [HS1]; · iexact HS1
    iintro ⟨H0, H1, H2, H3, H4, HS0, HS1⟩
    iframe HS0 HS1 Hr Hg Ho H0 H1 H2
    isplitl [H3] <;> first | iassumption | (iexists _; iassumption)

theorem hin1 (c : Dev nD) : Pipeline.ΦA spec1 c ⊢ (dat1 V c).Φ 0 := Entails.refl _

theorem hout1 (c : Dev nD) : (dat1 V c).Φ (Fin.last cfg1.N) ⊢ Pipeline.ΦA spec1 c := by
  rw [show (dat1 V c).Φ (Fin.last cfg1.N) = kept1 c (sums1 V c 24 (by decide)) from rfl, PhiA1_eq]; unfold kept1
  iintro ⟨⟨⟨HS0, HS1⟩, Hr⟩, Hg⟩
  iframe Hr Hg
  isplitl [HS0] <;> iexists _ <;> iassumption

end Cert.KernelIdeal.Hand

end
-- ==== Proof.KI.R2.lean ====
-- The normalise-and-threshold call: proof data and body obligation at arbitrary entry contents.
import proofs.«164947_j60361470378157_1_alg».proof.Proof.Gen.KernelIdeal.Launch
import proofs.«164947_j60361470378157_1_alg».proof.Proof.Gen.KernelIdeal.Skeleton
import proofs.«164947_j60361470378157_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x256 := Rect.unit (s := S2000x256) ![0, 0] S2000x256.size inb_S2000x256_S2000x256_0_0
abbrev r2_1 : Rect S1x256 := Rect.unit (s := S1x256) ![0, 0] S1x256.size inb_S1x256_S1x256_0_0
abbrev r2_2 : Rect S1x1 := Rect.unit (s := S1x1) ![0, 0] S1x1.size inb_S1x1_S1x1_0_0

def out2_6 (x0 : Vec F S2000x256 .f32) (x1 x2 x3 x4 : Vec F S1x256 .f32) (x5 : Vec F S1x1 .f32) : Vec F S2000x256 .f32 :=
  View.canon [⟨r2_0, k2_pay1 (View.ld x0 r2_0) (View.ld x1 r2_1) (View.ld x2 r2_1) (View.ld x3 r2_1) (View.ld x4 r2_1) (View.ld x5 r2_2)⟩]

-- Every entry of the output is written, so it depends on the six inputs alone.
theorem sound_kernel2 (c : Dev nD) {E : Set ℕ} {i : grid2.Coords} {arg1 arg7 : Memref sig .tc .vmem S2000x256 .f32}
    {arg2 arg3 arg4 arg5 : Memref sig .tc .vmem S1x256 .f32} {arg6 : Memref sig .tc .vmem S1x1 .f32}
    {harg1 harg2 harg3 harg4 harg5 harg6 harg7} (x0 x6 : Vec F S2000x256 .f32) (x1 x2 x3 x4 : Vec F S1x256 .f32)
    (x5 : Vec F S1x1 .f32) {K : PUnit → sProp 𝕄} :
    let P := iprop(ownsTc c arg1 fullShare x0 ∗ ownsTc c arg2 fullShare x1 ∗ ownsTc c arg3 fullShare x2 ∗ ownsTc c arg4 fullShare x3
      ∗ ownsTc c arg5 fullShare x4 ∗ ownsTc c arg6 fullShare x5)
    iprop(P ∗ ownsTc c arg7 fullShare x6 ∗ (iprop(P ∗ ownsTc c arg7 fullShare (out2_6 x0 x1 x2 x3 x4 x5)) -∗ K ⟨⟩))
      ⊢ wp frame (wpE (defs₀ (F := F)) Variants.none c none) E
        (cc2__normalize_kernel i arg1 harg1 arg2 harg2 arg3 harg3 arg4 harg4 arg5 harg5 arg6 harg6 arg7 harg7) K := by
  simp only [cc2__normalize_kernel_eq_skeleton, ownsTc]; unfold cc2__normalize_kernel_skel owns
  iintro ⟨⟨⟨%f0, %hf0, H0⟩, ⟨%f1, %hf1, H1⟩, ⟨%f2, %hf2, H2⟩, ⟨%f3, %hf3, H3⟩, ⟨%f4, %hf4, H4⟩, %f5, %hf5, H5⟩, ⟨%f6, -, H6⟩, Hk⟩
  subst hf0 hf1 hf2 hf3 hf4 hf5
  sl_exec
  sl_step
  iapply Hk
  isplitr [H6]; isplitl [H0]; swap; isplitl [H1]; swap; isplitl [H2]; swap; isplitl [H3]; swap; isplitl [H4]
  all_goals
    iexists _; isplitr; swap; · iassumption
    ipureintro
    first | exact View.read_writes_eq_canon _ _ _ (View.cover_of_tiled _ S2000x256.size (by rfl)) | rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) : ∀ w : Fin 7, w ≠ 6 → ∀ d, (dat2 V c).before w t d = (dat2 V c).after w t
  | 0, _, d | 1, _, d | 2, _, d | 3, _, d | 4, _, d | 5, _, d =>
    (dat2 V c).before_in_eq_fetched _ rfl (fun _ => rfl) (fun _ _ _ => rfl) (fun _ => rfl) t d
  | 6, h, _ => absurd rfl h
  | ⟨_ + 7, h⟩, _, _ => by omega

theorem body_obligation2 (c : Dev nD) : BodyObligation (dat2 (F := F) V c) (defs₀ (F := F)) Variants.none () Set.univ := fun t => by
  rw [bigSep_W2, bigSep_W2]
  simp +decide only [before2 V c t, after2_6]
  show _ ⊢ wp _ _ _ (bodyAt2 t) fun _ => iprop((dat2 V c).Φ t.castSucc ∗ (dat2 V c).owesAt () t.castSucc ∗ _)
  iintro ⟨HΦ, Ho, ⟨%_, H0⟩, ⟨%_, H1⟩, ⟨%_, H2⟩, ⟨%_, H3⟩, ⟨%_, H4⟩, ⟨%_, H5⟩, ⟨%d, H6⟩⟩
  iapply sound_kernel2 c ((dat2 V c).after 0 t) ((dat2 V c).before 6 t d) ((dat2 V c).after 1 t) ((dat2 V c).after 2 t)
    ((dat2 V c).after 3 t) ((dat2 V c).after 4 t) ((dat2 V c).after 5 t)
  iframe
  iintro ⟨⟨H0, H1, H2, H3, H4, H5⟩, H6⟩
  iframe
  iexact H6

end Cert.KernelIdeal.Hand

end
-- ==== Proof.KI.R3.lean ====
-- A matrix product, one tile of 2000 rows at a time: proof data and body obligation at arbitrary entry contents.
import proofs.«164947_j60361470378157_1_alg».proof.Proof.Gen.KernelIdeal.Launch
import proofs.«164947_j60361470378157_1_alg».proof.Proof.Gen.KernelIdeal.Skeleton
import proofs.«164947_j60361470378157_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x256 := Rect.unit (s := S2000x256) ![0, 0] S2000x256.size inb_S2000x256_S2000x256_0_0
abbrev r3_1 : Rect S256x256 := Rect.unit (s := S256x256) ![0, 0] S256x256.size inb_S256x256_S256x256_0_0
abbrev r3_2 : Rect S2000x256 := Rect.unit (s := S2000x256) ![0, 0] S2000x256.size inb_S2000x256_S2000x256_0_0

def out3_2 (x0 : Vec F S2000x256 .f32) (x1 : Vec F S256x256 .f32) : Vec F S2000x256 .f32 :=
  View.canon [⟨r3_2, k3_pay1 (View.ld x0 r3_0) (View.ld x1 r3_1)⟩]

-- Every entry of the output is written, so it depends on the two inputs alone.
theorem sound_kernel3 (c : Dev nD) {E : Set ℕ} {i : grid3.Coords} {arg1 : Memref sig .tc .vmem S2000x256 .f32}
    {arg2 : Memref sig .tc .vmem S256x256 .f32} {arg3 : Memref sig .tc .vmem S2000x256 .f32} {harg1 harg2 harg3}
    (x0 : Vec F S2000x256 .f32) (x1 : Vec F S256x256 .f32) (x2 : Vec F S2000x256 .f32) {K : PUnit → sProp 𝕄} :
    iprop(ownsTc c arg1 fullShare x0 ∗ ownsTc c arg2 fullShare x1 ∗ ownsTc c arg3 fullShare x2
        ∗ (iprop(ownsTc c arg1 fullShare x0 ∗ ownsTc c arg2 fullShare x1 ∗ ownsTc c arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton, ownsTc]; unfold cc3__matmul_kernel_skel owns
  iintro ⟨⟨%f0, %hf0, H0⟩, ⟨%f1, %hf1, H1⟩, ⟨%f2, -, H2⟩, Hk⟩
  subst hf0 hf1
  sl_exec
  sl_step
  iapply Hk
  isplitl [H0]; swap; isplitl [H1]
  all_goals
    iexists _; isplitr; swap; · iassumption
    ipureintro
    first | exact View.read_writes_eq_canon _ _ _ (View.cover_of_tiled _ S2000x256.size (by rfl)) | rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := by dsimp only [dat3]

theorem before3 (c : Dev nD) (t : Fin cfg3.N) : ∀ w : Fin 3, w ≠ 2 → ∀ d, (dat3 V c).before w t d = (dat3 V c).after w t
  | 0, _, d | 1, _, d => (dat3 V c).before_in_eq_fetched _ rfl (fun _ => rfl) (fun _ _ _ => rfl) (fun _ => rfl) t d
  | 2, h, _ => absurd rfl h
  | ⟨_ + 3, h⟩, _, _ => by omega

theorem body_obligation3 (c : Dev nD) : BodyObligation (dat3 (F := F) V c) (defs₀ (F := F)) Variants.none () Set.univ := fun t => by
  rw [bigSep_W3, bigSep_W3]
  simp +decide only [before3 V c t, after3_2]
  show _ ⊢ wp _ _ _ (bodyAt3 t) fun _ => iprop((dat3 V c).Φ t.castSucc ∗ (dat3 V c).owesAt () t.castSucc ∗ _)
  iintro ⟨HΦ, Ho, ⟨%_, H0⟩, ⟨%_, H1⟩, ⟨%d, H2⟩⟩
  iapply sound_kernel3 c ((dat3 V c).after 0 t) ((dat3 V c).after 1 t) ((dat3 V c).before 2 t d)
  iframe
  iintro ⟨H0, H1, H2⟩
  iframe
  iexact H2

end Cert.KernelIdeal.Hand

end
-- ==== Proof.KI.R4Runs.lean ====
-- One run of the column-statistics body in each of its three cases (first tile, a middle tile, last tile).
import proofs.«164947_j60361470378157_1_alg».proof.Proof.Gen.KernelIdeal.Launch
import proofs.«164947_j60361470378157_1_alg».proof.Proof.Gen.KernelIdeal.Skeleton
import proofs.«164947_j60361470378157_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F] [Named F]

local notation "𝕄" => MT nD τ sig Unit (Elt F) ℕ (UR sig nD τ) ℕ

abbrev r4_0 : Rect S2000x256 := Rect.unit (s := S2000x256) ![0, 0] S2000x256.size inb_S2000x256_S2000x256_0_0
abbrev r4_1 : Rect S1x256 := Rect.unit (s := S1x256) ![0, 0] S1x256.size inb_S1x256_S1x256_0_0

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 := by decide +kernel

abbrev cond4_2 (i : grid4.Coords) : Prop := k4_cond2 i = 1#1
theorem hcond4_2 : ∀ t : Fin cfg4.N, cond4_2 (grid4.coords t) ↔ t.val = 24 := by decide +kernel

def out4_2 (x0 : Vec F S2000x256 .f32) (x1 : Vec F S1x256 .f32) : Vec F S2000x256 .f32 :=
  View.canon [⟨r4_0, k4_pay3 (View.ld x0 r4_0) (View.ld x1 r4_1)⟩]
def acc4_0 (x0 : Vec F S2000x256 .f32) (x1 s0 : Vec F S1x256 .f32) : Vec F S1x256 .f32 :=
  View.canon [⟨r4_1, k4_pay4 (View.ld x0 r4_0) (View.ld x1 r4_1) (View.ld s0 r4_1)⟩]
def acc4_1 (x0 : Vec F S2000x256 .f32) (x1 s1 : Vec F S1x256 .f32) : Vec F S1x256 .f32 :=
  View.canon [⟨r4_1, k4_pay5 (View.ld x0 r4_0) (View.ld x1 r4_1) (View.ld s1 r4_1)⟩]
def zero4_0 : Vec F S1x256 .f32 := View.canon [⟨r4_1, k4_pay1 (F := F)⟩]
def zero4_1 : Vec F S1x256 .f32 := View.canon [⟨r4_1, k4_pay2 (F := F)⟩]
def mean4 (a0 : Vec F S1x256 .f32) : Vec F S1x256 .f32 :=
  View.canon [⟨r4_1, k4_pay6 (View.ld a0 r4_1)⟩]
def var4 (a0 a1 : Vec F S1x256 .f32) : Vec F S1x256 .f32 :=
  View.canon [⟨r4_1, k4_pay7 (View.ld a0 r4_1) (View.ld a1 r4_1)⟩]

theorem cover4_0 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y
theorem cover4_1 (p0 : Vec F S1x256 .f32) (y : S1x256.Idx) :
    ∃ pc ∈ ([⟨r4_1, p0⟩] : List (View.Piece (Elt F) S1x256 .f32)), y ∈ pc.1.set :=
  View.cover_of_tiled [⟨r4_1, p0⟩] S1x256.size (by rfl) y
theorem mem4_1 (y : S1x256.Idx) : y ∈ r4_1.set :=
  View.mem_set_unit_zero (S := S1x256) (by funext a; fin_cases a <;> rfl) _ y

variable (c : Dev nD) {E : Set ℕ} {i : grid4.Coords} {arg1 arg3 : Memref sig .tc .vmem S2000x256 .f32} {arg2 arg4 arg5 arg6 arg7 : Memref sig .tc .vmem S1x256 .f32} {harg1 : arg1.IsWhole} {harg2 : arg2.IsWhole} {harg3 : arg3.IsWhole} {harg4 : arg4.IsWhole} {harg5 : arg5.IsWhole} {harg6 : arg6.IsWhole} {harg7 : arg7.IsWhole}

theorem sound_kernel4_B (hc0 : ¬cond4_0 i) (hc2 : ¬cond4_2 i)
    (x0 : Vec F S2000x256 .f32) (x1 : Vec F S1x256 .f32) {xi3 xi4 s0 s1 : Vec F S1x256 .f32} {K : PUnit → sProp 𝕄} :
    iprop(ownsTc c arg1 fullShare x0 ∗ ownsTc c arg2 fullShare x1 ∗ (∃ d, ownsTc c arg3 fullShare d) ∗ ownsTc c arg4 fullShare xi3 ∗ ownsTc c arg5 fullShare xi4 ∗ ownsTc c arg6 fullShare s0 ∗ ownsTc c arg7 fullShare s1
        ∗ (iprop(ownsTc c arg1 fullShare x0 ∗ ownsTc c arg2 fullShare x1 ∗ ownsTc c arg3 fullShare (out4_2 x0 x1) ∗ ownsTc c arg4 fullShare xi3 ∗ ownsTc c arg5 fullShare xi4 ∗ ownsTc c arg6 fullShare (acc4_0 x0 x1 s0) ∗ ownsTc c arg7 fullShare (acc4_1 x0 x1 s1)) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton, ownsTc]; unfold cc4__stats_kernel_skel owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0 hf1 hf3 hf4 hf5 hf6
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
    first | exact View.read_writes_eq_canon _ _ _ (cover4_0 _) | exact View.read_writes_eq_canon _ _ _ (cover4_1 _) | rfl

set_option maxHeartbeats 400000 in
theorem sound_kernel4_A (hc0 : cond4_0 i) (hc2 : ¬cond4_2 i)
    (x0 : Vec F S2000x256 .f32) (x1 : Vec F S1x256 .f32) {xi3 xi4 : Vec F S1x256 .f32} {K : PUnit → sProp 𝕄} :
    iprop(ownsTc c arg1 fullShare x0 ∗ ownsTc c arg2 fullShare x1 ∗ (∃ d, ownsTc c arg3 fullShare d) ∗ ownsTc c arg4 fullShare xi3 ∗ ownsTc c arg5 fullShare xi4 ∗ (∃ d, ownsTc c arg6 fullShare d) ∗ (∃ d, ownsTc c arg7 fullShare d)
        ∗ (iprop(ownsTc c arg1 fullShare x0 ∗ ownsTc c arg2 fullShare x1 ∗ ownsTc c arg3 fullShare (out4_2 x0 x1) ∗ ownsTc c arg4 fullShare xi3 ∗ ownsTc c arg5 fullShare xi4 ∗ ownsTc c arg6 fullShare (acc4_0 x0 x1 zero4_0) ∗ ownsTc c arg7 fullShare (acc4_1 x0 x1 zero4_1)) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton, ownsTc]; unfold cc4__stats_kernel_skel owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0 hf1 hf3 hf4
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
  iterate 2
    sl_unfold_run_names
    rw [View.readCov_eq_canon_ld _ _ r4_1 (cover4_1 _)]
    exact (View.read_writes_of_cover_last _ _ arg6.view f5 _ _ [] mem4_1).trans (View.read_writes_eq_canon _ _ _ (cover4_1 _))
  all_goals first | exact View.read_writes_eq_canon _ _ _ (cover4_0 _) | rfl

theorem sound_kernel4_C (hc0 : ¬cond4_0 i) (hc2 : cond4_2 i)
    (x0 : Vec F S2000x256 .f32) (x1 : Vec F S1x256 .f32) {s0 s1 : Vec F S1x256 .f32} {K : PUnit → sProp 𝕄} :
    iprop(ownsTc c arg1 fullShare x0 ∗ ownsTc c arg2 fullShare x1 ∗ (∃ d, ownsTc c arg3 fullShare d) ∗ (∃ d, ownsTc c arg4 fullShare d) ∗ (∃ d, ownsTc c arg5 fullShare d) ∗ ownsTc c arg6 fullShare s0 ∗ ownsTc c arg7 fullShare s1
        ∗ (iprop(ownsTc c arg1 fullShare x0 ∗ ownsTc c arg2 fullShare x1 ∗ ownsTc c arg3 fullShare (out4_2 x0 x1) ∗ ownsTc c arg4 fullShare (mean4 (acc4_0 x0 x1 s0)) ∗ ownsTc c arg5 fullShare (var4 (acc4_0 x0 x1 s0) (acc4_1 x0 x1 s1)) ∗ ownsTc c arg6 fullShare (acc4_0 x0 x1 s0) ∗ ownsTc c arg7 fullShare (acc4_1 x0 x1 s1)) -∗ K ⟨⟩))
      ⊢ wp frame (wpE (defs₀ (F := F)) Variants.none c none) E (cc4__stats_kernel i arg1 harg1 arg2 harg2 arg3 harg3 arg4 harg4 arg5 harg5 arg6 harg6 arg7 harg7) K := by
  simp only [cc4__stats_kernel_eq_skeleton, ownsTc]; unfold cc4__stats_kernel_skel owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0 hf1 hf5 hf6
  sl_exec (disch := first | exact hc0 | exact hc2)
  sl_step
  iapply Hk
  isplitl [H0]; swap; isplitl [H1]; swap; isplitl [H2]; swap; isplitl [H3]; swap; isplitl [H4]; swap; isplitl [H5]
  all_goals
    iexists _; isplitr; swap; · iassumption
    ipureintro
  iterate 2 exact View.read_writes_eq_canon _ _ _ (cover4_1 _)
  iterate 2
    sl_unfold_run_names
    repeat rw [View.readCov_eq_canon_ld _ _ r4_1 (cover4_1 _)]
    exact View.read_writes_eq_canon _ _ _ (cover4_1 _)
  all_goals first | exact View.read_writes_eq_canon _ _ _ (cover4_0 _) | rfl

end Cert.KernelIdeal.Hand

end
-- ==== Proof.KI.R4.lean ====
-- The column-statistics call: running column sums and sums of squares carried from tile to tile, mean and variance written at the last tile.
import proofs.«164947_j60361470378157_1_alg».proof.Proof.KI.R4Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem idle4 : ∀ (t : Fin cfg4.N) (w : Fin cfg4.W), 3 ≤ w.val →
    (t.val = 24 → cfg4.idle w (grid4.coords t) = false) ∧
    (¬t.val = 24 → cfg4.idle w (grid4.coords t) = true ∧ (cfg4.win w).flush t = false) := by decide +kernel

theorem PhiA4_eq (c : Dev nD) :
    (Pipeline.ΦA spec4 c : sProp 𝕄)
      = iprop(iprop(iprop((∃ d, owns (c : Thread nD τ) (Memref.whole cc4_scratch0) fullShare d) ∗ (∃ d, owns (c : Thread nD τ) (Memref.whole cc4_scratch1) fullShare d))
          ∗ Pipeline.scopedRestBut spec4 c [cc4_scratch0, cc4_scratch1]) ∗ (∃ r, prngReg c r)) := by
  unfold Pipeline.ΦA; rw [scopedRest4_split]; simp only [owns_whole]

def sums4 (c : Dev nD) : (n : ℕ) → n < cfg4.N → Vec F S1x256 .f32 × Vec F S1x256 .f32
  | 0, hn => (acc4_0 (iblk4 V c 0 ⟨0, hn⟩) (iblk4 V c 1 ⟨0, hn⟩) zero4_0, acc4_1 (iblk4 V c 0 ⟨0, hn⟩) (iblk4 V c 1 ⟨0, hn⟩) zero4_1)
  | n + 1, hn => (acc4_0 (iblk4 V c 0 ⟨n + 1, hn⟩) (iblk4 V c 1 ⟨n + 1, hn⟩) (sums4 c n (Nat.lt_of_succ_lt hn)).1,
      acc4_1 (iblk4 V c 0 ⟨n + 1, hn⟩) (iblk4 V c 1 ⟨n + 1, hn⟩) (sums4 c n (Nat.lt_of_succ_lt hn)).2)

def outsAt4 (c : Dev nD) (n : ℕ) (hn : n < cfg4.N) :
    Vec F S2000x256 .f32 × Vec F S1x256 .f32 × Vec F S1x256 .f32 × Vec F S1x256 .f32 × Vec F S1x256 .f32 :=
  (out4_2 (iblk4 V c 0 ⟨n, hn⟩) (iblk4 V c 1 ⟨n, hn⟩),
   mean4 (sums4 V c n hn).1, var4 (sums4 V c n hn).1 (sums4 V c n hn).2,
   (sums4 V c n hn).1, (sums4 V c n hn).2)

def kept4 (c : Dev nD) (s : Vec F S1x256 .f32 × Vec F S1x256 .f32) : sProp 𝕄 :=
  iprop(iprop(iprop(owns (c : Thread nD τ) (Memref.whole cc4_scratch0) fullShare s.1 ∗ owns (c : Thread nD τ) (Memref.whole cc4_scratch1) fullShare s.2)
      ∗ Pipeline.scopedRestBut spec4 c [cc4_scratch0, cc4_scratch1]) ∗ (∃ r, prngReg c r))

def PhiS4 (c : Dev nD) : (n : ℕ) → n ≤ cfg4.N → sProp 𝕄
  | 0, _ => Pipeline.ΦA spec4 c
  | n + 1, hn => kept4 c (sums4 V c n hn)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
    | ⟨4, _⟩ => (outsAt4 V c t.val t.isLt).2.2.1
  Φ t := PhiS4 V c t.val (Nat.le_of_lt_succ t.isLt)
  q _ := fullShare
  owed _ := 0

theorem live4 (c : Dev nD) (w : Fin cfg4.W) (t : Fin cfg4.N) (h : cfg4.idle w (cfg4.grid.coords t) = false) :
    (dat4 V c).leavesExact w t = owns (c : Thread nD τ) ((cfg4.win w).stage (cfg4.slots t w)) fullShare ((dat4 V c).after w t) := by
  unfold Dat.leavesExact; rw [h]

theorem A_eq4 (c : Dev nD) (w : Fin cfg4.W) : (dat4 V c).A w = V c (Pipeline.arrRef spec4 w) := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4, outsAt4]
theorem after4_3 (c : Dev nD) (t : Fin cfg4.N) : (dat4 V c).after 3 t = mean4 (sums4 V c t.val t.isLt).1 := by dsimp only [dat4, outsAt4]
theorem after4_4 (c : Dev nD) (t : Fin cfg4.N) : (dat4 V c).after 4 t = var4 (sums4 V c t.val t.isLt).1 (sums4 V c t.val t.isLt).2 := by dsimp only [dat4, outsAt4]

theorem before4 (c : Dev nD) (t : Fin cfg4.N) :
    (∀ d, (dat4 V c).before 0 t d = iblk4 V c 0 t) ∧ ∀ d, (dat4 V c).before 1 t d = iblk4 V c 1 t :=
  ⟨fun d => ((dat4 V c).before_in_eq_fetched 0 rfl (fun _ => rfl) (fun _ _ _ => rfl) (fun _ => rfl) t d).trans rfl,
   fun d => ((dat4 V c).before_in_eq_fetched 1 rfl (fun _ => rfl) (fun _ _ _ => rfl) (fun _ => rfl) t d).trans rfl⟩

theorem leaves4 (c : Dev nD) (t : Fin cfg4.N) (w : Fin cfg4.W) (hw : 3 ≤ w.val) :
    (dat4 V c).leavesExact w t = if t.val = 24 then owns (c : Thread nD τ) ((cfg4.win w).stage (cfg4.slots t w)) fullShare ((dat4 V c).after w t)
      else iprop(∃ d, owns (c : Thread nD τ) ((cfg4.win w).stage (cfg4.slots t w)) fullShare ((dat4 V c).before w t d)) := by
  by_cases h : t.val = 24
  · rw [if_pos h]; exact live4 V c w t ((idle4 t w hw).1 h)
  · rw [if_neg h]; exact Dat.leavesExact_idle _ w t ((idle4 t w hw).2 h).1 ((idle4 t w hw).2 h).2

-- At the first tile the sums start from zero.
theorem first4 (c : Dev nD) (t : Fin cfg4.N) (h0 : t.val = 0) :
    (dat4 V c).Φ t.castSucc = Pipeline.ΦA spec4 c ∧ sums4 V c t.val t.isLt
      = (acc4_0 (iblk4 V c 0 t) (iblk4 V c 1 t) zero4_0, acc4_1 (iblk4 V c 0 t) (iblk4 V c 1 t) zero4_1) := by
  obtain ⟨_ | n, hn⟩ := t
  exacts [⟨rfl, rfl⟩, absurd h0 (Nat.succ_ne_zero n)]

-- At a later tile the sums go on from what the tile before left.
theorem later4 (c : Dev nD) (t : Fin cfg4.N) (h0 : ¬t.val = 0) :
    ∃ s, (dat4 V c).Φ t.castSucc = kept4 c s ∧ sums4 V c t.val t.isLt
      = (acc4_0 (iblk4 V c 0 t) (iblk4 V c 1 t) s.1, acc4_1 (iblk4 V c 0 t) (iblk4 V c 1 t) s.2) := by
  obtain ⟨_ | n, hn⟩ := t
  exacts [absurd rfl h0, ⟨sums4 V c n (Nat.lt_of_succ_lt hn), rfl, rfl⟩]

-- The first, the last and the other tiles differ only in which rows are named: one argument serves the three.
theorem body_obligation4 (c : Dev nD) : BodyObligation (dat4 (F := F) V c) (defs₀ (F := F)) Variants.none () Set.univ := fun t => by
  rw [bigSep_W4, bigSep_W4]
  show _ ⊢ wp _ _ _ (bodyAt4 t) fun _ => iprop(_ ∗ _ ∗ (dat4 V c).leavesExact 0 t ∗ (dat4 V c).leavesExact 1 t
    ∗ (dat4 V c).leavesExact 2 t ∗ (dat4 V c).leavesExact 3 t ∗ (dat4 V c).leavesExact 4 t)
  unfold bodyAt4
  simp only [(before4 V c t).1, (before4 V c t).2]
  rw [show (dat4 V c).owesAt () t.succ = (dat4 V c).owesAt () t.castSucc from rfl,
    show (dat4 V c).Φ t.succ = kept4 c (sums4 V c t.val t.isLt) from rfl,
    live4 V c 0 t rfl, live4 V c 1 t rfl, live4 V c 2 t rfl, leaves4 V c t 3 (by decide), leaves4 V c t 4 (by decide),
    after4_0, after4_1, after4_2, after4_3, after4_4]
  by_cases h0 : t.val = 0 <;> by_cases h2 : t.val = 24
  · exact absurd h2 (by omega)
  on_goal 1 => rw [(first4 V c t h0).1, (first4 V c t h0).2, PhiA4_eq, if_neg h2, if_neg h2]
  on_goal 2 => obtain ⟨s, e, e'⟩ := later4 V c t h0; rw [e, e', if_pos h2, if_pos h2]
  on_goal 3 => obtain ⟨s, e, e'⟩ := later4 V c t h0; rw [e, e', if_neg h2, if_neg h2]
  all_goals
    unfold kept4
    iintro ⟨⟨⟨⟨HS0, HS1⟩, Hr⟩, Hg⟩, Ho, ⟨%d0, H0⟩, ⟨%d1, H1⟩, ⟨%d2, H2⟩, ⟨%d3, H3⟩, ⟨%d4, H4⟩⟩
  on_goal 3 => iapply sound_kernel4_B c (mt (hcond4_0 t).mp h0) (mt (hcond4_2 t).mp h2) (iblk4 V c 0 t) (iblk4 V c 1 t)
  on_goal 2 => iapply sound_kernel4_C c (mt (hcond4_0 t).mp h0) ((hcond4_2 t).mpr h2) (iblk4 V c 0 t) (iblk4 V c 1 t)
  on_goal 1 => iapply sound_kernel4_A c ((hcond4_0 t).mpr h0) (mt (hcond4_2 t).mp h2) (iblk4 V c 0 t) (iblk4 V c 1 t)
  all_goals
    iframe H0 H1
    isplitl [H2]; · iexists _; iexact H2
    isplitl [H3]; · first | iexact H3 | (iexists _; iexact H3)
    isplitl [H4]; · first | iexact H4 | (iexists _; iexact H4)
    isplitl [HS0]; · iexact HS0
    isplitl [HS1]; · iexact HS1
    iintro ⟨H0, H1, H2, H3, H4, HS0, HS1⟩
    iframe HS0 HS1 Hr Hg Ho H0 H1 H2
    isplitl [H3] <;> first | iassumption | (iexists _; iassumption)

theorem hin4 (c : Dev nD) : Pipeline.ΦA spec4 c ⊢ (dat4 V c).Φ 0 := Entails.refl _

theorem hout4 (c : Dev nD) : (dat4 V c).Φ (Fin.last cfg4.N) ⊢ Pipeline.ΦA spec4 c := by
  rw [show (dat4 V c).Φ (Fin.last cfg4.N) = kept4 c (sums4 V c 24 (by decide)) from rfl, PhiA4_eq]; unfold kept4
  iintro ⟨⟨⟨HS0, HS1⟩, Hr⟩, Hg⟩
  iframe Hr Hg
  isplitl [HS0] <;> iexists _ <;> iassumption

end Cert.KernelIdeal.Hand

end
-- ==== Proof.KI.R5.lean ====
-- The normalise-and-threshold call: proof data and body obligation at arbitrary entry contents.
import proofs.«164947_j60361470378157_1_alg».proof.Proof.Gen.KernelIdeal.Launch
import proofs.«164947_j60361470378157_1_alg».proof.Proof.Gen.KernelIdeal.Skeleton
import proofs.«164947_j60361470378157_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x256 := Rect.unit (s := S2000x256) ![0, 0] S2000x256.size inb_S2000x256_S2000x256_0_0
abbrev r5_1 : Rect S1x256 := Rect.unit (s := S1x256) ![0, 0] S1x256.size inb_S1x256_S1x256_0_0
abbrev r5_2 : Rect S1x1 := Rect.unit (s := S1x1) ![0, 0] S1x1.size inb_S1x1_S1x1_0_0

def out5_6 (x0 : Vec F S2000x256 .f32) (x1 x2 x3 x4 : Vec F S1x256 .f32) (x5 : Vec F S1x1 .f32) : Vec F S2000x256 .f32 :=
  View.canon [⟨r5_0, k5_pay1 (View.ld x0 r5_0) (View.ld x1 r5_1) (View.ld x2 r5_1) (View.ld x3 r5_1) (View.ld x4 r5_1) (View.ld x5 r5_2)⟩]

-- Every entry of the output is written, so it depends on the six inputs alone.
theorem sound_kernel5 (c : Dev nD) {E : Set ℕ} {i : grid5.Coords} {arg1 arg7 : Memref sig .tc .vmem S2000x256 .f32}
    {arg2 arg3 arg4 arg5 : Memref sig .tc .vmem S1x256 .f32} {arg6 : Memref sig .tc .vmem S1x1 .f32}
    {harg1 harg2 harg3 harg4 harg5 harg6 harg7} (x0 x6 : Vec F S2000x256 .f32) (x1 x2 x3 x4 : Vec F S1x256 .f32)
    (x5 : Vec F S1x1 .f32) {K : PUnit → sProp 𝕄} :
    let P := iprop(ownsTc c arg1 fullShare x0 ∗ ownsTc c arg2 fullShare x1 ∗ ownsTc c arg3 fullShare x2 ∗ ownsTc c arg4 fullShare x3
      ∗ ownsTc c arg5 fullShare x4 ∗ ownsTc c arg6 fullShare x5)
    iprop(P ∗ ownsTc c arg7 fullShare x6 ∗ (iprop(P ∗ ownsTc c arg7 fullShare (out5_6 x0 x1 x2 x3 x4 x5)) -∗ K ⟨⟩))
      ⊢ wp frame (wpE (defs₀ (F := F)) Variants.none c none) E
        (cc5__normalize_kernel i arg1 harg1 arg2 harg2 arg3 harg3 arg4 harg4 arg5 harg5 arg6 harg6 arg7 harg7) K := by
  simp only [cc5__normalize_kernel_eq_skeleton, ownsTc]; unfold cc5__normalize_kernel_skel owns
  iintro ⟨⟨⟨%f0, %hf0, H0⟩, ⟨%f1, %hf1, H1⟩, ⟨%f2, %hf2, H2⟩, ⟨%f3, %hf3, H3⟩, ⟨%f4, %hf4, H4⟩, %f5, %hf5, H5⟩, ⟨%f6, -, H6⟩, Hk⟩
  subst hf0 hf1 hf2 hf3 hf4 hf5
  sl_exec
  sl_step
  iapply Hk
  isplitr [H6]; isplitl [H0]; swap; isplitl [H1]; swap; isplitl [H2]; swap; isplitl [H3]; swap; isplitl [H4]
  all_goals
    iexists _; isplitr; swap; · iassumption
    ipureintro
    first | exact View.read_writes_eq_canon _ _ _ (View.cover_of_tiled _ S2000x256.size (by rfl)) | rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := rfl

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) : ∀ w : Fin 7, w ≠ 6 → ∀ d, (dat5 V c).before w t d = (dat5 V c).after w t
  | 0, _, d | 1, _, d | 2, _, d | 3, _, d | 4, _, d | 5, _, d =>
    (dat5 V c).before_in_eq_fetched _ rfl (fun _ => rfl) (fun _ _ _ => rfl) (fun _ => rfl) t d
  | 6, h, _ => absurd rfl h
  | ⟨_ + 7, h⟩, _, _ => by omega

theorem body_obligation5 (c : Dev nD) : BodyObligation (dat5 (F := F) V c) (defs₀ (F := F)) Variants.none () Set.univ := fun t => by
  rw [bigSep_W5, bigSep_W5]
  simp +decide only [before5 V c t, after5_6]
  show _ ⊢ wp _ _ _ (bodyAt5 t) fun _ => iprop((dat5 V c).Φ t.castSucc ∗ (dat5 V c).owesAt () t.castSucc ∗ _)
  iintro ⟨HΦ, Ho, ⟨%_, H0⟩, ⟨%_, H1⟩, ⟨%_, H2⟩, ⟨%_, H3⟩, ⟨%_, H4⟩, ⟨%_, H5⟩, ⟨%d, H6⟩⟩
  iapply sound_kernel5 c ((dat5 V c).after 0 t) ((dat5 V c).before 6 t d) ((dat5 V c).after 1 t) ((dat5 V c).after 2 t)
    ((dat5 V c).after 3 t) ((dat5 V c).after 4 t) ((dat5 V c).after 5 t)
  iframe
  iintro ⟨⟨H0, H1, H2, H3, H4, H5⟩, H6⟩
  iframe
  iexact H6

end Cert.KernelIdeal.Hand

end
-- ==== Proof.KI.RunVals.lean ====
-- A core's buffer contents between the items of @main, with each call's output arrays named.
import proofs.«164947_j60361470378157_1_alg».proof.Proof.KI.RunCond
import proofs.«164947_j60361470378157_1_alg».proof.Proof.KI.R0
import proofs.«164947_j60361470378157_1_alg».proof.Proof.KI.R1
import proofs.«164947_j60361470378157_1_alg».proof.Proof.KI.R2
import proofs.«164947_j60361470378157_1_alg».proof.Proof.KI.R3
import proofs.«164947_j60361470378157_1_alg».proof.Proof.KI.R4
import proofs.«164947_j60361470378157_1_alg».proof.Proof.KI.R5

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F] [Named F]

abbrev asV (W : Dev nD → Valuation τ sig (Elt F)) : (c : Dev nD) → (b : Ref sig .tc) → Buf (Elt F) ((c : Thread nD τ).loc b) :=
  fun c b => W c b

theorem upd_ne {V : Valuation τ sig (Elt F)} {a r : Ref sig .tc} {x} (h : r ≠ a) : Function.update V a x r = V r :=
  Function.update_of_ne (StableHlo.devRef_ne_of_ne h) _ _

theorem upd1_of {V : Valuation τ sig (Elt F)} {a r : Ref sig .tc} {x} (h : r ∉ [a]) : Function.update V a x r = V r :=
  upd_ne (List.ne_of_not_mem_cons h)

theorem upd3_of {V : Valuation τ sig (Elt F)} {a b d r : Ref sig .tc} {x y z} (h : r ∉ [a, b, d]) :
    Function.update (Function.update (Function.update V a x) b y) d z r = V r := by
  simp only [List.mem_cons, List.not_mem_nil, or_false, not_or] at h
  rw [upd_ne h.2.2, upd_ne h.2.1, upd_ne h.1]

-- An input window's array is the same after the call as before it.
theorem kept {cfg : Pipeline.Cfg sig Λ₀} {c : Dev nD} (D : Dat τ (Elt F) Unit ℕ (UR sig nD τ) ℕ cfg c) {w : Fin cfg.W}
    (hin : (cfg.win w).isOut = false) {x y : Buf (Elt F) ((cfg.win w).arr.view.loc (c.tc : Thread nD τ))}
    (hA : D.A w = x) (hW : y = x) : D.arrAt w cfg.N = y :=
  (D.arrAt_in w hin _).trans (hA.trans hW.symm)

-- Outside the image of `arrRef` over all windows, hence outside its image over any list of them.
theorem off {W gr : ℕ} {win : Fin W → Pipeline.WinSpec sig gr} {b : Ref sig .tc} (hb : b ∉ Finset.univ.image (Pipeline.arrRef win))
    (l : List (Fin W)) : b ∉ l.map (Pipeline.arrRef win) :=
  fun h => let ⟨w, _, e⟩ := List.mem_map.mp h; hb (Finset.mem_image.mpr ⟨w, Finset.mem_univ _, e⟩)

variable (m : (ℓ : Loc nD τ sig) → Buf (Elt F) ℓ)

def X31 (c : Dev nD) : Buf (Elt F) ((c : Thread nD τ).loc main_v31) := (dat0 (asV (Gen.V3 m)) c).arrAt 2 cfg0.N
def W4 (c : Dev nD) : Valuation τ sig (Elt F) := Function.update (Gen.V3 m c) main_v31 (X31 m c)
theorem W4_of (c : Dev nD) (r : Ref sig .tc) (h : r ∉ ([main_v31] : List (Ref sig .tc))) : W4 m c r = Gen.V3 m c r :=
  upd1_of h
theorem W4_main_v31 (c : Dev nD) : W4 m c main_v31 = X31 m c :=
  Function.update_self ..
theorem hF0 (c : Dev nD) : ∀ w : Fin cfg0.W, (dat0 (asV (Gen.V3 m)) c).arrAt w cfg0.N = W4 m c (Proc.devRef .tc (Pipeline.arrRef spec0 w))
  | ⟨0, _⟩ => kept _ rfl (A_eq0 _ c 0) (W4_of m c main_arg0 (by decide))
  | ⟨1, _⟩ => kept _ rfl (A_eq0 _ c 1) (W4_of m c main_arg2 (by decide))
  | ⟨2, _⟩ => (W4_main_v31 m c).symm
theorem hrest0 (c : Dev nD) : ∀ b, b ∉ Finset.univ.image (Pipeline.arrRef spec0) → W4 m c b = Gen.V3 m c b :=
  fun b hb => W4_of m c b (off hb [2])

def W5 (c : Dev nD) : Valuation τ sig (Elt F) := StableHlo.after hostOps1 (W4 m c)
theorem W5_of (c : Dev nD) (r : Ref sig .tc) (h : r ∉ hostOps1_W) : W5 m c r = W4 m c r :=
  StableHlo.after_of_writes_sub hostOps1 _ hostOps1_writes h

def X46_0 (c : Dev nD) : Buf (Elt F) ((c : Thread nD τ).loc main_v46_0) := (dat1 (asV (W5 m)) c).arrAt 2 cfg1.N
def X46_1 (c : Dev nD) : Buf (Elt F) ((c : Thread nD τ).loc main_v46_1) := (dat1 (asV (W5 m)) c).arrAt 3 cfg1.N
def X46_2 (c : Dev nD) : Buf (Elt F) ((c : Thread nD τ).loc main_v46_2) := (dat1 (asV (W5 m)) c).arrAt 4 cfg1.N
def W6 (c : Dev nD) : Valuation τ sig (Elt F) := Function.update (Function.update (Function.update (W5 m c) main_v46_0 (X46_0 m c)) main_v46_1 (X46_1 m c)) main_v46_2 (X46_2 m c)
theorem W6_of (c : Dev nD) (r : Ref sig .tc) (h : r ∉ ([main_v46_0, main_v46_1, main_v46_2] : List (Ref sig .tc))) : W6 m c r = W5 m c r :=
  upd3_of h
theorem W6_main_v46_0 (c : Dev nD) : W6 m c main_v46_0 = X46_0 m c := by
  rw [W6, upd_ne, upd_ne, Function.update_self] <;> decide
theorem W6_main_v46_1 (c : Dev nD) : W6 m c main_v46_1 = X46_1 m c := by
  rw [W6, upd_ne, Function.update_self]; decide
theorem W6_main_v46_2 (c : Dev nD) : W6 m c main_v46_2 = X46_2 m c :=
  Function.update_self ..
theorem hF1 (c : Dev nD) : ∀ w : Fin cfg1.W, (dat1 (asV (W5 m)) c).arrAt w cfg1.N = W6 m c (Proc.devRef .tc (Pipeline.arrRef spec1 w))
  | ⟨0, _⟩ => kept _ rfl (A_eq1 _ c 0) (W6_of m c main_v44 (by decide))
  | ⟨1, _⟩ => kept _ rfl (A_eq1 _ c 1) (W6_of m c main_v45 (by decide))
  | ⟨2, _⟩ => (W6_main_v46_0 m c).symm
  | ⟨3, _⟩ => (W6_main_v46_1 m c).symm
  | ⟨4, _⟩ => (W6_main_v46_2 m c).symm
theorem hrest1 (c : Dev nD) : ∀ b, b ∉ Finset.univ.image (Pipeline.arrRef spec1) → W6 m c b = W5 m c b :=
  fun b hb => W6_of m c b (off hb [2, 3, 4])

def W7 (c : Dev nD) : Valuation τ sig (Elt F) := StableHlo.after hostOps2 (W6 m c)
theorem W7_of (c : Dev nD) (r : Ref sig .tc) (h : r ∉ hostOps2_W) : W7 m c r = W6 m c r :=
  StableHlo.after_of_writes_sub hostOps2 _ hostOps2_writes h

def X50 (c : Dev nD) : Buf (Elt F) ((c : Thread nD τ).loc main_v50) := (dat2 (asV (W7 m)) c).arrAt 6 cfg2.N
def W8 (c : Dev nD) : Valuation τ sig (Elt F) := Function.update (W7 m c) main_v50 (X50 m c)
theorem W8_of (c : Dev nD) (r : Ref sig .tc) (h : r ∉ ([main_v50] : List (Ref sig .tc))) : W8 m c r = W7 m c r :=
  upd1_of h
theorem W8_main_v50 (c : Dev nD) : W8 m c main_v50 = X50 m c :=
  Function.update_self ..
set_option maxHeartbeats 4000000 in
theorem hF2 (c : Dev nD) : ∀ w : Fin cfg2.W, (dat2 (asV (W7 m)) c).arrAt w cfg2.N = W8 m c (Proc.devRef .tc (Pipeline.arrRef spec2 w))
  | ⟨0, _⟩ => kept _ rfl (A_eq2 _ c 0) (W8_of m c main_v46_0 (by decide))
  | ⟨1, _⟩ => kept _ rfl (A_eq2 _ c 1) (W8_of m c main_v46_1 (by decide))
  | ⟨2, _⟩ => kept _ rfl (A_eq2 _ c 2) (W8_of m c main_v46_2 (by decide))
  | ⟨3, _⟩ => kept _ rfl (A_eq2 _ c 3) (W8_of m c main_v47 (by decide))
  | ⟨4, _⟩ => kept _ rfl (A_eq2 _ c 4) (W8_of m c main_v48 (by decide))
  | ⟨5, _⟩ => kept _ rfl (A_eq2 _ c 5) (W8_of m c main_v49 (by decide))
  | ⟨6, _⟩ => (W8_main_v50 m c).symm
theorem hrest2 (c : Dev nD) : ∀ b, b ∉ Finset.univ.image (Pipeline.arrRef spec2) → W8 m c b = W7 m c b :=
  fun b hb => W8_of m c b (off hb [6])

def X51 (c : Dev nD) : Buf (Elt F) ((c : Thread nD τ).loc main_v51) := (dat3 (asV (W8 m)) c).arrAt 2 cfg3.N
def W9 (c : Dev nD) : Valuation τ sig (Elt F) := Function.update (W8 m c) main_v51 (X51 m c)
theorem W9_of (c : Dev nD) (r : Ref sig .tc) (h : r ∉ ([main_v51] : List (Ref sig .tc))) : W9 m c r = W8 m c r :=
  upd1_of h
theorem W9_main_v51 (c : Dev nD) : W9 m c main_v51 = X51 m c :=
  Function.update_self ..
theorem hF3 (c : Dev nD) : ∀ w : Fin cfg3.W, (dat3 (asV (W8 m)) c).arrAt w cfg3.N = W9 m c (Proc.devRef .tc (Pipeline.arrRef spec3 w))
  | ⟨0, _⟩ => kept _ rfl (A_eq3 _ c 0) (W9_of m c main_v50 (by decide))
  | ⟨1, _⟩ => kept _ rfl (A_eq3 _ c 1) (W9_of m c main_arg7 (by decide))
  | ⟨2, _⟩ => (W9_main_v51 m c).symm
theorem hrest3 (c : Dev nD) : ∀ b, b ∉ Finset.univ.image (Pipeline.arrRef spec3) → W9 m c b = W8 m c b :=
  fun b hb => W9_of m c b (off hb [2])

def W10 (c : Dev nD) : Valuation τ sig (Elt F) := StableHlo.after hostOps4 (W9 m c)
theorem W10_of (c : Dev nD) (r : Ref sig .tc) (h : r ∉ hostOps4_W) : W10 m c r = W9 m c r :=
  StableHlo.after_of_writes_sub hostOps4 _ hostOps4_writes h

def X66_0 (c : Dev nD) : Buf (Elt F) ((c : Thread nD τ).loc main_v66_0) := (dat4 (asV (W10 m)) c).arrAt 2 cfg4.N
def X66_1 (c : Dev nD) : Buf (Elt F) ((c : Thread nD τ).loc main_v66_1) := (dat4 (asV (W10 m)) c).arrAt 3 cfg4.N
def X66_2 (c : Dev nD) : Buf (Elt F) ((c : Thread nD τ).loc main_v66_2) := (dat4 (asV (W10 m)) c).arrAt 4 cfg4.N
def W11 (c : Dev nD) : Valuation τ sig (Elt F) := Function.update (Function.update (Function.update (W10 m c) main_v66_0 (X66_0 m c)) main_v66_1 (X66_1 m c)) main_v66_2 (X66_2 m c)
theorem W11_of (c : Dev nD) (r : Ref sig .tc) (h : r ∉ ([main_v66_0, main_v66_1, main_v66_2] : List (Ref sig .tc))) : W11 m c r = W10 m c r :=
  upd3_of h
theorem W11_main_v66_0 (c : Dev nD) : W11 m c main_v66_0 = X66_0 m c := by
  rw [W11, upd_ne, upd_ne, Function.update_self] <;> decide
theorem W11_main_v66_1 (c : Dev nD) : W11 m c main_v66_1 = X66_1 m c := by
  rw [W11, upd_ne, Function.update_self]; decide
theorem W11_main_v66_2 (c : Dev nD) : W11 m c main_v66_2 = X66_2 m c :=
  Function.update_self ..
theorem hF4 (c : Dev nD) : ∀ w : Fin cfg4.W, (dat4 (asV (W10 m)) c).arrAt w cfg4.N = W11 m c (Proc.devRef .tc (Pipeline.arrRef spec4 w))
  | ⟨0, _⟩ => kept _ rfl (A_eq4 _ c 0) (W11_of m c main_v64 (by decide))
  | ⟨1, _⟩ => kept _ rfl (A_eq4 _ c 1) (W11_of m c main_v65 (by decide))
  | ⟨2, _⟩ => (W11_main_v66_0 m c).symm
  | ⟨3, _⟩ => (W11_main_v66_1 m c).symm
  | ⟨4, _⟩ => (W11_main_v66_2 m c).symm
theorem hrest4 (c : Dev nD) : ∀ b, b ∉ Finset.univ.image (Pipeline.arrRef spec4) → W11 m c b = W10 m c b :=
  fun b hb => W11_of m c b (off hb [2, 3, 4])

def W12 (c : Dev nD) : Valuation τ sig (Elt F) := StableHlo.after hostOps5 (W11 m c)
theorem W12_of (c : Dev nD) (r : Ref sig .tc) (h : r ∉ hostOps5_W) : W12 m c r = W11 m c r :=
  StableHlo.after_of_writes_sub hostOps5 _ hostOps5_writes h

def X70 (c : Dev nD) : Buf (Elt F) ((c : Thread nD τ).loc main_v70) := (dat5 (asV (W12 m)) c).arrAt 6 cfg5.N
def W13 (c : Dev nD) : Valuation τ sig (Elt F) := Function.update (W12 m c) main_v70 (X70 m c)
theorem W13_of (c : Dev nD) (r : Ref sig .tc) (h : r ∉ ([main_v70] : List (Ref sig .tc))) : W13 m c r = W12 m c r :=
  upd1_of h
theorem W13_main_v70 (c : Dev nD) : W13 m c main_v70 = X70 m c :=
  Function.update_self ..
set_option maxHeartbeats 4000000 in
theorem hF5 (c : Dev nD) : ∀ w : Fin cfg5.W, (dat5 (asV (W12 m)) c).arrAt w cfg5.N = W13 m c (Proc.devRef .tc (Pipeline.arrRef spec5 w))
  | ⟨0, _⟩ => kept _ rfl (A_eq5 _ c 0) (W13_of m c main_v66_0 (by decide))
  | ⟨1, _⟩ => kept _ rfl (A_eq5 _ c 1) (W13_of m c main_v66_1 (by decide))
  | ⟨2, _⟩ => kept _ rfl (A_eq5 _ c 2) (W13_of m c main_v66_2 (by decide))
  | ⟨3, _⟩ => kept _ rfl (A_eq5 _ c 3) (W13_of m c main_v67 (by decide))
  | ⟨4, _⟩ => kept _ rfl (A_eq5 _ c 4) (W13_of m c main_v68 (by decide))
  | ⟨5, _⟩ => kept _ rfl (A_eq5 _ c 5) (W13_of m c main_v69 (by decide))
  | ⟨6, _⟩ => (W13_main_v70 m c).symm
theorem hrest5 (c : Dev nD) : ∀ b, b ∉ Finset.univ.image (Pipeline.arrRef spec5) → W13 m c b = W12 m c b :=
  fun b hb => W13_of m c b (off hb [6])

end Cert.KernelIdeal.Hand

end
-- ==== Proof.KI.Run.lean ====
-- The program's run assembled from its six calls and the host stretches between them.
import proofs.«164947_j60361470378157_1_alg».proof.Proof.KI.RunVals

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

def outs : Gen.Outs (F := F) := fun J r c =>
  if J = 4 then W4 m c r
  else if J = 6 then W6 m c r
  else if J = 8 then W8 m c r
  else if J = 9 then W9 m c r
  else if J = 11 then W11 m c r
  else if J = 13 then W13 m c r
  else m ((c : Thread nD τ).loc r)

theorem outs4 (r : Ref sig .tc) (c : Dev nD) : outs m 4 r c = W4 m c r := by
  unfold outs; repeat rw [if_neg (by decide)]
  rw [if_pos rfl]
theorem outs6 (r : Ref sig .tc) (c : Dev nD) : outs m 6 r c = W6 m c r := by
  unfold outs; repeat rw [if_neg (by decide)]
  rw [if_pos rfl]
theorem outs8 (r : Ref sig .tc) (c : Dev nD) : outs m 8 r c = W8 m c r := by
  unfold outs; repeat rw [if_neg (by decide)]
  rw [if_pos rfl]
theorem outs9 (r : Ref sig .tc) (c : Dev nD) : outs m 9 r c = W9 m c r := by
  unfold outs; repeat rw [if_neg (by decide)]
  rw [if_pos rfl]
theorem outs11 (r : Ref sig .tc) (c : Dev nD) : outs m 11 r c = W11 m c r := by
  unfold outs; repeat rw [if_neg (by decide)]
  rw [if_pos rfl]
theorem outs13 (r : Ref sig .tc) (c : Dev nD) : outs m 13 r c = W13 m c r := by
  unfold outs; repeat rw [if_neg (by decide)]
  rw [if_pos rfl]

theorem L4 (c : Dev nD) : Gen.V4 m (outs m) c = W4 m c := by
  unfold Gen.V4; rw [outs4, W4_main_v31]; rfl
theorem L5 (c : Dev nD) : Gen.V5 m (outs m) c = W5 m c := by
  unfold Gen.V5 W5; rw [L4]
theorem L6 (c : Dev nD) : Gen.V6 m (outs m) c = W6 m c := by
  unfold Gen.V6; rw [L5, outs6, outs6, outs6, W6_main_v46_0, W6_main_v46_1, W6_main_v46_2]; rfl
theorem L7 (c : Dev nD) : Gen.V7 m (outs m) c = W7 m c := by
  unfold Gen.V7 W7; rw [L6]
theorem L8 (c : Dev nD) : Gen.V8 m (outs m) c = W8 m c := by
  unfold Gen.V8; rw [L7, outs8, W8_main_v50]; rfl
theorem L9 (c : Dev nD) : Gen.V9 m (outs m) c = W9 m c := by
  unfold Gen.V9; rw [L8, outs9, W9_main_v51]; rfl
theorem L10 (c : Dev nD) : Gen.V10 m (outs m) c = W10 m c := by
  unfold Gen.V10 W10; rw [L9]
theorem L11 (c : Dev nD) : Gen.V11 m (outs m) c = W11 m c := by
  unfold Gen.V11; rw [L10, outs11, outs11, outs11, W11_main_v66_0, W11_main_v66_1, W11_main_v66_2]; rfl
theorem L12 (c : Dev nD) : Gen.V12 m (outs m) c = W12 m c := by
  unfold Gen.V12 W12; rw [L11]
theorem L13 (c : Dev nD) : Gen.V13 m (outs m) c = W13 m c := by
  unfold Gen.V13; rw [L12, outs13, W13_main_v70]; rfl

def pdats : (p : Fin 6) → (c : Dev nD) → Dat τ (Elt F) Unit ℕ (UR sig nD τ) ℕ (cfgs p) c
  | ⟨0, _⟩ => fun c => dat0 (asV (Gen.V3 m)) c
  | ⟨1, _⟩ => fun c => dat1 (asV (W5 m)) c
  | ⟨2, _⟩ => fun c => dat2 (asV (W7 m)) c
  | ⟨3, _⟩ => fun c => dat3 (asV (W8 m)) c
  | ⟨4, _⟩ => fun c => dat4 (asV (W10 m)) c
  | ⟨5, _⟩ => fun c => dat5 (asV (W12 m)) c

abbrev L0 : GSem nD τ sig → Finset Unit := fun _ => ∅
abbrev lv0 : GSem nD τ sig → Unit → ℕ := fun _ _ => 0
abbrev Rr (c : Dev nD) : sProp 𝕄 := iprop((∃ r, prngReg c r) ∗ ∃ W, owes (c : Thread nD τ) (0 : CellTallies nD τ sig Unit) W)

theorem emp_prefHeld {c : Dev nD} {pre : Pipeline.Prefetch sig} (hK : pre.K = 0) {q V} :
    (BI.emp : sProp 𝕄) ⊢ Pipeline.prefHeld pre c q V := by
  haveI : IsEmpty (Fin pre.K) := by rw [hK]; infer_instance
  refine .of_eq ?_
  unfold Pipeline.prefHeld; rw [Finset.univ_eq_empty, BI.bigSep_empty]

-- `h` splits the held buffers into `A ∗ Z`; every other conjunct passes through unchanged.
theorem entry_of {c : Dev nD} {V : Valuation τ sig (Elt F)} {A Z S PH : sProp 𝕄} {B : Set (SemLoc sig × Unit)} {O : CellTallies nD τ sig Unit}
    (h : (unscopedBufs c (fun b => V b) : sProp 𝕄) ⊢ iprop(A ∗ Z)) (hp : (BI.emp : sProp 𝕄) ⊢ PH) (hO : O = 0) (hB : ∀ x, x ∈ B) :
    iprop((StableHlo.held (c : Thread nD τ) (Pipeline.ucRefs τ sig) V ∗ Rr c) ∗ S)
      ⊢ |={Set.univ}=> iprop(A ∗ PH ∗ Pipeline.owesWithin c O B ∗ (∃ r, prngReg c r) ∗ Z) := by
  subst hO; rw [Pipeline.unscopedBufs_held] at h
  iintro ⟨⟨Hub, Hp, %W, HO⟩, -⟩
  ihave H := h $$ Hub
  icases H with ⟨Ha, Hz⟩
  imodintro
  isplitl [Ha]; · iexact Ha
  isplitr; · iapply hp; iempintro
  isplitl [HO]
  · iexists W; isplitr; · ipureintro; exact fun x _ => hB x
    iexact HO
  isplitl [Hp]; · iexact Hp
  iexact Hz

-- `h` joins `A ∗ Z` back into the held buffers; every other conjunct passes through unchanged.
theorem exit_of {c : Dev nD} {V : Valuation τ sig (Elt F)} {A Z : sProp 𝕄} {B : Set (SemLoc sig × Unit)} {O : CellTallies nD τ sig Unit}
    (h : iprop(A ∗ Z) ⊢ (unscopedBufs c (fun b => V b) : sProp 𝕄)) (hO : O = 0) :
    iprop(A ∗ Pipeline.owesWithin c O B ∗ (∃ r, prngReg c r) ∗ Z)
      ⊢ |={Set.univ}=> iprop(StableHlo.held (c : Thread nD τ) (Pipeline.ucRefs τ sig) V ∗ Rr c) := by
  subst hO; rw [Pipeline.unscopedBufs_held] at h
  iintro ⟨Ha, ⟨%W, -, HO⟩, Hp, Hz⟩
  imodintro
  isplitl [Ha Hz]
  · iapply h; isplitl [Ha] <;> iassumption
  isplitl [Hp]; · iexact Hp
  iexists W; iexact HO

theorem in_of {gr W : ℕ} (win : Fin W → Pipeline.WinSpec sig gr) (c : Dev nD) {PH : sProp 𝕄} :
    iprop((∃ r, prngReg c r) ∗ PH ∗ Pipeline.scopedRest win c) ⊢ (Pipeline.ΦA win c : sProp 𝕄) := by
  unfold Pipeline.ΦA
  iintro ⟨Hp, -, Hr⟩
  isplitl [Hr] <;> iassumption

theorem out_of {gr W : ℕ} (win : Fin W → Pipeline.WinSpec sig gr) (c : Dev nD) : (Pipeline.ΦA win c : sProp 𝕄)
    ⊢ iprop((∃ r, prngReg c r) ∗ Pipeline.ownSems0 (fun k : PEmpty => k.elim) c ∗ Pipeline.scopedRest win c) := by
  rw [Pipeline.ownSems0_none]; unfold Pipeline.ΦA
  iintro ⟨Hr, Hp⟩
  isplitl [Hp]; · iexact Hp
  isplitr; · iempintro
  iexact Hr

set_option backward.isDefEq.respectTransparency.types false in
def mkReg (p : Fin 6) (V W : Dev nD → Valuation τ sig (Elt F)) (lf : Pipeline.LaunchFacts (nD := nD) (τ := τ) cfgs p)
    (hbody : ∀ c, Pipeline.BodyObligationLoose (pdats m p c) defs₀ Variants.none () Set.univ)
    (howed : ∀ c t, (pdats m p c).owed t = 0) (hq : ∀ c w, (pdats m p c).q w = fullShare)
    (hB : ∀ c x, x ∈ (pdats m p c).bound () 0)
    (hA : ∀ c w, (pdats m p c).A w = asV V c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (hF : ∀ c w, (pdats m p c).arrAt w (cfgs p).N = W c (Pipeline.arrRef (cfgs p).spec w))
    (hrest : ∀ c b, b ∉ Finset.univ.image (Pipeline.arrRef (cfgs p).spec) → W c b = V c b) :
    Pipeline.RegionSeg (pcfgs (F := F)) Gen.adm (pdats m) () defs₀ Variants.none L0 lv0 p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L0 lv0 p howed
  pre c := iprop(StableHlo.held (c : Thread nD τ) (Pipeline.ucRefs τ sig) (V c) ∗ Rr c)
  post c := iprop(StableHlo.held (c : Thread nD τ) (Pipeline.ucRefs τ sig) (W c) ∗ Rr c)
  X c := iprop(∃ r, prngReg c r)
  Y c := iprop(∃ r, prngReg c r)
  Z c := Pipeline.unscopedRest (Ix := Unit) (Name := ℕ) (U := UR sig nD τ) (Lvl := ℕ) (cfgs p).spec c (asV V c)
  hentry c := entry_of (Pipeline.arrays_of_unscopedBufs (p := p) (pcfgs (F := F)) Gen.adm (pdats m) lf.win lf.arr_whole c ((pdats m p c).share_full (hq c)) (asV V c) (hA c))
    (emp_prefHeld rfl) (howed c 0) (hB c)
  hin c := (in_of _ c).trans (hin c)
  hout c := (hout c).trans (out_of _ c)
  hexit c := exit_of (Pipeline.unscopedBufs_of_arrays (p := p) (pcfgs (F := F)) Gen.adm (Ix := Unit) (Name := ℕ) (U := UR sig nD τ) (Lvl := ℕ)
    lf.win lf.arr_whole c (pdats m) ((pdats m p c).share_full (hq c)) (asV V c) (asV W c) ((pdats m p c).arrAt · (cfgs p).N) (hF c) (hrest c)) (howed c _)

def reg0 : Pipeline.RegionSeg (pcfgs (F := F)) Gen.adm (pdats m) () defs₀ Variants.none L0 lv0 0 :=
  mkReg m 0 (Gen.V3 m) (W4 m) launch0 (fun c => (body_obligation0 _ c).loose) (fun _ _ => rfl) (fun _ _ => rfl)
    (fun _ _ => Or.inl trivial) (A_eq0 _) (fun _ => .rfl) (fun _ => .rfl) (hF0 m) (hrest0 m)

def reg1 : Pipeline.RegionSeg (pcfgs (F := F)) Gen.adm (pdats m) () defs₀ Variants.none L0 lv0 1 :=
  mkReg m 1 (W5 m) (W6 m) launch1 (fun c => (body_obligation1 _ c).loose) (fun _ _ => rfl) (fun _ _ => rfl)
    (fun _ _ => Or.inl trivial) (A_eq1 _) (hin1 _) (hout1 _) (hF1 m) (hrest1 m)

def reg2 : Pipeline.RegionSeg (pcfgs (F := F)) Gen.adm (pdats m) () defs₀ Variants.none L0 lv0 2 :=
  mkReg m 2 (W7 m) (W8 m) launch2 (fun c => (body_obligation2 _ c).loose) (fun _ _ => rfl) (fun _ _ => rfl)
    (fun _ _ => Or.inl trivial) (A_eq2 _) (fun _ => .rfl) (fun _ => .rfl) (hF2 m) (hrest2 m)

def reg3 : Pipeline.RegionSeg (pcfgs (F := F)) Gen.adm (pdats m) () defs₀ Variants.none L0 lv0 3 :=
  mkReg m 3 (W8 m) (W9 m) launch3 (fun c => (body_obligation3 _ c).loose) (fun _ _ => rfl) (fun _ _ => rfl)
    (fun _ _ => Or.inl trivial) (A_eq3 _) (fun _ => .rfl) (fun _ => .rfl) (hF3 m) (hrest3 m)

def reg4 : Pipeline.RegionSeg (pcfgs (F := F)) Gen.adm (pdats m) () defs₀ Variants.none L0 lv0 4 :=
  mkReg m 4 (W10 m) (W11 m) launch4 (fun c => (body_obligation4 _ c).loose) (fun _ _ => rfl) (fun _ _ => rfl)
    (fun _ _ => Or.inl trivial) (A_eq4 _) (hin4 _) (hout4 _) (hF4 m) (hrest4 m)

def reg5 : Pipeline.RegionSeg (pcfgs (F := F)) Gen.adm (pdats m) () defs₀ Variants.none L0 lv0 5 :=
  mkReg m 5 (W12 m) (W13 m) launch5 (fun c => (body_obligation5 _ c).loose) (fun _ _ => rfl) (fun _ _ => rfl)
    (fun _ _ => Or.inl trivial) (A_eq5 _) (fun _ => .rfl) (fun _ => .rfl) (hF5 m) (hrest5 m)

theorem hpre0 (c : Dev nD) : iprop(StableHlo.held (c : Thread nD τ) (Pipeline.ucRefs τ sig) (Gen.V3 m c) ∗ Rr (F := F) c) ⊢ (reg0 m).pre c :=
  .rfl
theorem hpost0 (c : Dev nD) : (reg0 m).post c ⊢ iprop(StableHlo.held (c : Thread nD τ) (Pipeline.ucRefs τ sig) (Gen.V4 m (outs m) c) ∗ Rr (F := F) c) := by
  rw [L4]; exact .rfl
theorem hpre1 (c : Dev nD) : iprop(StableHlo.held (c : Thread nD τ) (Pipeline.ucRefs τ sig) (Gen.V5 m (outs m) c) ∗ Rr (F := F) c) ⊢ (reg1 m).pre c := by
  rw [L5]; exact .rfl
theorem hpost1 (c : Dev nD) : (reg1 m).post c ⊢ iprop(StableHlo.held (c : Thread nD τ) (Pipeline.ucRefs τ sig) (Gen.V6 m (outs m) c) ∗ Rr (F := F) c) := by
  rw [L6]; exact .rfl
theorem hpre2 (c : Dev nD) : iprop(StableHlo.held (c : Thread nD τ) (Pipeline.ucRefs τ sig) (Gen.V7 m (outs m) c) ∗ Rr (F := F) c) ⊢ (reg2 m).pre c := by
  rw [L7]; exact .rfl
theorem hpost2 (c : Dev nD) : (reg2 m).post c ⊢ iprop(StableHlo.held (c : Thread nD τ) (Pipeline.ucRefs τ sig) (Gen.V8 m (outs m) c) ∗ Rr (F := F) c) := by
  rw [L8]; exact .rfl
theorem hpre3 (c : Dev nD) : iprop(StableHlo.held (c : Thread nD τ) (Pipeline.ucRefs τ sig) (Gen.V8 m (outs m) c) ∗ Rr (F := F) c) ⊢ (reg3 m).pre c := by
  rw [L8]; exact .rfl
theorem hpost3 (c : Dev nD) : (reg3 m).post c ⊢ iprop(StableHlo.held (c : Thread nD τ) (Pipeline.ucRefs τ sig) (Gen.V9 m (outs m) c) ∗ Rr (F := F) c) := by
  rw [L9]; exact .rfl
theorem hpre4 (c : Dev nD) : iprop(StableHlo.held (c : Thread nD τ) (Pipeline.ucRefs τ sig) (Gen.V10 m (outs m) c) ∗ Rr (F := F) c) ⊢ (reg4 m).pre c := by
  rw [L10]; exact .rfl
theorem hpost4 (c : Dev nD) : (reg4 m).post c ⊢ iprop(StableHlo.held (c : Thread nD τ) (Pipeline.ucRefs τ sig) (Gen.V11 m (outs m) c) ∗ Rr (F := F) c) := by
  rw [L11]; exact .rfl
theorem hpre5 (c : Dev nD) : iprop(StableHlo.held (c : Thread nD τ) (Pipeline.ucRefs τ sig) (Gen.V12 m (outs m) c) ∗ Rr (F := F) c) ⊢ (reg5 m).pre c := by
  rw [L12]; exact .rfl
theorem hpost5 (c : Dev nD) : (reg5 m).post c ⊢ iprop(StableHlo.held (c : Thread nD τ) (Pipeline.ucRefs τ sig) (Gen.V13 m (outs m) c) ∗ Rr (F := F) c) := by
  rw [L13]; exact .rfl

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v70) = X70 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  have h := Gen.run_cond m (Ix := Unit) (U := UR sig nD τ) (Lvl := ℕ) emb₁ () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L0 lv0 fun c => ?_
      iintro ⟨⟨-, HO, -, Hp, -⟩, -⟩
      imodintro
      isplitl [Hp]; · iexists _; iexact Hp
      iexists ∅; iexact HO)
    (hE6 := fun c => by iintro ⟨-, H⟩; iexact H)
    (reg0 m) (hpre0 m) (hpost0 m) (reg1 m) (hpre1 m) (hpost1 m) (reg2 m) (hpre2 m) (hpost2 m) (reg3 m) (hpre3 m) (hpost3 m) (reg4 m) (hpre4 m) (hpost4 m) (reg5 m) (hpre5 m) (hpost5 m)
  refine (θ_run _ _ _).mono (fun r hr c => ?_) h
  have := hr c
  rw [outs13, W13_main_v70] at this
  exact this

end Cert.KernelIdeal.Hand

end
-- ==== Proof.Spec.lean ====
-- Both programs' mathematics as functions of whole arrays over the extended reals.
import Idealize.ShloMosaic.PureOps.Ideal
import Idealize.ShloMosaic.Lib.ValueIdx
noncomputable section
namespace Cert.Spec
open Idealize.ShloMosaic Idealize.ShloMosaic.ValueIdx
abbrev A (n0 n1 : Nat) : Type := (⟨2, ![n0, n1]⟩ : Shape).Idx → EReal
abbrev A1 (n : Nat) : Type := (⟨1, ![n]⟩ : Shape).Idx → EReal
def IsReal {ι : Type} (v : ι → EReal) : Prop := ∀ i, ∃ r : ℝ, v i = (r : EReal)
def mm128 (x : A 50000 128) (w : A 128 256) : A 50000 256 :=
  fun i => ∑ k : Fin 128, x (ix2 (n0 := 50000) (n1 := 128) (i 0) k) * w (ix2 (n0 := 128) (n1 := 256) k (i 1))
def mm256 (x : A 50000 256) (w : A 256 256) : A 50000 256 :=
  fun i => ∑ k : Fin 256, x (ix2 (n0 := 50000) (n1 := 256) (i 0) k) * w (ix2 (n0 := 256) (n1 := 256) k (i 1))
def row (b2 : A 1 256) : A1 256 := fun j => b2 (ix2 (n0 := 1) (n1 := 256) (0 : Fin 1) (j 0))
def unrow (b2 : A 1 256) : Fin 256 → EReal := fun j => b2 (ix2 (n0 := 1) (n1 := 256) (0 : Fin 1) j)
def asRow (f : Fin 256 → EReal) : A 1 256 := fun i => f (i 1)
def biased (raw : A 50000 256) (b : A1 256) : A 50000 256 :=
  fun i => raw i + b (ix1 (n := 256) (i 1))
def colsum (z : A 50000 256) (j : Fin 256) : EReal :=
  ∑ r : Fin 50000, z (ix2 (n0 := 50000) (n1 := 256) r j)
def inv : EReal := ((1 / 50000 : ℝ) : EReal)
def n50000 : EReal := Ideal.ofBits .f32 0x47435000#32
def eps : EReal := Ideal.ofBits .f32 0x3727C5AC#32
def zero : EReal := Ideal.ofBits .f32 0x00000000#32
def meanK (z : A 50000 256) (j : Fin 256) : EReal := colsum z j * inv
def varK (z : A 50000 256) (j : Fin 256) : EReal :=
  colsum (fun i => z i * z i) j * inv - meanK z j * meanK z j
def meanR (z : A 50000 256) (j : Fin 256) : EReal := Ideal.div (colsum z j) n50000
def varR (z : A 50000 256) (j : Fin 256) : EReal :=
  Ideal.div (∑ r : Fin 50000, (z (ix2 (n0 := 50000) (n1 := 256) r j) - meanR z j) * (z (ix2 (n0 := 50000) (n1 := 256) r j) - meanR z j)) n50000
def bnp (z : A 50000 256) (mu var : Fin 256 → EReal) (γ β : A1 256) (a : EReal) : A 50000 256 :=
  fun i =>
    Scalar.select (Ideal.cmp .ogt
        ((z i - mu (i 1)) * Ideal.rsqrt (var (i 1) + eps) * γ (ix1 (n := 256) (i 1)) + β (ix1 (n := 256) (i 1))) zero)
      ((z i - mu (i 1)) * Ideal.rsqrt (var (i 1) + eps) * γ (ix1 (n := 256) (i 1)) + β (ix1 (n := 256) (i 1)))
      (a * ((z i - mu (i 1)) * Ideal.rsqrt (var (i 1) + eps) * γ (ix1 (n := 256) (i 1)) + β (ix1 (n := 256) (i 1))))
def layerK (agg : A 50000 256 → A 50000 256) (h : A 50000 256) (b γ β : A1 256) (a : EReal) : A 50000 256 :=
  bnp (biased (agg h) b) (meanK (biased (agg h) b)) (varK (biased (agg h) b)) γ β a
def layerR (agg : A 50000 256 → A 50000 256) (h : A 50000 256) (b γ β : A1 256) (a : EReal) : A 50000 256 :=
  bnp (biased (agg h) b) (meanR (biased (agg h) b)) (varR (biased (agg h) b)) γ β a
def netK (agg : A 50000 256 → A 50000 256) (x : A 50000 128) (w0 : A 128 256) (b0 γ0 β0 : A1 256) (a0 : EReal)
    (w1 : A 256 256) (b1 γ1 β1 : A1 256) (a1 : EReal) : A 50000 256 :=
  layerK agg (mm256 (layerK agg (mm128 x w0) b0 γ0 β0 a0) w1) b1 γ1 β1 a1
def netR (agg : A 50000 256 → A 50000 256) (x : A 50000 128) (w0 : A 128 256) (b0 γ0 β0 : A1 256) (a0 : EReal)
    (w1 : A 256 256) (b1 γ1 β1 : A1 256) (a1 : EReal) : A 50000 256 :=
  layerR agg (mm256 (layerR agg (mm128 x w0) b0 γ0 β0 a0) w1) b1 γ1 β1 a1
theorem unrow_asRow (f : Fin 256 → EReal) : unrow (asRow f) = f := rfl
end Cert.Spec
end
-- ==== Proof.KI.R0Val.lean ====
-- What the matrix-product call leaves in its output array: the product.
import proofs.«164947_j60361470378157_1_alg».proof.Proof.KI.R0
import proofs.«164947_j60361470378157_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- Entry j of the product of two blocks is the sum over the contracted coordinate k of x0[j₀, k] · x1[k, j₁].
theorem pay0_apply (x0 : Vec Ideal S2000x128 .f32) (x1 : Vec Ideal S128x256 .f32) (j : S2000x256.Idx) :
    k0_pay1 (F := Ideal) x0 x1 j
      = ∑ k : Fin 128, x0 (ix2 (n0 := 2000) (n1 := 128) (j 0) k) * x1 (ix2 (n0 := 128) (n1 := 256) k (j 1)) := by
  unfold k0_pay1
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  rw [truncf_apply, truncf_apply]
  try rw [shapeCast_self]
  exact congrArg₂ (· * ·) (congrArg x0 (Shape.idx_ext₂ rfl hk)) (congrArg x1 (Shape.idx_ext₂ hk rfl))

theorem hz0 : (![0, 0] : Fin 2 → Nat) = fun _ => 0 := funext fun a => by match a with | ⟨0, _⟩ => rfl | ⟨1, _⟩ => rfl

theorem tile_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

theorem tile_onto0 : ∀ q : Fin 25, ∃ t : Fin cfg0.N, win0_2.index t = ![q.val, 0] :=
  (by decide +kernel : ∀ q : Fin 25, ∃ t : Fin grid0.N, win0_2.index t = ![q.val, 0])

variable (V : (c : Dev nD) → (b : Ref sig .tc) → Buf (Elt Ideal) ((c : Thread nD τ).loc b))

-- Row r lies in tile r / 2000; tile t holds its rows of the product, the right factor being the whole right matrix.
theorem arrAt0_2 (c : Dev nD) :
    (dat0 (F := Ideal) V c).arrAt 2 cfg0.N = Cert.Spec.mm128 (V c main_arg0) (V c main_arg2) := by
  refine (dat0 (F := Ideal) V c).arrAt_eq_of_cover 2 (Cert.Spec.mm128 (V c main_arg0) (V c main_arg2)) (fun t _ => ?_) fun (i : S50000x256.Idx) => ?_
  · show (cfg0.win 2).cut (grid0.coords t) ((dat0 (F := Ideal) V c).after 2 t) = _
    rw [after0_2]
    unfold out0_2
    rw [View.canon_unit_zero hz0]
    simp only [View.ld_unit_zero (S := S2000x128) hz0, View.ld_unit_zero (S := S128x256) hz0]
    obtain ⟨e0, e1, e2, e3, e4⟩ := tile_facts0 t
    funext j
    show k0_pay1 (F := Ideal) (iblk0 V c 0 t) (iblk0 V c 1 t) j
      = Cert.Spec.mm128 (V c main_arg0) (V c main_arg2) (((cfg0.win 2).blk t).view.emb j)
    rw [pay0_apply]
    refine Finset.sum_congr rfl fun k _ => congrArg₂ (· * ·) ?_ ?_
    · refine congrArg (V c main_arg0 : Cert.Spec.A 50000 128) (Shape.idx_ext₂ ?_ ?_)
      · show win0_0.index t (0 : Fin 2) * 2000 + 1 * (j 0).val = win0_2.index t (0 : Fin 2) * 2000 + 1 * (j 0).val; omega
      · show win0_0.index t (1 : Fin 2) * 128 + 1 * k.val = k.val; omega
    · refine congrArg (V c main_arg2 : Cert.Spec.A 128 256) (Shape.idx_ext₂ ?_ ?_)
      · show win0_1.index t (0 : Fin 2) * 128 + 1 * k.val = k.val; omega
      · show win0_1.index t (1 : Fin 2) * 256 + 1 * (j 1).val = win0_2.index t (1 : Fin 2) * 256 + 1 * (j 1).val; omega
  · have hi0 : (i 0).val < 50000 := (i 0).isLt
    have hi1 : (i 1).val < 256 := (i 1).isLt
    obtain ⟨t, ht⟩ := tile_onto0 ⟨(i 0).val / 2000, by omega⟩
    have q0 : win0_2.index t (0 : Fin 2) = (i 0).val / 2000 := congrFun ht 0
    have q1 : win0_2.index t (1 : Fin 2) = 0 := congrFun ht 1
    refine ⟨t, flush0_2 t, ?_⟩
    show i ∈ ((View.whole main_v31).slice (win0_2.rect t)).set
    rw [View.set_slice_whole, Rect.mem_set_unit]
    intro a
    match a with
    | ⟨0, _⟩ => show win0_2.index t (0 : Fin 2) * 2000 ≤ (i 0).val ∧ (i 0).val < win0_2.index t (0 : Fin 2) * 2000 + 2000; omega
    | ⟨1, _⟩ => show win0_2.index t (1 : Fin 2) * 256 ≤ (i 1).val ∧ (i 1).val < win0_2.index t (1 : Fin 2) * 256 + 256; omega

end Cert.KernelIdeal.Hand

end
-- ==== Proof.SpecAlg.lean ====
-- Sum of squared deviations over n equals mean of squares minus squared mean, on real columns; every layer keeps entries real.
import proofs.«164947_j60361470378157_1_alg».proof.Proof.Spec
import Idealize.ShloMosaic.PureOps.Ideal
import Mathlib.Data.EReal.Basic
import Mathlib.Data.EReal.Operations
import Mathlib.Algebra.BigOperators.Group.Finset.Basic
import Mathlib.Algebra.BigOperators.Ring.Finset
import Mathlib.Algebra.Order.BigOperators.Group.Finset
import Mathlib.Analysis.SpecialFunctions.Pow.Real
noncomputable section
namespace Cert.Spec
open Idealize.ShloMosaic Idealize.ShloMosaic.ValueIdx
open scoped BigOperators
theorem n50000_eq : n50000 = ((50000 : ℝ) : EReal) := by
  unfold n50000
  simp [Ideal.ofBits, Ideal.ieee, -EReal.coe_mul]; norm_num
theorem eps_eq : eps = ((10995116 * (2 ^ 40)⁻¹ : ℝ) : EReal) := by
  unfold eps
  simp [Ideal.ofBits, Ideal.ieee, -EReal.coe_mul]
theorem eps_pos : ∃ e : ℝ, 0 < e ∧ eps = (e : EReal) := ⟨10995116 * (2 ^ 40)⁻¹, by positivity, eps_eq⟩
theorem zero_eq : zero = 0 := by
  unfold zero
  simp [Ideal.ofBits, Ideal.ieee]
theorem coe_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s
theorem isReal_sum {ι : Type} [Fintype ι] (f : ι → EReal) (hf : ∀ i, ∃ r : ℝ, f i = (r : EReal)) :
    ∃ r : ℝ, ∑ i, f i = (r : EReal) := by
  choose g hg using hf
  exact ⟨∑ i, g i, by rw [coe_sum]; exact Finset.sum_congr rfl fun i _ => hg i⟩
theorem isReal_dot {n : ℕ} (f g : Fin n → EReal) (hf : ∀ k, ∃ r : ℝ, f k = (r : EReal)) (hg : ∀ k, ∃ r : ℝ, g k = (r : EReal)) :
    ∃ r : ℝ, ∑ k, f k * g k = (r : EReal) :=
  isReal_sum _ fun k => by
    obtain ⟨a, ha⟩ := hf k
    obtain ⟨b, hb⟩ := hg k
    exact ⟨a * b, by rw [ha, hb, EReal.coe_mul]⟩
theorem isReal_biased (raw : A 50000 256) (b : A1 256) (hraw : IsReal raw) (hb : IsReal b) : IsReal (biased raw b) := by
  intro i
  obtain ⟨a, ha⟩ := hraw i
  obtain ⟨c, hc⟩ := hb (ix1 (n := 256) (i 1))
  exact ⟨a + c, by unfold biased; rw [ha, hc, EReal.coe_add]⟩
theorem meanR_eq_meanK (z : A 50000 256) (j : Fin 256) : meanR z j = meanK z j := by
  unfold meanR meanK inv
  rw [n50000_eq, Ideal.div_coe (by norm_num : (50000 : ℝ) ≠ 0)]
theorem real_var_identity {ι : Type} [Fintype ι] (f : ι → ℝ) (c : ℝ) (hc : (Fintype.card ι : ℝ) * c = 1) :
    (∑ i, (f i - (∑ k, f k) * c) * (f i - (∑ k, f k) * c)) * c
      = (∑ i, f i * f i) * c - ((∑ k, f k) * c) * ((∑ k, f k) * c) := by
  simp only [sub_mul, mul_sub, Finset.sum_sub_distrib, Finset.sum_const, Finset.card_univ, nsmul_eq_mul, ← Finset.sum_mul,
    ← Finset.mul_sum]
  linear_combination ((∑ k, f k) * c * ((∑ k, f k) * c)) * hc
theorem exists_col (z : A 50000 256) (hz : IsReal z) (j : Fin 256) :
    ∃ f : Fin 50000 → ℝ, ∀ r, z (ix2 (n0 := 50000) (n1 := 256) r j) = (f r : EReal) :=
  ⟨fun r => (hz (ix2 (n0 := 50000) (n1 := 256) r j)).choose, fun r => (hz (ix2 (n0 := 50000) (n1 := 256) r j)).choose_spec⟩
section Column
variable (z : A 50000 256) (j : Fin 256) (f : Fin 50000 → ℝ)
  (hf : ∀ r, z (ix2 (n0 := 50000) (n1 := 256) r j) = (f r : EReal))
include hf
theorem colsum_coe : colsum z j = ((∑ r, f r : ℝ) : EReal) := by
  unfold colsum
  simp only [hf, ← coe_sum]
theorem colsumsq_coe : colsum (fun i => z i * z i) j = ((∑ r, f r * f r : ℝ) : EReal) := by
  unfold colsum
  simp only [hf, ← EReal.coe_mul, ← coe_sum]
theorem meanK_coe : meanK z j = (((∑ r, f r) * (1 / 50000) : ℝ) : EReal) := by
  unfold meanK inv
  rw [colsum_coe z j f hf, EReal.coe_mul]
theorem varK_coe : varK z j = (((∑ r, f r * f r) * (1 / 50000)
    - ((∑ r, f r) * (1 / 50000)) * ((∑ r, f r) * (1 / 50000)) : ℝ) : EReal) := by
  unfold varK
  rw [meanK_coe z j f hf, colsumsq_coe z j f hf]
  unfold inv
  rw [← EReal.coe_mul, ← EReal.coe_mul, ← EReal.coe_sub]
theorem varR_coe : varR z j = (((∑ r, (f r - (∑ k, f k) * (1 / 50000)) * (f r - (∑ k, f k) * (1 / 50000)))
    * (1 / 50000) : ℝ) : EReal) := by
  unfold varR
  rw [(meanR_eq_meanK z j).trans (meanK_coe z j f hf), n50000_eq, Ideal.div_coe (by norm_num : (50000 : ℝ) ≠ 0)]
  simp only [hf, ← EReal.coe_sub, ← EReal.coe_mul, ← coe_sum]
end Column
theorem varK_eq_varR (z : A 50000 256) (hz : IsReal z) (j : Fin 256) : varK z j = varR z j := by
  obtain ⟨f, hf⟩ := exists_col z hz j
  rw [varK_coe z j f hf, varR_coe z j f hf]
  congr 1
  refine (real_var_identity f (1 / 50000) ?_).symm
  rw [Fintype.card_fin]; norm_num
theorem layerK_eq_layerR (agg : A 50000 256 → A 50000 256) (hagg : ∀ h, IsReal h → IsReal (agg h)) (h : A 50000 256) (hh : IsReal h)
    (b γ β : A1 256) (hb : IsReal b) (a : EReal) : layerK agg h b γ β a = layerR agg h b γ β a := by
  have hz : IsReal (biased (agg h) b) := isReal_biased _ _ (hagg h hh) hb
  have hm : meanK (biased (agg h) b) = meanR (biased (agg h) b) := funext fun j => (meanR_eq_meanK _ j).symm
  have hv : varK (biased (agg h) b) = varR (biased (agg h) b) := funext fun j => varK_eq_varR _ hz j
  unfold layerK layerR
  rw [hm, hv]
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']
theorem isReal_bnp (z : A 50000 256) (mu var : Fin 256 → EReal) (γ β : A1 256) (a : EReal)
    (hz : IsReal z) (hmu : ∀ j, ∃ m : ℝ, mu j = (m : EReal)) (hvar : ∀ j, ∃ v : ℝ, 0 ≤ v ∧ var j = (v : EReal))
    (hγ : IsReal γ) (hβ : IsReal β) (ha : ∃ r : ℝ, a = (r : EReal)) : IsReal (bnp z mu var γ β a) := by
  intro i
  obtain ⟨zi, hzi⟩ := hz i
  obtain ⟨m, hm⟩ := hmu (i 1)
  obtain ⟨v, hv0, hv⟩ := hvar (i 1)
  obtain ⟨g, hg⟩ := hγ (ix1 (n := 256) (i 1))
  obtain ⟨s, hs⟩ := hβ (ix1 (n := 256) (i 1))
  obtain ⟨ar, har⟩ := ha
  obtain ⟨e, he0, he⟩ := eps_pos
  have hy : (z i - mu (i 1)) * Ideal.rsqrt (var (i 1) + eps) * γ (ix1 (n := 256) (i 1)) + β (ix1 (n := 256) (i 1))
      = (((zi - m) * (Real.sqrt (v + e))⁻¹ * g + s : ℝ) : EReal) := by
    rw [hzi, hm, hv, he, hg, hs, ← EReal.coe_add, rsqrt_coe_pos (by linarith), ← EReal.coe_sub, ← EReal.coe_mul,
      ← EReal.coe_mul, ← EReal.coe_add]
  unfold bnp
  rw [hy, har]
  unfold Scalar.select
  split
  · exact ⟨_, rfl⟩
  · exact ⟨_, (EReal.coe_mul _ _).symm⟩
theorem isReal_layerR (agg : A 50000 256 → A 50000 256) (hagg : ∀ h, IsReal h → IsReal (agg h)) (h : A 50000 256) (hh : IsReal h)
    (b γ β : A1 256) (hb : IsReal b) (hγ : IsReal γ) (hβ : IsReal β) (a : EReal) (ha : ∃ r : ℝ, a = (r : EReal)) :
    IsReal (layerR agg h b γ β a) := by
  have hz : IsReal (biased (agg h) b) := isReal_biased _ _ (hagg h hh) hb
  unfold layerR
  refine isReal_bnp _ _ _ γ β a hz (fun j => ?_) (fun j => ?_) hγ hβ ha
  · obtain ⟨f, hf⟩ := exists_col _ hz j
    exact ⟨_, (meanR_eq_meanK _ j).trans (meanK_coe _ j f hf)⟩
  · obtain ⟨f, hf⟩ := exists_col _ hz j
    refine ⟨_, ?_, varR_coe _ j f hf⟩
    exact mul_nonneg (Finset.sum_nonneg fun r _ => mul_self_nonneg _) (by norm_num)
theorem netK_eq_netR (agg : A 50000 256 → A 50000 256) (hagg : ∀ h, IsReal h → IsReal (agg h))
    (x : A 50000 128) (w0 : A 128 256) (b0 γ0 β0 : A1 256) (a0 : EReal) (w1 : A 256 256) (b1 γ1 β1 : A1 256) (a1 : EReal)
    (hx : IsReal x) (hw0 : IsReal w0) (hb0 : IsReal b0) (hγ0 : IsReal γ0) (hβ0 : IsReal β0) (ha0 : ∃ r : ℝ, a0 = (r : EReal))
    (hw1 : IsReal w1) (hb1 : IsReal b1) : netK agg x w0 b0 γ0 β0 a0 w1 b1 γ1 β1 a1 = netR agg x w0 b0 γ0 β0 a0 w1 b1 γ1 β1 a1 := by
  have h1 : IsReal (mm128 x w0) := fun i => isReal_dot _ _ (fun _ => hx _) fun _ => hw0 _
  have h2 : IsReal (layerR agg (mm128 x w0) b0 γ0 β0 a0) :=
    isReal_layerR agg hagg _ h1 b0 γ0 β0 hb0 hγ0 hβ0 a0 ha0
  unfold netK netR
  rw [layerK_eq_layerR agg hagg (mm128 x w0) h1 b0 γ0 β0 hb0 a0]
  exact layerK_eq_layerR agg hagg _ (fun i => isReal_dot _ _ (fun _ => h2 _) fun _ => hw1 _) b1 γ1 β1 hb1 a1
theorem colsum_eq_tiles (z : A 50000 256) (j : Fin 256) :
    colsum z j = ∑ t : Fin 25, ∑ p : Fin 2000, z (Idealize.ShloMosaic.ValueIdx.ix2 (n0 := 50000) (n1 := 256) ⟨t.val * 2000 + p.val, by have := t.isLt; have := p.isLt; omega⟩ j) := by
  unfold colsum
  rw [← Equiv.sum_comp ((finProdFinEquiv (m := 25) (n := 2000)).trans (finCongr (by norm_num)))
    (fun r : Fin 50000 => z (ix2 (n0 := 50000) (n1 := 256) r j)), Fintype.sum_prod_type]
  exact Finset.sum_congr rfl fun t _ => Finset.sum_congr rfl fun p _ =>
    congrArg (fun r => z (ix2 (n0 := 50000) (n1 := 256) r j)) (Fin.ext (by show p.val + 2000 * t.val = t.val * 2000 + p.val; omega))
end Cert.Spec
end
-- ==== Proof.KI.R1Val.lean ====
-- What the statistics call leaves: the biased matrix, and each column's mean and variance as sums over all 50000 rows.
import proofs.«164947_j60361470378157_1_alg».proof.Proof.KI.R1
import proofs.«164947_j60361470378157_1_alg».proof.Proof.Spec
import proofs.«164947_j60361470378157_1_alg».proof.Proof.SpecAlg
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem inv1_eq : Named.named (F := Ideal) Cert.KernelIdeal.κ "inv_50000" (φ := .f32) 0x37A7C5AC#32 = Cert.Spec.inv :=
  IdealRules.named_const.ideal_named_scalar _ _ _ _ rfl

theorem hz1 : (![0, 0] : Fin 2 → Nat) = fun _ => 0 := funext fun a => by match a with | ⟨0, _⟩ => rfl | ⟨1, _⟩ => rfl

section
variable (x : Vec Ideal S2000x256 .f32) (b s : Vec Ideal S1x256 .f32) (p : Fin 2000) (u : Fin 1) (q : Fin 256)

theorem pay1_3_apply : k1_pay3 (F := Ideal) x b (ix2 p q) = x (ix2 p q) + b (ix2 (0 : Fin 1) q) := by
  unfold k1_pay3
  rw [addf_apply, shapeCast_self, shapeCast_self, broadcastTo_1b_ab_apply]

theorem pay1_6_apply : k1_pay6 (F := Ideal) s (ix2 u q) = s (ix2 u q) * Cert.Spec.inv := by
  unfold k1_pay6
  rw [mulf_apply, broadcast_apply, inv1_eq]

theorem acc1_0_apply :
    acc1_0 (F := Ideal) x b s (ix2 u q) = s (ix2 u q) + ∑ r : Fin 2000, (x (ix2 r q) + b (ix2 (0 : Fin 1) q)) := by
  unfold acc1_0
  rw [View.canon_unit_zero hz1]
  simp only [View.ld_unit_zero (S := S2000x256) hz1, View.ld_unit_zero (S := S1x256) hz1]
  unfold k1_pay4
  dsimp only
  rw [shapeCast_self, addf_apply, shapeCast_a_1a_apply]
  refine congrArg (s (ix2 u q) + ·) ((Ideal.multiReduction_add_single _ _ _ _ _ (ix1 q)).trans ?_)
  exact Finset.sum_congr rfl fun r _ => pay1_3_apply x b r q

theorem acc1_1_apply :
    acc1_1 (F := Ideal) x b s (ix2 u q)
      = s (ix2 u q) + ∑ r : Fin 2000, (x (ix2 r q) + b (ix2 (0 : Fin 1) q)) * (x (ix2 r q) + b (ix2 (0 : Fin 1) q)) := by
  unfold acc1_1
  rw [View.canon_unit_zero hz1]
  simp only [View.ld_unit_zero (S := S2000x256) hz1, View.ld_unit_zero (S := S1x256) hz1]
  unfold k1_pay5
  dsimp only
  rw [shapeCast_self, addf_apply, shapeCast_a_1a_apply]
  refine congrArg (s (ix2 u q) + ·) ((Ideal.multiReduction_add_single _ _ _ _ _ (ix1 q)).trans ?_)
  refine Finset.sum_congr rfl fun (r : Fin 2000) _ => ?_
  show mulf (k1_pay3 (F := Ideal) x b) (k1_pay3 (F := Ideal) x b) (ix2 r q) = _
  rw [mulf_apply, pay1_3_apply]

theorem zero1_0_apply : zero1_0 (F := Ideal) (ix2 u q) = 0 := by
  unfold zero1_0
  rw [View.canon_unit_zero hz1]
  unfold k1_pay1
  rw [shapeCast_self, broadcast_apply]
  exact Ideal.ofBits_zero_f32

theorem zero1_1_apply : zero1_1 (F := Ideal) (ix2 u q) = 0 := zero1_0_apply u q

end

-- Column q of z summed over the rows of tile t; a row past the array's end counts as 0, so that t may be any natural.
def tileSum1 (z : Cert.Spec.A 50000 256) (q : Fin 256) (t : ℕ) : EReal :=
  ∑ p : Fin 2000, if h : t * 2000 + p.val < 50000 then z (ix2 (n0 := 50000) (n1 := 256) ⟨t * 2000 + p.val, h⟩ q) else 0

-- The rows 2000·t + p with t < 25 and p < 2000 are all the rows, each once.
theorem tiles_all1 (z : Cert.Spec.A 50000 256) (q : Fin 256) :
    ∑ t ∈ Finset.range 25, tileSum1 z q t = Cert.Spec.colsum z q := by
  rw [Cert.Spec.colsum_eq_tiles, Finset.sum_range]
  refine Finset.sum_congr rfl fun t _ => ?_
  unfold tileSum1
  exact Finset.sum_congr rfl fun p _ => dif_pos (by have := t.isLt; have := p.isLt; omega)

theorem asRow_at1 (f : Fin 256 → EReal) (i : S1x256.Idx) (q : Fin 256) (hi : (i 1).val = q.val) :
    Cert.Spec.asRow f i = f q :=
  congrArg f (Fin.ext hi)

theorem tile_facts1 : ∀ t : Fin cfg1.N,
    (win1_0.index t (0 : Fin 2) = t.val ∧ win1_0.index t (1 : Fin 2) = 0
      ∧ win1_2.index t (0 : Fin 2) = t.val ∧ win1_2.index t (1 : Fin 2) = 0)
    ∧ ∀ a : Fin 2, win1_1.index t a = 0 ∧ win1_3.index t a = 0 ∧ win1_4.index t a = 0 :=
  (by decide +kernel : ∀ t : Fin grid1.N, _)

theorem tile1_lt (t : Fin cfg1.N) (p : Fin 2000) : t.val * 2000 + p.val < 50000 := by
  have := Nat.lt_of_lt_of_eq t.isLt N_1; have := p.isLt; omega

variable (V : (c : Dev nD) → (b : Ref sig .tc) → Buf (Elt Ideal) ((c : Thread nD τ).loc b))

-- The matrix found on entry with the bias row added to every row.
abbrev biased1 (c : Dev nD) : Cert.Spec.A 50000 256 := Cert.Spec.biased (V c main_v44) (Cert.Spec.row (V c main_v45))

-- Entry (p, q) of tile t with the bias added is entry (2000·t + p, q) of the biased matrix.
theorem row1_at (c : Dev nD) (t : Fin cfg1.N) (x : Vec Ideal S2000x256 .f32) (b : Vec Ideal S1x256 .f32)
    (hx : x = iblk1 (F := Ideal) V c 0 t) (hb : b = iblk1 (F := Ideal) V c 1 t) (p : Fin 2000) (q : Fin 256) :
    x (ix2 p q) + b (ix2 (0 : Fin 1) q) = biased1 V c (ix2 ⟨t.val * 2000 + p.val, tile1_lt t p⟩ q) := by
  subst hx hb
  obtain ⟨⟨e0, e1, -⟩, hz⟩ := tile_facts1 t
  refine congrArg₂ (· + ·) (congrArg (V c main_v44 : Cert.Spec.A 50000 256) (Shape.idx_ext₂ ?_ ?_))
    (congrArg (V c main_v45 : Cert.Spec.A 1 256) (funext fun a => Fin.ext (win1_1.rect_emb_val_of_index_zero t a (hz a).1 (ix2 (0 : Fin 1) q))))
  · show win1_0.index t (0 : Fin 2) * 2000 + 1 * p.val = t.val * 2000 + p.val; omega
  · show win1_0.index t (1 : Fin 2) * 256 + 1 * q.val = q.val; omega

theorem tile_sum1 (c : Dev nD) (t : Fin cfg1.N) (q : Fin 256) (x : Vec Ideal S2000x256 .f32) (b : Vec Ideal S1x256 .f32)
    (hx : x = iblk1 (F := Ideal) V c 0 t) (hb : b = iblk1 (F := Ideal) V c 1 t) (g : EReal → EReal) :
    ∑ p : Fin 2000, g (x (ix2 p q) + b (ix2 (0 : Fin 1) q)) = tileSum1 (fun i => g (biased1 V c i)) q t.val := by
  unfold tileSum1
  refine Finset.sum_congr rfl fun p _ => ?_
  rw [dif_pos (tile1_lt t p)]
  exact congrArg g (row1_at V c t x b hx hb p q)

-- Each tile adds its own tile sums to what the tile before left, and the first tile starts from zero.
theorem sums1_apply (c : Dev nD) : ∀ (n : ℕ) (hn : n < cfg1.N) (u : Fin 1) (q : Fin 256),
    ((sums1 (F := Ideal) V c n hn).1 : Vec Ideal S1x256 .f32) (ix2 u q) = ∑ t ∈ Finset.range (n + 1), tileSum1 (biased1 V c) q t
    ∧ ((sums1 (F := Ideal) V c n hn).2 : Vec Ideal S1x256 .f32) (ix2 u q)
        = ∑ t ∈ Finset.range (n + 1), tileSum1 (fun i => biased1 V c i * biased1 V c i) q t
  | 0, hn, u, q => by
    rw [sums1]
    dsimp only
    constructor
    · refine (acc1_0_apply _ _ _ u q).trans ?_
      rw [zero1_0_apply, zero_add, Finset.sum_range_one]
      exact tile_sum1 V c ⟨0, hn⟩ q _ _ rfl rfl fun v => v
    · refine (acc1_1_apply _ _ _ u q).trans ?_
      rw [zero1_1_apply, zero_add, Finset.sum_range_one]
      exact tile_sum1 V c ⟨0, hn⟩ q _ _ rfl rfl fun v => v * v
  | n + 1, hn, u, q => by
    rw [sums1]
    dsimp only
    obtain ⟨ih1, ih2⟩ := sums1_apply c n (Nat.lt_of_succ_lt hn) u q
    constructor
    · refine (acc1_0_apply _ _ _ u q).trans ?_
      rw [ih1, Finset.sum_range_succ _ (n + 1)]
      exact congrArg (_ + ·) (tile_sum1 V c ⟨n + 1, hn⟩ q _ _ rfl rfl fun v => v)
    · refine (acc1_1_apply _ _ _ u q).trans ?_
      rw [ih2, Finset.sum_range_succ _ (n + 1)]
      exact congrArg (_ + ·) (tile_sum1 V c ⟨n + 1, hn⟩ q _ _ rfl rfl fun v => v * v)

theorem sums1_last (c : Dev nD) (n : ℕ) (hn : n < cfg1.N) (h24 : n = 24) (u : Fin 1) (q : Fin 256) :
    ((sums1 (F := Ideal) V c n hn).1 : Vec Ideal S1x256 .f32) (ix2 u q) = Cert.Spec.colsum (biased1 V c) q
    ∧ ((sums1 (F := Ideal) V c n hn).2 : Vec Ideal S1x256 .f32) (ix2 u q)
        = Cert.Spec.colsum (fun i => biased1 V c i * biased1 V c i) q := by
  obtain ⟨h1, h2⟩ := sums1_apply V c n hn u q
  rw [h1, h2, h24]
  exact ⟨tiles_all1 _ q, tiles_all1 _ q⟩

-- Row r lies in tile r / 2000, and tile t holds its rows of the biased matrix.
theorem arrAt1_2 (c : Dev nD) :
    (dat1 (F := Ideal) V c).arrAt 2 cfg1.N = Cert.Spec.biased (V c main_v44) (Cert.Spec.row (V c main_v45)) := by
  refine (dat1 (F := Ideal) V c).arrAt_eq_of_cover 2 (biased1 V c) (fun t _ => ?_) fun (i : S50000x256.Idx) => ?_
  · show (cfg1.win 2).cut (grid1.coords t) ((dat1 (F := Ideal) V c).after 2 t) = _
    rw [after1_2]
    unfold out1_2
    rw [View.canon_unit_zero hz1]
    simp only [View.ld_unit_zero (S := S2000x256) hz1, View.ld_unit_zero (S := S1x256) hz1]
    obtain ⟨⟨-, -, e4, e5⟩, -⟩ := tile_facts1 t
    funext j
    obtain ⟨p, q, rfl⟩ : ∃ (p : Fin 2000) (q : Fin 256), j = ix2 p q := ⟨j 0, j 1, eq_ix2 j⟩
    show k1_pay3 (F := Ideal) (iblk1 V c 0 t) (iblk1 V c 1 t) (ix2 p q) = biased1 V c (((cfg1.win 2).blk t).view.emb (ix2 p q))
    refine ((pay1_3_apply _ _ p q).trans (row1_at V c t _ _ rfl rfl p q)).trans (congrArg (biased1 V c) (Shape.idx_ext₂ ?_ ?_)).symm
    · show win1_2.index t (0 : Fin 2) * 2000 + 1 * p.val = t.val * 2000 + p.val; omega
    · show win1_2.index t (1 : Fin 2) * 256 + 1 * q.val = q.val; omega
  · have hN : cfg1.N = 25 := N_1
    have hi0 : (i 0).val < 50000 := (i 0).isLt
    have hi1 : (i 1).val < 256 := (i 1).isLt
    obtain ⟨t, ht⟩ : ∃ t : Fin cfg1.N, t.val = (i 0).val / 2000 := ⟨⟨(i 0).val / 2000, by omega⟩, rfl⟩
    obtain ⟨⟨-, -, e4, e5⟩, -⟩ := tile_facts1 t
    refine ⟨t, flush1_2 t, ?_⟩
    show i ∈ ((View.whole main_v46_0).slice (win1_2.rect t)).set
    rw [View.set_slice_whole, Rect.mem_set_unit]
    intro a
    match a with
    | ⟨0, _⟩ => show win1_2.index t (0 : Fin 2) * 2000 ≤ (i 0).val ∧ (i 0).val < win1_2.index t (0 : Fin 2) * 2000 + 2000; omega
    | ⟨1, _⟩ => show win1_2.index t (1 : Fin 2) * 256 ≤ (i 1).val ∧ (i 1).val < win1_2.index t (1 : Fin 2) * 256 + 256; omega

-- A statistics row is set at the last tile only, when the running sums are over all rows; it is one whole block.
theorem arrAt1_3 (c : Dev nD) :
    (dat1 (F := Ideal) V c).arrAt 3 cfg1.N
      = Cert.Spec.asRow (Cert.Spec.meanK (Cert.Spec.biased (V c main_v44) (Cert.Spec.row (V c main_v45)))) := by
  refine (dat1 (F := Ideal) V c).arrAt_eq_of_cover 3 (Cert.Spec.asRow (Cert.Spec.meanK (biased1 V c))) (fun t hf => ?_) fun (i : S1x256.Idx) => ?_
  · have h24 : t.val = 24 := by have := Nat.lt_of_lt_of_eq t.isLt N_1; have := (flush1_3 t).mp hf; omega
    show (cfg1.win 3).cut (grid1.coords t) ((dat1 (F := Ideal) V c).after 3 t) = _
    rw [after1_3]
    unfold mean1
    rw [View.canon_unit_zero hz1]
    simp only [View.ld_unit_zero (S := S1x256) hz1]
    funext j
    obtain ⟨u, q, rfl⟩ : ∃ (u : Fin 1) (q : Fin 256), j = ix2 u q := ⟨j 0, j 1, eq_ix2 j⟩
    show k1_pay6 (F := Ideal) (sums1 (F := Ideal) V c t.val t.isLt).1 (ix2 u q)
      = Cert.Spec.asRow (Cert.Spec.meanK (biased1 V c)) (((cfg1.win 3).blk t).view.emb (ix2 u q))
    refine ((pay1_6_apply _ u q).trans ?_).trans
      (asRow_at1 _ _ q (win1_3.rect_emb_val_of_index_zero t 1 ((tile_facts1 t).2 1).2.1 (ix2 u q))).symm
    exact congrArg (· * Cert.Spec.inv) (sums1_last V c t.val t.isLt h24 u q).1
  · have hN : cfg1.N = 25 := N_1
    have hi0 : (i 0).val < 1 := (i 0).isLt
    have hi1 : (i 1).val < 256 := (i 1).isLt
    obtain ⟨t, ht⟩ : ∃ t : Fin cfg1.N, t.val = 24 := ⟨⟨24, by omega⟩, rfl⟩
    have e6 := ((tile_facts1 t).2 0).2.1
    have e7 := ((tile_facts1 t).2 1).2.1
    refine ⟨t, (flush1_3 t).mpr (by omega), ?_⟩
    show i ∈ ((View.whole main_v46_1).slice (win1_3.rect t)).set
    rw [View.set_slice_whole, Rect.mem_set_unit]
    intro a
    match a with
    | ⟨0, _⟩ => show win1_3.index t (0 : Fin 2) * 1 ≤ (i 0).val ∧ (i 0).val < win1_3.index t (0 : Fin 2) * 1 + 1; omega
    | ⟨1, _⟩ => show win1_3.index t (1 : Fin 2) * 256 ≤ (i 1).val ∧ (i 1).val < win1_3.index t (1 : Fin 2) * 256 + 256; omega

theorem arrAt1_4 (c : Dev nD) :
    (dat1 (F := Ideal) V c).arrAt 4 cfg1.N
      = Cert.Spec.asRow (Cert.Spec.varK (Cert.Spec.biased (V c main_v44) (Cert.Spec.row (V c main_v45)))) := by
  refine (dat1 (F := Ideal) V c).arrAt_eq_of_cover 4 (Cert.Spec.asRow (Cert.Spec.varK (biased1 V c))) (fun t hf => ?_) fun (i : S1x256.Idx) => ?_
  · have h24 : t.val = 24 := by have := Nat.lt_of_lt_of_eq t.isLt N_1; have := (flush1_4 t).mp hf; omega
    show (cfg1.win 4).cut (grid1.coords t) ((dat1 (F := Ideal) V c).after 4 t) = _
    rw [after1_4]
    unfold var1
    rw [View.canon_unit_zero hz1]
    simp only [View.ld_unit_zero (S := S1x256) hz1]
    funext j
    obtain ⟨u, q, rfl⟩ : ∃ (u : Fin 1) (q : Fin 256), j = ix2 u q := ⟨j 0, j 1, eq_ix2 j⟩
    show k1_pay7 (F := Ideal) (sums1 (F := Ideal) V c t.val t.isLt).1 (sums1 (F := Ideal) V c t.val t.isLt).2 (ix2 u q)
      = Cert.Spec.asRow (Cert.Spec.varK (biased1 V c)) (((cfg1.win 4).blk t).view.emb (ix2 u q))
    obtain ⟨h1, h2⟩ := sums1_last V c t.val t.isLt h24 u q
    refine Eq.trans ?_ (asRow_at1 _ _ q (win1_4.rect_emb_val_of_index_zero t 1 ((tile_facts1 t).2 1).2.2 (ix2 u q))).symm
    unfold k1_pay7
    rw [subf_apply, mulf_apply, mulf_apply, broadcast_apply, inv1_eq, pay1_6_apply, h1, h2]
    rfl
  · have hN : cfg1.N = 25 := N_1
    have hi0 : (i 0).val < 1 := (i 0).isLt
    have hi1 : (i 1).val < 256 := (i 1).isLt
    obtain ⟨t, ht⟩ : ∃ t : Fin cfg1.N, t.val = 24 := ⟨⟨24, by omega⟩, rfl⟩
    have e8 := ((tile_facts1 t).2 0).2.2
    have e9 := ((tile_facts1 t).2 1).2.2
    refine ⟨t, (flush1_4 t).mpr (by omega), ?_⟩
    show i ∈ ((View.whole main_v46_2).slice (win1_4.rect t)).set
    rw [View.set_slice_whole, Rect.mem_set_unit]
    intro a
    match a with
    | ⟨0, _⟩ => show win1_4.index t (0 : Fin 2) * 1 ≤ (i 0).val ∧ (i 0).val < win1_4.index t (0 : Fin 2) * 1 + 1; omega
    | ⟨1, _⟩ => show win1_4.index t (1 : Fin 2) * 256 ≤ (i 1).val ∧ (i 1).val < win1_4.index t (1 : Fin 2) * 256 + 256; omega

end Cert.KernelIdeal.Hand

end
-- ==== Proof.KI.R2Val.lean ====
-- What the normalise-and-threshold call leaves in its output array, index by index.
import proofs.«164947_j60361470378157_1_alg».proof.Proof.KI.R2
import proofs.«164947_j60361470378157_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem extract2_00 {α : Type} (a : S1x1.Idx → α) : extractAt ![0, 0] a inpos_S1x1_p0_0 = a (ix2 (0 : Fin 1) (0 : Fin 1)) :=
  congrArg a (funext fun d => by match d with | ⟨0, _⟩ => rfl | ⟨1, _⟩ => rfl)

theorem pay2_at (z : Vec Ideal S2000x256 .f32) (mu va ga be : Vec Ideal S1x256 .f32) (a : Vec Ideal S1x1 .f32)
    (p : Fin 2000) (q : Fin 256) (Z M S G B L : EReal) (hz : z (ix2 p q) = Z) (hm : mu (ix2 (0 : Fin 1) q) = M)
    (hs : va (ix2 (0 : Fin 1) q) = S) (hg : ga (ix2 (0 : Fin 1) q) = G) (hb : be (ix2 (0 : Fin 1) q) = B)
    (hl : a (ix2 (0 : Fin 1) (0 : Fin 1)) = L) :
    (k2_pay1 (F := Ideal) z mu va ga be a) (ix2 p q)
      = Scalar.select (Ideal.cmp .ogt ((Z - M) * Ideal.rsqrt (S + Cert.Spec.eps) * G + B) Cert.Spec.zero)
          ((Z - M) * Ideal.rsqrt (S + Cert.Spec.eps) * G + B) (L * ((Z - M) * Ideal.rsqrt (S + Cert.Spec.eps) * G + B)) := by
  subst hz hm hs hg hb hl
  unfold k2_pay1
  simp only [shapeCast_self]
  simp only [select_apply, cmpf_apply, addf_apply, mulf_apply, subf_apply, broadcast_apply, broadcastTo_1b_ab_apply, extract2_00]
  rfl

variable (V : (c : Dev nD) → (b : Ref sig .tc) → Buf (Elt Ideal) ((c : Thread nD τ).loc b))

theorem hz2 : (![0, 0] : Fin 2 → Nat) = fun _ => 0 := funext fun a => by match a with | ⟨0, _⟩ => rfl | ⟨1, _⟩ => rfl

abbrev G2 (c : Dev nD) : Cert.Spec.A 50000 256 :=
  Cert.Spec.bnp (V c main_v46_0) (Cert.Spec.unrow (V c main_v46_1)) (Cert.Spec.unrow (V c main_v46_2))
    (Cert.Spec.row (V c main_v47)) (Cert.Spec.row (V c main_v48)) (V c main_v49 (ix2 (n0 := 1) (n1 := 1) 0 0))

theorem idx_facts2 : ∀ t : Fin cfg2.N,
    (win2_0.index t (0 : Fin 2) = t.val ∧ win2_0.index t (1 : Fin 2) = 0
      ∧ win2_6.index t (0 : Fin 2) = t.val ∧ win2_6.index t (1 : Fin 2) = 0)
    ∧ ∀ a : Fin 2, win2_1.index t a = 0 ∧ win2_2.index t a = 0 ∧ win2_3.index t a = 0 ∧ win2_4.index t a = 0
      ∧ win2_5.index t a = 0 :=
  (by decide +kernel : ∀ t : Fin grid2.N, _)

theorem tile2_lt (t : Fin cfg2.N) (p : Fin 2000) : t.val * 2000 + p.val < 50000 := by
  have := Nat.lt_of_lt_of_eq t.isLt N_2; have := p.isLt; omega

theorem emb2_6_at (t : Fin cfg2.N) (p : Fin 2000) (q : Fin 256) :
    ((cfg2.win 6).blk t).view.emb (ix2 p q) = ix2 (n0 := 50000) (n1 := 256) ⟨t.val * 2000 + p.val, tile2_lt t p⟩ q := by
  obtain ⟨⟨-, -, e0, e1⟩, -⟩ := idx_facts2 t
  refine Shape.idx_ext₂ ?_ ?_
  · show win2_6.index t (0 : Fin 2) * 2000 + 1 * p.val = t.val * 2000 + p.val; omega
  · show win2_6.index t (1 : Fin 2) * 256 + 1 * q.val = q.val; omega

-- Row r lies in tile r / 2000, and tile t holds its rows of the result.
theorem arrAt2_6 (c : Dev nD) :
    (dat2 (F := Ideal) V c).arrAt 6 cfg2.N
      = Cert.Spec.bnp (V c main_v46_0) (Cert.Spec.unrow (V c main_v46_1)) (Cert.Spec.unrow (V c main_v46_2))
          (Cert.Spec.row (V c main_v47)) (Cert.Spec.row (V c main_v48)) (V c main_v49 (Idealize.ShloMosaic.ValueIdx.ix2 (n0 := 1) (n1 := 1) 0 0)) := by
  refine (dat2 (F := Ideal) V c).arrAt_eq_of_cover 6 (G2 V c) (fun t _ => ?_) fun (i : S50000x256.Idx) => ?_
  · show (cfg2.win 6).cut (grid2.coords t) ((dat2 V c).after 6 t) = _
    rw [after2_6]
    unfold out2_6
    rw [View.canon_unit_zero hz2]
    simp only [View.ld_unit_zero (S := S2000x256) hz2, View.ld_unit_zero (S := S1x256) hz2, View.ld_unit_zero (S := S1x1) hz2]
    funext j
    obtain ⟨p, q, rfl⟩ : ∃ (p : Fin 2000) (q : Fin 256), j = ix2 p q := ⟨j 0, j 1, eq_ix2 j⟩
    show k2_pay1 (F := Ideal) (iblk2 V c 0 t) (iblk2 V c 1 t) (iblk2 V c 2 t) (iblk2 V c 3 t) (iblk2 V c 4 t) (iblk2 V c 5 t) (ix2 p q)
        = G2 V c (((cfg2.win 6).blk t).view.emb (ix2 p q))
    rw [emb2_6_at t p q]
    obtain ⟨⟨e0, e1, -⟩, hs⟩ := idx_facts2 t
    refine (pay2_at (iblk2 V c 0 t) (iblk2 V c 1 t) (iblk2 V c 2 t) (iblk2 V c 3 t) (iblk2 V c 4 t) (iblk2 V c 5 t) p q
      ((V c main_v46_0 : Cert.Spec.A 50000 256) (ix2 ⟨t.val * 2000 + p.val, tile2_lt t p⟩ q)) _ _ _ _ _
      (congrArg (V c main_v46_0 : Cert.Spec.A 50000 256) (Shape.idx_ext₂
        (by show win2_0.index t (0 : Fin 2) * 2000 + 1 * p.val = t.val * 2000 + p.val; omega)
        (by show win2_0.index t (1 : Fin 2) * 256 + 1 * q.val = q.val; omega)))
      (congrArg (V c main_v46_1 : Cert.Spec.A 1 256) (funext fun a => Fin.ext (win2_1.rect_emb_val_of_index_zero t a (hs a).1 (ix2 (0 : Fin 1) q))))
      (congrArg (V c main_v46_2 : Cert.Spec.A 1 256) (funext fun a => Fin.ext (win2_2.rect_emb_val_of_index_zero t a (hs a).2.1 (ix2 (0 : Fin 1) q))))
      (congrArg (V c main_v47 : Cert.Spec.A 1 256) (funext fun a => Fin.ext (win2_3.rect_emb_val_of_index_zero t a (hs a).2.2.1 (ix2 (0 : Fin 1) q))))
      (congrArg (V c main_v48 : Cert.Spec.A 1 256) (funext fun a => Fin.ext (win2_4.rect_emb_val_of_index_zero t a (hs a).2.2.2.1 (ix2 (0 : Fin 1) q))))
      (congrArg (V c main_v49 : Cert.Spec.A 1 1) (funext fun a => Fin.ext (win2_5.rect_emb_val_of_index_zero t a (hs a).2.2.2.2 (ix2 (0 : Fin 1) (0 : Fin 1)))))).trans ?_
    rfl
  · have hi0 : (i 0).val < 50000 := (i 0).isLt
    have hi1 : (i 1).val < 256 := (i 1).isLt
    let t : Fin cfg2.N := ⟨(i 0).val / 2000, Nat.lt_of_lt_of_eq (by omega : (i 0).val / 2000 < 25) N_2.symm⟩
    obtain ⟨⟨-, -, e0, e1⟩, -⟩ := idx_facts2 t
    have ht : t.val = (i 0).val / 2000 := rfl
    refine ⟨t, flush2_6 t, ?_⟩
    show i ∈ ((View.whole main_v50).slice (win2_6.rect t)).set
    rw [View.set_slice_whole, Rect.mem_set_unit]
    intro a
    match a with
    | ⟨0, _⟩ => show win2_6.index t (0 : Fin 2) * 2000 ≤ (i 0).val ∧ (i 0).val < win2_6.index t (0 : Fin 2) * 2000 + 2000; omega
    | ⟨1, _⟩ => show win2_6.index t (1 : Fin 2) * 256 ≤ (i 1).val ∧ (i 1).val < win2_6.index t (1 : Fin 2) * 256 + 256; omega

end Cert.KernelIdeal.Hand

end
-- ==== Proof.KI.R3Val.lean ====
-- What the matrix-product call leaves in its output array: the product.
import proofs.«164947_j60361470378157_1_alg».proof.Proof.KI.R3
import proofs.«164947_j60361470378157_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- Entry j of the product of two blocks is the sum over the contracted coordinate k of x0[j₀, k] · x1[k, j₁].
theorem pay3_apply (x0 : Vec Ideal S2000x256 .f32) (x1 : Vec Ideal S256x256 .f32) (j : S2000x256.Idx) :
    k3_pay1 (F := Ideal) x0 x1 j
      = ∑ k : Fin 256, x0 (ix2 (n0 := 2000) (n1 := 256) (j 0) k) * x1 (ix2 (n0 := 256) (n1 := 256) k (j 1)) := by
  unfold k3_pay1
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  rw [truncf_apply, truncf_apply]
  try rw [shapeCast_self]
  exact congrArg₂ (· * ·) (congrArg x0 (Shape.idx_ext₂ rfl hk)) (congrArg x1 (Shape.idx_ext₂ hk rfl))

theorem hz3 : (![0, 0] : Fin 2 → Nat) = fun _ => 0 := funext fun a => by match a with | ⟨0, _⟩ => rfl | ⟨1, _⟩ => rfl

theorem tile_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

theorem tile_onto3 : ∀ q : Fin 25, ∃ t : Fin cfg3.N, win3_2.index t = ![q.val, 0] :=
  (by decide +kernel : ∀ q : Fin 25, ∃ t : Fin grid3.N, win3_2.index t = ![q.val, 0])

variable (V : (c : Dev nD) → (b : Ref sig .tc) → Buf (Elt Ideal) ((c : Thread nD τ).loc b))

-- Row r lies in tile r / 2000; tile t holds its rows of the product, the right factor being the whole right matrix.
theorem arrAt3_2 (c : Dev nD) :
    (dat3 (F := Ideal) V c).arrAt 2 cfg3.N = Cert.Spec.mm256 (V c main_v50) (V c main_arg7) := by
  refine (dat3 (F := Ideal) V c).arrAt_eq_of_cover 2 (Cert.Spec.mm256 (V c main_v50) (V c main_arg7)) (fun t _ => ?_) fun (i : S50000x256.Idx) => ?_
  · show (cfg3.win 2).cut (grid3.coords t) ((dat3 (F := Ideal) V c).after 2 t) = _
    rw [after3_2]
    unfold out3_2
    rw [View.canon_unit_zero hz3]
    simp only [View.ld_unit_zero (S := S2000x256) hz3, View.ld_unit_zero (S := S256x256) hz3]
    obtain ⟨e0, e1, e2, e3, e4⟩ := tile_facts3 t
    funext j
    show k3_pay1 (F := Ideal) (iblk3 V c 0 t) (iblk3 V c 1 t) j
      = Cert.Spec.mm256 (V c main_v50) (V c main_arg7) (((cfg3.win 2).blk t).view.emb j)
    rw [pay3_apply]
    refine Finset.sum_congr rfl fun k _ => congrArg₂ (· * ·) ?_ ?_
    · refine congrArg (V c main_v50 : Cert.Spec.A 50000 256) (Shape.idx_ext₂ ?_ ?_)
      · show win3_0.index t (0 : Fin 2) * 2000 + 1 * (j 0).val = win3_2.index t (0 : Fin 2) * 2000 + 1 * (j 0).val; omega
      · show win3_0.index t (1 : Fin 2) * 256 + 1 * k.val = k.val; omega
    · refine congrArg (V c main_arg7 : Cert.Spec.A 256 256) (Shape.idx_ext₂ ?_ ?_)
      · show win3_1.index t (0 : Fin 2) * 256 + 1 * k.val = k.val; omega
      · show win3_1.index t (1 : Fin 2) * 256 + 1 * (j 1).val = win3_2.index t (1 : Fin 2) * 256 + 1 * (j 1).val; omega
  · have hi0 : (i 0).val < 50000 := (i 0).isLt
    have hi1 : (i 1).val < 256 := (i 1).isLt
    obtain ⟨t, ht⟩ := tile_onto3 ⟨(i 0).val / 2000, by omega⟩
    have q0 : win3_2.index t (0 : Fin 2) = (i 0).val / 2000 := congrFun ht 0
    have q1 : win3_2.index t (1 : Fin 2) = 0 := congrFun ht 1
    refine ⟨t, flush3_2 t, ?_⟩
    show i ∈ ((View.whole main_v51).slice (win3_2.rect t)).set
    rw [View.set_slice_whole, Rect.mem_set_unit]
    intro a
    match a with
    | ⟨0, _⟩ => show win3_2.index t (0 : Fin 2) * 2000 ≤ (i 0).val ∧ (i 0).val < win3_2.index t (0 : Fin 2) * 2000 + 2000; omega
    | ⟨1, _⟩ => show win3_2.index t (1 : Fin 2) * 256 ≤ (i 1).val ∧ (i 1).val < win3_2.index t (1 : Fin 2) * 256 + 256; omega

end Cert.KernelIdeal.Hand

end
-- ==== Proof.KI.R4Val.lean ====
-- What the statistics call leaves: the biased matrix, and each column's mean and variance as sums over all 50000 rows.
import proofs.«164947_j60361470378157_1_alg».proof.Proof.KI.R4
import proofs.«164947_j60361470378157_1_alg».proof.Proof.Spec
import proofs.«164947_j60361470378157_1_alg».proof.Proof.SpecAlg
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem inv4_eq : Named.named (F := Ideal) Cert.KernelIdeal.κ "inv_50000" (φ := .f32) 0x37A7C5AC#32 = Cert.Spec.inv :=
  IdealRules.named_const.ideal_named_scalar _ _ _ _ rfl

theorem hz4 : (![0, 0] : Fin 2 → Nat) = fun _ => 0 := funext fun a => by match a with | ⟨0, _⟩ => rfl | ⟨1, _⟩ => rfl

section
variable (x : Vec Ideal S2000x256 .f32) (b s : Vec Ideal S1x256 .f32) (p : Fin 2000) (u : Fin 1) (q : Fin 256)

theorem pay4_3_apply : k4_pay3 (F := Ideal) x b (ix2 p q) = x (ix2 p q) + b (ix2 (0 : Fin 1) q) := by
  unfold k4_pay3
  rw [addf_apply, shapeCast_self, shapeCast_self, broadcastTo_1b_ab_apply]

theorem pay4_6_apply : k4_pay6 (F := Ideal) s (ix2 u q) = s (ix2 u q) * Cert.Spec.inv := by
  unfold k4_pay6
  rw [mulf_apply, broadcast_apply, inv4_eq]

theorem acc4_0_apply :
    acc4_0 (F := Ideal) x b s (ix2 u q) = s (ix2 u q) + ∑ r : Fin 2000, (x (ix2 r q) + b (ix2 (0 : Fin 1) q)) := by
  unfold acc4_0
  rw [View.canon_unit_zero hz4]
  simp only [View.ld_unit_zero (S := S2000x256) hz4, View.ld_unit_zero (S := S1x256) hz4]
  unfold k4_pay4
  dsimp only
  rw [shapeCast_self, addf_apply, shapeCast_a_1a_apply]
  refine congrArg (s (ix2 u q) + ·) ((Ideal.multiReduction_add_single _ _ _ _ _ (ix1 q)).trans ?_)
  exact Finset.sum_congr rfl fun r _ => pay4_3_apply x b r q

theorem acc4_1_apply :
    acc4_1 (F := Ideal) x b s (ix2 u q)
      = s (ix2 u q) + ∑ r : Fin 2000, (x (ix2 r q) + b (ix2 (0 : Fin 1) q)) * (x (ix2 r q) + b (ix2 (0 : Fin 1) q)) := by
  unfold acc4_1
  rw [View.canon_unit_zero hz4]
  simp only [View.ld_unit_zero (S := S2000x256) hz4, View.ld_unit_zero (S := S1x256) hz4]
  unfold k4_pay5
  dsimp only
  rw [shapeCast_self, addf_apply, shapeCast_a_1a_apply]
  refine congrArg (s (ix2 u q) + ·) ((Ideal.multiReduction_add_single _ _ _ _ _ (ix1 q)).trans ?_)
  refine Finset.sum_congr rfl fun (r : Fin 2000) _ => ?_
  show mulf (k4_pay3 (F := Ideal) x b) (k4_pay3 (F := Ideal) x b) (ix2 r q) = _
  rw [mulf_apply, pay4_3_apply]

theorem zero4_0_apply : zero4_0 (F := Ideal) (ix2 u q) = 0 := by
  unfold zero4_0
  rw [View.canon_unit_zero hz4]
  unfold k4_pay1
  rw [shapeCast_self, broadcast_apply]
  exact Ideal.ofBits_zero_f32

theorem zero4_1_apply : zero4_1 (F := Ideal) (ix2 u q) = 0 := zero4_0_apply u q

end

-- Column q of z summed over the rows of tile t; a row past the array's end counts as 0, so that t may be any natural.
def tileSum4 (z : Cert.Spec.A 50000 256) (q : Fin 256) (t : ℕ) : EReal :=
  ∑ p : Fin 2000, if h : t * 2000 + p.val < 50000 then z (ix2 (n0 := 50000) (n1 := 256) ⟨t * 2000 + p.val, h⟩ q) else 0

-- The rows 2000·t + p with t < 25 and p < 2000 are all the rows, each once.
theorem tiles_all4 (z : Cert.Spec.A 50000 256) (q : Fin 256) :
    ∑ t ∈ Finset.range 25, tileSum4 z q t = Cert.Spec.colsum z q := by
  rw [Cert.Spec.colsum_eq_tiles, Finset.sum_range]
  refine Finset.sum_congr rfl fun t _ => ?_
  unfold tileSum4
  exact Finset.sum_congr rfl fun p _ => dif_pos (by have := t.isLt; have := p.isLt; omega)

theorem asRow_at4 (f : Fin 256 → EReal) (i : S1x256.Idx) (q : Fin 256) (hi : (i 1).val = q.val) :
    Cert.Spec.asRow f i = f q :=
  congrArg f (Fin.ext hi)

theorem tile_facts4 : ∀ t : Fin cfg4.N,
    (win4_0.index t (0 : Fin 2) = t.val ∧ win4_0.index t (1 : Fin 2) = 0
      ∧ win4_2.index t (0 : Fin 2) = t.val ∧ win4_2.index t (1 : Fin 2) = 0)
    ∧ ∀ a : Fin 2, win4_1.index t a = 0 ∧ win4_3.index t a = 0 ∧ win4_4.index t a = 0 :=
  (by decide +kernel : ∀ t : Fin grid4.N, _)

theorem tile4_lt (t : Fin cfg4.N) (p : Fin 2000) : t.val * 2000 + p.val < 50000 := by
  have := Nat.lt_of_lt_of_eq t.isLt N_4; have := p.isLt; omega

variable (V : (c : Dev nD) → (b : Ref sig .tc) → Buf (Elt Ideal) ((c : Thread nD τ).loc b))

-- The matrix found on entry with the bias row added to every row.
abbrev biased4 (c : Dev nD) : Cert.Spec.A 50000 256 := Cert.Spec.biased (V c main_v64) (Cert.Spec.row (V c main_v65))

-- Entry (p, q) of tile t with the bias added is entry (2000·t + p, q) of the biased matrix.
theorem row4_at (c : Dev nD) (t : Fin cfg4.N) (x : Vec Ideal S2000x256 .f32) (b : Vec Ideal S1x256 .f32)
    (hx : x = iblk4 (F := Ideal) V c 0 t) (hb : b = iblk4 (F := Ideal) V c 1 t) (p : Fin 2000) (q : Fin 256) :
    x (ix2 p q) + b (ix2 (0 : Fin 1) q) = biased4 V c (ix2 ⟨t.val * 2000 + p.val, tile4_lt t p⟩ q) := by
  subst hx hb
  obtain ⟨⟨e0, e1, -⟩, hz⟩ := tile_facts4 t
  refine congrArg₂ (· + ·) (congrArg (V c main_v64 : Cert.Spec.A 50000 256) (Shape.idx_ext₂ ?_ ?_))
    (congrArg (V c main_v65 : Cert.Spec.A 1 256) (funext fun a => Fin.ext (win4_1.rect_emb_val_of_index_zero t a (hz a).1 (ix2 (0 : Fin 1) q))))
  · show win4_0.index t (0 : Fin 2) * 2000 + 1 * p.val = t.val * 2000 + p.val; omega
  · show win4_0.index t (1 : Fin 2) * 256 + 1 * q.val = q.val; omega

theorem tile_sum4 (c : Dev nD) (t : Fin cfg4.N) (q : Fin 256) (x : Vec Ideal S2000x256 .f32) (b : Vec Ideal S1x256 .f32)
    (hx : x = iblk4 (F := Ideal) V c 0 t) (hb : b = iblk4 (F := Ideal) V c 1 t) (g : EReal → EReal) :
    ∑ p : Fin 2000, g (x (ix2 p q) + b (ix2 (0 : Fin 1) q)) = tileSum4 (fun i => g (biased4 V c i)) q t.val := by
  unfold tileSum4
  refine Finset.sum_congr rfl fun p _ => ?_
  rw [dif_pos (tile4_lt t p)]
  exact congrArg g (row4_at V c t x b hx hb p q)

-- Each tile adds its own tile sums to what the tile before left, and the first tile starts from zero.
theorem sums4_apply (c : Dev nD) : ∀ (n : ℕ) (hn : n < cfg4.N) (u : Fin 1) (q : Fin 256),
    ((sums4 (F := Ideal) V c n hn).1 : Vec Ideal S1x256 .f32) (ix2 u q) = ∑ t ∈ Finset.range (n + 1), tileSum4 (biased4 V c) q t
    ∧ ((sums4 (F := Ideal) V c n hn).2 : Vec Ideal S1x256 .f32) (ix2 u q)
        = ∑ t ∈ Finset.range (n + 1), tileSum4 (fun i => biased4 V c i * biased4 V c i) q t
  | 0, hn, u, q => by
    rw [sums4]
    dsimp only
    constructor
    · refine (acc4_0_apply _ _ _ u q).trans ?_
      rw [zero4_0_apply, zero_add, Finset.sum_range_one]
      exact tile_sum4 V c ⟨0, hn⟩ q _ _ rfl rfl fun v => v
    · refine (acc4_1_apply _ _ _ u q).trans ?_
      rw [zero4_1_apply, zero_add, Finset.sum_range_one]
      exact tile_sum4 V c ⟨0, hn⟩ q _ _ rfl rfl fun v => v * v
  | n + 1, hn, u, q => by
    rw [sums4]
    dsimp only
    obtain ⟨ih1, ih2⟩ := sums4_apply c n (Nat.lt_of_succ_lt hn) u q
    constructor
    · refine (acc4_0_apply _ _ _ u q).trans ?_
      rw [ih1, Finset.sum_range_succ _ (n + 1)]
      exact congrArg (_ + ·) (tile_sum4 V c ⟨n + 1, hn⟩ q _ _ rfl rfl fun v => v)
    · refine (acc4_1_apply _ _ _ u q).trans ?_
      rw [ih2, Finset.sum_range_succ _ (n + 1)]
      exact congrArg (_ + ·) (tile_sum4 V c ⟨n + 1, hn⟩ q _ _ rfl rfl fun v => v * v)

theorem sums4_last (c : Dev nD) (n : ℕ) (hn : n < cfg4.N) (h24 : n = 24) (u : Fin 1) (q : Fin 256) :
    ((sums4 (F := Ideal) V c n hn).1 : Vec Ideal S1x256 .f32) (ix2 u q) = Cert.Spec.colsum (biased4 V c) q
    ∧ ((sums4 (F := Ideal) V c n hn).2 : Vec Ideal S1x256 .f32) (ix2 u q)
        = Cert.Spec.colsum (fun i => biased4 V c i * biased4 V c i) q := by
  obtain ⟨h1, h2⟩ := sums4_apply V c n hn u q
  rw [h1, h2, h24]
  exact ⟨tiles_all4 _ q, tiles_all4 _ q⟩

-- Row r lies in tile r / 2000, and tile t holds its rows of the biased matrix.
theorem arrAt4_2 (c : Dev nD) :
    (dat4 (F := Ideal) V c).arrAt 2 cfg4.N = Cert.Spec.biased (V c main_v64) (Cert.Spec.row (V c main_v65)) := by
  refine (dat4 (F := Ideal) V c).arrAt_eq_of_cover 2 (biased4 V c) (fun t _ => ?_) fun (i : S50000x256.Idx) => ?_
  · show (cfg4.win 2).cut (grid4.coords t) ((dat4 (F := Ideal) V c).after 2 t) = _
    rw [after4_2]
    unfold out4_2
    rw [View.canon_unit_zero hz4]
    simp only [View.ld_unit_zero (S := S2000x256) hz4, View.ld_unit_zero (S := S1x256) hz4]
    obtain ⟨⟨-, -, e4, e5⟩, -⟩ := tile_facts4 t
    funext j
    obtain ⟨p, q, rfl⟩ : ∃ (p : Fin 2000) (q : Fin 256), j = ix2 p q := ⟨j 0, j 1, eq_ix2 j⟩
    show k4_pay3 (F := Ideal) (iblk4 V c 0 t) (iblk4 V c 1 t) (ix2 p q) = biased4 V c (((cfg4.win 2).blk t).view.emb (ix2 p q))
    refine ((pay4_3_apply _ _ p q).trans (row4_at V c t _ _ rfl rfl p q)).trans (congrArg (biased4 V c) (Shape.idx_ext₂ ?_ ?_)).symm
    · show win4_2.index t (0 : Fin 2) * 2000 + 1 * p.val = t.val * 2000 + p.val; omega
    · show win4_2.index t (1 : Fin 2) * 256 + 1 * q.val = q.val; omega
  · have hN : cfg4.N = 25 := N_4
    have hi0 : (i 0).val < 50000 := (i 0).isLt
    have hi1 : (i 1).val < 256 := (i 1).isLt
    obtain ⟨t, ht⟩ : ∃ t : Fin cfg4.N, t.val = (i 0).val / 2000 := ⟨⟨(i 0).val / 2000, by omega⟩, rfl⟩
    obtain ⟨⟨-, -, e4, e5⟩, -⟩ := tile_facts4 t
    refine ⟨t, flush4_2 t, ?_⟩
    show i ∈ ((View.whole main_v66_0).slice (win4_2.rect t)).set
    rw [View.set_slice_whole, Rect.mem_set_unit]
    intro a
    match a with
    | ⟨0, _⟩ => show win4_2.index t (0 : Fin 2) * 2000 ≤ (i 0).val ∧ (i 0).val < win4_2.index t (0 : Fin 2) * 2000 + 2000; omega
    | ⟨1, _⟩ => show win4_2.index t (1 : Fin 2) * 256 ≤ (i 1).val ∧ (i 1).val < win4_2.index t (1 : Fin 2) * 256 + 256; omega

-- A statistics row is set at the last tile only, when the running sums are over all rows; it is one whole block.
theorem arrAt4_3 (c : Dev nD) :
    (dat4 (F := Ideal) V c).arrAt 3 cfg4.N
      = Cert.Spec.asRow (Cert.Spec.meanK (Cert.Spec.biased (V c main_v64) (Cert.Spec.row (V c main_v65)))) := by
  refine (dat4 (F := Ideal) V c).arrAt_eq_of_cover 3 (Cert.Spec.asRow (Cert.Spec.meanK (biased4 V c))) (fun t hf => ?_) fun (i : S1x256.Idx) => ?_
  · have h24 : t.val = 24 := by have := Nat.lt_of_lt_of_eq t.isLt N_4; have := (flush4_3 t).mp hf; omega
    show (cfg4.win 3).cut (grid4.coords t) ((dat4 (F := Ideal) V c).after 3 t) = _
    rw [after4_3]
    unfold mean4
    rw [View.canon_unit_zero hz4]
    simp only [View.ld_unit_zero (S := S1x256) hz4]
    funext j
    obtain ⟨u, q, rfl⟩ : ∃ (u : Fin 1) (q : Fin 256), j = ix2 u q := ⟨j 0, j 1, eq_ix2 j⟩
    show k4_pay6 (F := Ideal) (sums4 (F := Ideal) V c t.val t.isLt).1 (ix2 u q)
      = Cert.Spec.asRow (Cert.Spec.meanK (biased4 V c)) (((cfg4.win 3).blk t).view.emb (ix2 u q))
    refine ((pay4_6_apply _ u q).trans ?_).trans
      (asRow_at4 _ _ q (win4_3.rect_emb_val_of_index_zero t 1 ((tile_facts4 t).2 1).2.1 (ix2 u q))).symm
    exact congrArg (· * Cert.Spec.inv) (sums4_last V c t.val t.isLt h24 u q).1
  · have hN : cfg4.N = 25 := N_4
    have hi0 : (i 0).val < 1 := (i 0).isLt
    have hi1 : (i 1).val < 256 := (i 1).isLt
    obtain ⟨t, ht⟩ : ∃ t : Fin cfg4.N, t.val = 24 := ⟨⟨24, by omega⟩, rfl⟩
    have e6 := ((tile_facts4 t).2 0).2.1
    have e7 := ((tile_facts4 t).2 1).2.1
    refine ⟨t, (flush4_3 t).mpr (by omega), ?_⟩
    show i ∈ ((View.whole main_v66_1).slice (win4_3.rect t)).set
    rw [View.set_slice_whole, Rect.mem_set_unit]
    intro a
    match a with
    | ⟨0, _⟩ => show win4_3.index t (0 : Fin 2) * 1 ≤ (i 0).val ∧ (i 0).val < win4_3.index t (0 : Fin 2) * 1 + 1; omega
    | ⟨1, _⟩ => show win4_3.index t (1 : Fin 2) * 256 ≤ (i 1).val ∧ (i 1).val < win4_3.index t (1 : Fin 2) * 256 + 256; omega

theorem arrAt4_4 (c : Dev nD) :
    (dat4 (F := Ideal) V c).arrAt 4 cfg4.N
      = Cert.Spec.asRow (Cert.Spec.varK (Cert.Spec.biased (V c main_v64) (Cert.Spec.row (V c main_v65)))) := by
  refine (dat4 (F := Ideal) V c).arrAt_eq_of_cover 4 (Cert.Spec.asRow (Cert.Spec.varK (biased4 V c))) (fun t hf => ?_) fun (i : S1x256.Idx) => ?_
  · have h24 : t.val = 24 := by have := Nat.lt_of_lt_of_eq t.isLt N_4; have := (flush4_4 t).mp hf; omega
    show (cfg4.win 4).cut (grid4.coords t) ((dat4 (F := Ideal) V c).after 4 t) = _
    rw [after4_4]
    unfold var4
    rw [View.canon_unit_zero hz4]
    simp only [View.ld_unit_zero (S := S1x256) hz4]
    funext j
    obtain ⟨u, q, rfl⟩ : ∃ (u : Fin 1) (q : Fin 256), j = ix2 u q := ⟨j 0, j 1, eq_ix2 j⟩
    show k4_pay7 (F := Ideal) (sums4 (F := Ideal) V c t.val t.isLt).1 (sums4 (F := Ideal) V c t.val t.isLt).2 (ix2 u q)
      = Cert.Spec.asRow (Cert.Spec.varK (biased4 V c)) (((cfg4.win 4).blk t).view.emb (ix2 u q))
    obtain ⟨h1, h2⟩ := sums4_last V c t.val t.isLt h24 u q
    refine Eq.trans ?_ (asRow_at4 _ _ q (win4_4.rect_emb_val_of_index_zero t 1 ((tile_facts4 t).2 1).2.2 (ix2 u q))).symm
    unfold k4_pay7
    rw [subf_apply, mulf_apply, mulf_apply, broadcast_apply, inv4_eq, pay4_6_apply, h1, h2]
    rfl
  · have hN : cfg4.N = 25 := N_4
    have hi0 : (i 0).val < 1 := (i 0).isLt
    have hi1 : (i 1).val < 256 := (i 1).isLt
    obtain ⟨t, ht⟩ : ∃ t : Fin cfg4.N, t.val = 24 := ⟨⟨24, by omega⟩, rfl⟩
    have e8 := ((tile_facts4 t).2 0).2.2
    have e9 := ((tile_facts4 t).2 1).2.2
    refine ⟨t, (flush4_4 t).mpr (by omega), ?_⟩
    show i ∈ ((View.whole main_v66_2).slice (win4_4.rect t)).set
    rw [View.set_slice_whole, Rect.mem_set_unit]
    intro a
    match a with
    | ⟨0, _⟩ => show win4_4.index t (0 : Fin 2) * 1 ≤ (i 0).val ∧ (i 0).val < win4_4.index t (0 : Fin 2) * 1 + 1; omega
    | ⟨1, _⟩ => show win4_4.index t (1 : Fin 2) * 256 ≤ (i 1).val ∧ (i 1).val < win4_4.index t (1 : Fin 2) * 256 + 256; omega

end Cert.KernelIdeal.Hand

end
-- ==== Proof.KI.R5Val.lean ====
-- What the normalise-and-threshold call leaves in its output array, index by index.
import proofs.«164947_j60361470378157_1_alg».proof.Proof.KI.R5
import proofs.«164947_j60361470378157_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

theorem extract5_00 {α : Type} (a : S1x1.Idx → α) : extractAt ![0, 0] a inpos_S1x1_p0_0 = a (ix2 (0 : Fin 1) (0 : Fin 1)) :=
  congrArg a (funext fun d => by match d with | ⟨0, _⟩ => rfl | ⟨1, _⟩ => rfl)

theorem pay5_at (z : Vec Ideal S2000x256 .f32) (mu va ga be : Vec Ideal S1x256 .f32) (a : Vec Ideal S1x1 .f32)
    (p : Fin 2000) (q : Fin 256) (Z M S G B L : EReal) (hz : z (ix2 p q) = Z) (hm : mu (ix2 (0 : Fin 1) q) = M)
    (hs : va (ix2 (0 : Fin 1) q) = S) (hg : ga (ix2 (0 : Fin 1) q) = G) (hb : be (ix2 (0 : Fin 1) q) = B)
    (hl : a (ix2 (0 : Fin 1) (0 : Fin 1)) = L) :
    (k5_pay1 (F := Ideal) z mu va ga be a) (ix2 p q)
      = Scalar.select (Ideal.cmp .ogt ((Z - M) * Ideal.rsqrt (S + Cert.Spec.eps) * G + B) Cert.Spec.zero)
          ((Z - M) * Ideal.rsqrt (S + Cert.Spec.eps) * G + B) (L * ((Z - M) * Ideal.rsqrt (S + Cert.Spec.eps) * G + B)) := by
  subst hz hm hs hg hb hl
  unfold k5_pay1
  simp only [shapeCast_self]
  simp only [select_apply, cmpf_apply, addf_apply, mulf_apply, subf_apply, broadcast_apply, broadcastTo_1b_ab_apply, extract5_00]
  rfl

variable (V : (c : Dev nD) → (b : Ref sig .tc) → Buf (Elt Ideal) ((c : Thread nD τ).loc b))

theorem hz5 : (![0, 0] : Fin 2 → Nat) = fun _ => 0 := funext fun a => by match a with | ⟨0, _⟩ => rfl | ⟨1, _⟩ => rfl

abbrev G5 (c : Dev nD) : Cert.Spec.A 50000 256 :=
  Cert.Spec.bnp (V c main_v66_0) (Cert.Spec.unrow (V c main_v66_1)) (Cert.Spec.unrow (V c main_v66_2))
    (Cert.Spec.row (V c main_v67)) (Cert.Spec.row (V c main_v68)) (V c main_v69 (ix2 (n0 := 1) (n1 := 1) 0 0))

theorem idx_facts5 : ∀ t : Fin cfg5.N,
    (win5_0.index t (0 : Fin 2) = t.val ∧ win5_0.index t (1 : Fin 2) = 0
      ∧ win5_6.index t (0 : Fin 2) = t.val ∧ win5_6.index t (1 : Fin 2) = 0)
    ∧ ∀ a : Fin 2, win5_1.index t a = 0 ∧ win5_2.index t a = 0 ∧ win5_3.index t a = 0 ∧ win5_4.index t a = 0
      ∧ win5_5.index t a = 0 :=
  (by decide +kernel : ∀ t : Fin grid5.N, _)

theorem tile5_lt (t : Fin cfg5.N) (p : Fin 2000) : t.val * 2000 + p.val < 50000 := by
  have := Nat.lt_of_lt_of_eq t.isLt N_5; have := p.isLt; omega

theorem emb5_6_at (t : Fin cfg5.N) (p : Fin 2000) (q : Fin 256) :
    ((cfg5.win 6).blk t).view.emb (ix2 p q) = ix2 (n0 := 50000) (n1 := 256) ⟨t.val * 2000 + p.val, tile5_lt t p⟩ q := by
  obtain ⟨⟨-, -, e0, e1⟩, -⟩ := idx_facts5 t
  refine Shape.idx_ext₂ ?_ ?_
  · show win5_6.index t (0 : Fin 2) * 2000 + 1 * p.val = t.val * 2000 + p.val; omega
  · show win5_6.index t (1 : Fin 2) * 256 + 1 * q.val = q.val; omega

-- Row r lies in tile r / 2000, and tile t holds its rows of the result.
theorem arrAt5_6 (c : Dev nD) :
    (dat5 (F := Ideal) V c).arrAt 6 cfg5.N
      = Cert.Spec.bnp (V c main_v66_0) (Cert.Spec.unrow (V c main_v66_1)) (Cert.Spec.unrow (V c main_v66_2))
          (Cert.Spec.row (V c main_v67)) (Cert.Spec.row (V c main_v68)) (V c main_v69 (Idealize.ShloMosaic.ValueIdx.ix2 (n0 := 1) (n1 := 1) 0 0)) := by
  refine (dat5 (F := Ideal) V c).arrAt_eq_of_cover 6 (G5 V c) (fun t _ => ?_) fun (i : S50000x256.Idx) => ?_
  · show (cfg5.win 6).cut (grid5.coords t) ((dat5 V c).after 6 t) = _
    rw [after5_6]
    unfold out5_6
    rw [View.canon_unit_zero hz5]
    simp only [View.ld_unit_zero (S := S2000x256) hz5, View.ld_unit_zero (S := S1x256) hz5, View.ld_unit_zero (S := S1x1) hz5]
    funext j
    obtain ⟨p, q, rfl⟩ : ∃ (p : Fin 2000) (q : Fin 256), j = ix2 p q := ⟨j 0, j 1, eq_ix2 j⟩
    show k5_pay1 (F := Ideal) (iblk5 V c 0 t) (iblk5 V c 1 t) (iblk5 V c 2 t) (iblk5 V c 3 t) (iblk5 V c 4 t) (iblk5 V c 5 t) (ix2 p q)
        = G5 V c (((cfg5.win 6).blk t).view.emb (ix2 p q))
    rw [emb5_6_at t p q]
    obtain ⟨⟨e0, e1, -⟩, hs⟩ := idx_facts5 t
    refine (pay5_at (iblk5 V c 0 t) (iblk5 V c 1 t) (iblk5 V c 2 t) (iblk5 V c 3 t) (iblk5 V c 4 t) (iblk5 V c 5 t) p q
      ((V c main_v66_0 : Cert.Spec.A 50000 256) (ix2 ⟨t.val * 2000 + p.val, tile5_lt t p⟩ q)) _ _ _ _ _
      (congrArg (V c main_v66_0 : Cert.Spec.A 50000 256) (Shape.idx_ext₂
        (by show win5_0.index t (0 : Fin 2) * 2000 + 1 * p.val = t.val * 2000 + p.val; omega)
        (by show win5_0.index t (1 : Fin 2) * 256 + 1 * q.val = q.val; omega)))
      (congrArg (V c main_v66_1 : Cert.Spec.A 1 256) (funext fun a => Fin.ext (win5_1.rect_emb_val_of_index_zero t a (hs a).1 (ix2 (0 : Fin 1) q))))
      (congrArg (V c main_v66_2 : Cert.Spec.A 1 256) (funext fun a => Fin.ext (win5_2.rect_emb_val_of_index_zero t a (hs a).2.1 (ix2 (0 : Fin 1) q))))
      (congrArg (V c main_v67 : Cert.Spec.A 1 256) (funext fun a => Fin.ext (win5_3.rect_emb_val_of_index_zero t a (hs a).2.2.1 (ix2 (0 : Fin 1) q))))
      (congrArg (V c main_v68 : Cert.Spec.A 1 256) (funext fun a => Fin.ext (win5_4.rect_emb_val_of_index_zero t a (hs a).2.2.2.1 (ix2 (0 : Fin 1) q))))
      (congrArg (V c main_v69 : Cert.Spec.A 1 1) (funext fun a => Fin.ext (win5_5.rect_emb_val_of_index_zero t a (hs a).2.2.2.2 (ix2 (0 : Fin 1) (0 : Fin 1)))))).trans ?_
    rfl
  · have hi0 : (i 0).val < 50000 := (i 0).isLt
    have hi1 : (i 1).val < 256 := (i 1).isLt
    let t : Fin cfg5.N := ⟨(i 0).val / 2000, Nat.lt_of_lt_of_eq (by omega : (i 0).val / 2000 < 25) N_5.symm⟩
    obtain ⟨⟨-, -, e0, e1⟩, -⟩ := idx_facts5 t
    have ht : t.val = (i 0).val / 2000 := rfl
    refine ⟨t, flush5_6 t, ?_⟩
    show i ∈ ((View.whole main_v70).slice (win5_6.rect t)).set
    rw [View.set_slice_whole, Rect.mem_set_unit]
    intro a
    match a with
    | ⟨0, _⟩ => show win5_6.index t (0 : Fin 2) * 2000 ≤ (i 0).val ∧ (i 0).val < win5_6.index t (0 : Fin 2) * 2000 + 2000; omega
    | ⟨1, _⟩ => show win5_6.index t (1 : Fin 2) * 256 ≤ (i 1).val ∧ (i 1).val < win5_6.index t (1 : Fin 2) * 256 + 256; omega

end Cert.KernelIdeal.Hand

end
-- ==== Proof.RefReadP.lean ====
-- The reference program's host operations as functions of @main's arguments, with the read-at-an-index lemma of each operation the proof cites.
import proofs.«164947_j60361470378157_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S50000, .i32⟩ : BufTy).Contents (Elt F) :=
  iotaInDim S50000 32 0
def val_main_v1 (x1 : (⟨S2x800000, .i32⟩ : BufTy).Contents (Elt F)) : (⟨S1x800000, .i32⟩ : BufTy).Contents (Elt F) :=
  extractStridedSlice S1x800000 ![0, 0] (x1) slices_S2x800000_S1x800000_0_0
def val_main_v2 (x1 : (⟨S2x800000, .i32⟩ : BufTy).Contents (Elt F)) : (⟨S800000, .i32⟩ : BufTy).Contents (Elt F) :=
  shapeCast _ (val_main_v1 (F := F) x1) shapeCasts_S1x800000_S800000
def val_main_v3 (x1 : (⟨S2x800000, .i32⟩ : BufTy).Contents (Elt F)) : (⟨S850000, .i32⟩ : BufTy).Contents (Elt F) :=
  concatenate S850000 0 [⟨S800000, (val_main_v2 (F := F) x1)⟩, ⟨S50000, (val_main_v0 (F := F))⟩] concatenates_S800000_S50000_S850000_d0
def val_main_v4 (x1 : (⟨S2x800000, .i32⟩ : BufTy).Contents (Elt F)) : (⟨S1x800000, .i32⟩ : BufTy).Contents (Elt F) :=
  extractStridedSlice S1x800000 ![1, 0] (x1) slices_S2x800000_S1x800000_1_0
def val_main_v5 (x1 : (⟨S2x800000, .i32⟩ : BufTy).Contents (Elt F)) : (⟨S800000, .i32⟩ : BufTy).Contents (Elt F) :=
  shapeCast _ (val_main_v4 (F := F) x1) shapeCasts_S1x800000_S800000
def val_main_v6 (x1 : (⟨S2x800000, .i32⟩ : BufTy).Contents (Elt F)) : (⟨S850000, .i32⟩ : BufTy).Contents (Elt F) :=
  concatenate S850000 0 [⟨S800000, (val_main_v5 (F := F) x1)⟩, ⟨S50000, (val_main_v0 (F := F))⟩] concatenates_S800000_S50000_S850000_d0
def val_main_cst : (⟨S_, .f32⟩ : BufTy).Contents (Elt F) :=
  constant S_ .f32 0x3F800000#32
theorem val_main_cst_apply (i : S_.Idx) :
    val_main_cst (F := F) i = FloatOps.ofBits .f32 0x3F800000#32 := rfl
def val_main_v7 : (⟨S850000, .f32⟩ : BufTy).Contents (Elt F) :=
  broadcastInDim S850000 ![] bcast_S_S850000 (val_main_cst (F := F))
abbrev idx_main_v7 (i : S850000.Idx) : S_.Idx := fun a => a.elim0
theorem val_main_v7_apply (i : S850000.Idx) :
    val_main_v7 (F := F) i = val_main_cst (F := F) (idx_main_v7 i) := by
  unfold val_main_v7
  generalize val_main_cst (F := F) = y
  exact broadcastInDim_apply _ bcast_S_S850000 y i (idx_main_v7 i) (fun a => a.elim0)
def val_main_v8 (x0 : (⟨S50000x128, .f32⟩ : BufTy).Contents (Elt F)) (x2 : (⟨S128x256, .f32⟩ : BufTy).Contents (Elt F)) : (⟨S50000x256, .f32⟩ : BufTy).Contents (Elt F) :=
  Host.dotGeneral dot_S50000x128_S128x256_S50000x256_1_0_0_1_n_n none (x0) (x2)
theorem lhs_main_v8_0 (i : S50000x256.Idx) (q : dot_S50000x128_S128x256_S50000x256_1_0_0_1_n_n.contr.Idx) :
    (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem lhs_main_v8_1 (i : S50000x256.Idx) (q : dot_S50000x128_S128x256_S50000x256_1_0_0_1_n_n.contr.Idx) :
    (dot_S50000x128_S128x256_S50000x256_1_0_0_1_n_n.lhsIdx i q 1).val = (q ⟨0, by decide⟩).val :=
  dot_S50000x128_S128x256_S50000x256_1_0_0_1_n_n.lhsIdx_val_of_single rfl i q
theorem rhs_main_v8_0 (i : S50000x256.Idx) (q : dot_S50000x128_S128x256_S50000x256_1_0_0_1_n_n.contr.Idx) :
    (dot_S50000x128_S128x256_S50000x256_1_0_0_1_n_n.rhsIdx i q 0).val = (q ⟨0, by decide⟩).val :=
  dot_S50000x128_S128x256_S50000x256_1_0_0_1_n_n.rhsIdx_val_of_single rfl i q
theorem rhs_main_v8_1 (i : S50000x256.Idx) (q : dot_S50000x128_S128x256_S50000x256_1_0_0_1_n_n.contr.Idx) :
    (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl
abbrev lidx_main_v8 (i : S50000x256.Idx) (k : Fin 128) : S50000x128.Idx := fun a => match a with
  | ⟨0, _⟩ => ⟨(i 0).val, (i 0).isLt⟩
  | ⟨1, _⟩ => ⟨k.val, k.isLt⟩
abbrev ridx_main_v8 (i : S50000x256.Idx) (k : Fin 128) : S128x256.Idx := fun a => match a with
  | ⟨0, _⟩ => ⟨k.val, k.isLt⟩
  | ⟨1, _⟩ => ⟨(i 1).val, (i 1).isLt⟩
theorem val_main_v8_apply (x0 : (⟨S50000x128, .f32⟩ : BufTy).Contents (Elt Ideal)) (x2 : (⟨S128x256, .f32⟩ : BufTy).Contents (Elt Ideal)) (i : S50000x256.Idx) :
    val_main_v8 (F := Ideal) x0 x2 i = ∑ k : Fin 128, x0 (lidx_main_v8 i k) * x2 (ridx_main_v8 i k) := by
  unfold val_main_v8
  simp only [Host.dotGeneral]
  rw [Ideal.dotGeneral_apply, ← Equiv.sum_comp (ValueIdx.contrEquiv1 dot_S50000x128_S128x256_S50000x256_1_0_0_1_n_n 128 rfl rfl).symm]
  refine Finset.sum_congr rfl fun k _ => ?_
  have hk := ValueIdx.contrEquiv1_symm_val dot_S50000x128_S128x256_S50000x256_1_0_0_1_n_n 128 rfl rfl k
  have el : dot_S50000x128_S128x256_S50000x256_1_0_0_1_n_n.lhsIdx i ((ValueIdx.contrEquiv1 dot_S50000x128_S128x256_S50000x256_1_0_0_1_n_n 128 rfl rfl).symm k) = lidx_main_v8 i k := funext fun a => Fin.ext (by
    match a with
    | ⟨0, _⟩ => exact lhs_main_v8_0 _ _
    | ⟨1, _⟩ => exact (lhs_main_v8_1 _ _).trans hk)
  have er : dot_S50000x128_S128x256_S50000x256_1_0_0_1_n_n.rhsIdx i ((ValueIdx.contrEquiv1 dot_S50000x128_S128x256_S50000x256_1_0_0_1_n_n 128 rfl rfl).symm k) = ridx_main_v8 i k := funext fun a => Fin.ext (by
    match a with
    | ⟨0, _⟩ => exact (rhs_main_v8_0 _ _).trans hk
    | ⟨1, _⟩ => exact rhs_main_v8_1 _ _)
  rw [el, er]
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl
def val_main_v9 : (⟨S50000, .f32⟩ : BufTy).Contents (Elt F) :=
  broadcastInDim S50000 ![] bcast_S_S50000 (val_main_cst_0 (F := F))
abbrev idx_main_v9 (i : S50000.Idx) : S_.Idx := fun a => a.elim0
theorem val_main_v9_apply (i : S50000.Idx) :
    val_main_v9 (F := F) i = val_main_cst_0 (F := F) (idx_main_v9 i) := by
  unfold val_main_v9
  generalize val_main_cst_0 (F := F) = y
  exact broadcastInDim_apply _ bcast_S_S50000 y i (idx_main_v9 i) (fun a => a.elim0)
def val_main_v10 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)
def val_main_v11 (x1 : (⟨S2x800000, .i32⟩ : BufTy).Contents (Elt F)) : (⟨S50000, .f32⟩ : BufTy).Contents (Elt F) :=
  Host.scatterAdd scatter_S50000_S850000x1_S850000_n_0_0_1 (val_main_v9 (F := F)) (val_main_v10 (F := F) x1) (val_main_v7 (F := F))
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl
def val_main_v12 : (⟨S50000, .f32⟩ : BufTy).Contents (Elt F) :=
  broadcastInDim S50000 ![] bcast_S_S50000 (val_main_cst_1 (F := F))
abbrev idx_main_v12 (i : S50000.Idx) : S_.Idx := fun a => a.elim0
theorem val_main_v12_apply (i : S50000.Idx) :
    val_main_v12 (F := F) i = val_main_cst_1 (F := F) (idx_main_v12 i) := by
  unfold val_main_v12
  generalize val_main_cst_1 (F := F) = y
  exact broadcastInDim_apply _ bcast_S_S50000 y i (idx_main_v12 i) (fun a => a.elim0)
def val_main_v13 (x1 : (⟨S2x800000, .i32⟩ : BufTy).Contents (Elt F)) : (⟨S50000, .i1⟩ : BufTy).Contents (Elt F) :=
  cmpf .ogt (val_main_v11 (F := F) x1) (val_main_v12 (F := F))
theorem val_main_v13_apply (x1 : (⟨S2x800000, .i32⟩ : BufTy).Contents (Elt F)) (i : S50000.Idx) :
    val_main_v13 (F := F) x1 i = FloatOps.cmpf .ogt (val_main_v11 (F := F) x1 i) (val_main_v12 (F := F) i) := rfl
def val_main_v14 (x1 : (⟨S2x800000, .i32⟩ : BufTy).Contents (Elt F)) : (⟨S50000, .f32⟩ : BufTy).Contents (Elt F) :=
  Host.rsqrt (val_main_v11 (F := F) x1)
theorem val_main_v14_apply (x1 : (⟨S2x800000, .i32⟩ : BufTy).Contents (Elt F)) (i : S50000.Idx) :
    val_main_v14 (F := F) x1 i = FloatOps.hostUnary .rsqrt (val_main_v11 (F := F) x1 i) := rfl
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl
def val_main_call0_v0 : (⟨S_, .f32⟩ : BufTy).Contents (Elt F) :=
  id (val_main_cst_2 (F := F))
theorem val_main_call0_v0_apply (i : S_.Idx) :
    val_main_call0_v0 (F := F) i = (val_main_cst_2 (F := F) i) := rfl
def val_main_call0_v1 : (⟨S50000, .f32⟩ : BufTy).Contents (Elt F) :=
  broadcastInDim S50000 ![] bcast_S_S50000 (val_main_call0_v0 (F := F))
abbrev idx_main_call0_v1 (i : S50000.Idx) : S_.Idx := fun a => a.elim0
theorem val_main_call0_v1_apply (i : S50000.Idx) :
    val_main_call0_v1 (F := F) i = val_main_call0_v0 (F := F) (idx_main_call0_v1 i) := by
  unfold val_main_call0_v1
  generalize val_main_call0_v0 (F := F) = y
  exact broadcastInDim_apply _ bcast_S_S50000 y i (idx_main_call0_v1 i) (fun a => a.elim0)
def val_main_v15 (x1 : (⟨S2x800000, .i32⟩ : BufTy).Contents (Elt F)) : (⟨S50000, .f32⟩ : BufTy).Contents (Elt F) :=
  select (val_main_v13 (F := F) x1) (val_main_v14 (F := F) x1) (val_main_call0_v1 (F := F))
theorem val_main_v15_apply (x1 : (⟨S2x800000, .i32⟩ : BufTy).Contents (Elt F)) (i : S50000.Idx) :
    val_main_v15 (F := F) x1 i = Scalar.select (val_main_v13 (F := F) x1 i) (val_main_v14 (F := F) x1 i) (val_main_call0_v1 (F := F) i) := rfl
def val_main_c : (⟨S_, .i32⟩ : BufTy).Contents (Elt F) :=
  constantI S_ 32 0#32
def val_main_v16 : (⟨S850000, .i32⟩ : BufTy).Contents (Elt F) :=
  broadcastInDim S850000 ![] bcast_S_S850000 (val_main_c (F := F))
def val_main_v17 (x1 : (⟨S2x800000, .i32⟩ : BufTy).Contents (Elt F)) : (⟨S850000, .i1⟩ : BufTy).Contents (Elt F) :=
  cmpi .slt (val_main_v3 (F := F) x1) (val_main_v16 (F := F))
def val_main_c_3 : (⟨S_, .i32⟩ : BufTy).Contents (Elt F) :=
  constantI S_ 32 50000#32
def val_main_v18 : (⟨S850000, .i32⟩ : BufTy).Contents (Elt F) :=
  broadcastInDim S850000 ![] bcast_S_S850000 (val_main_c_3 (F := F))
def val_main_v19 (x1 : (⟨S2x800000, .i32⟩ : BufTy).Contents (Elt F)) : (⟨S850000, .i32⟩ : BufTy).Contents (Elt F) :=
  addi (val_main_v3 (F := F) x1) (val_main_v18 (F := F))
def val_main_v20 (x1 : (⟨S2x800000, .i32⟩ : BufTy).Contents (Elt F)) : (⟨S850000, .i32⟩ : BufTy).Contents (Elt F) :=
  select (val_main_v17 (F := F) x1) (val_main_v19 (F := F) x1) (val_main_v3 (F := F) x1)
def val_main_v21 (x1 : (⟨S2x800000, .i32⟩ : BufTy).Contents (Elt F)) : (⟨S850000x1, .i32⟩ : BufTy).Contents (Elt F) :=
  broadcastInDim S850000x1 ![0] bcast_S850000_S850000x1_0 (val_main_v20 (F := F) x1)
def val_main_v22 (x1 : (⟨S2x800000, .i32⟩ : BufTy).Contents (Elt F)) : (⟨S850000, .f32⟩ : BufTy).Contents (Elt F) :=
  Host.gather gather_S50000_S850000x1_S850000_n_0_n_n_0_1_1 (val_main_v15 (F := F) x1) (val_main_v21 (F := F) x1)
def val_main_v23 (x1 : (⟨S2x800000, .i32⟩ : BufTy).Contents (Elt F)) : (⟨S850000, .f32⟩ : BufTy).Contents (Elt F) :=
  mulf (val_main_v22 (F := F) x1) (val_main_v7 (F := F))
theorem val_main_v23_apply (x1 : (⟨S2x800000, .i32⟩ : BufTy).Contents (Elt F)) (i : S850000.Idx) :
    val_main_v23 (F := F) x1 i = FloatOps.mulf (val_main_v22 (F := F) x1 i) (val_main_v7 (F := F) i) := rfl
def val_main_c_4 : (⟨S_, .i32⟩ : BufTy).Contents (Elt F) :=
  constantI S_ 32 0#32
def val_main_v24 : (⟨S850000, .i32⟩ : BufTy).Contents (Elt F) :=
  broadcastInDim S850000 ![] bcast_S_S850000 (val_main_c_4 (F := F))
def val_main_v25 (x1 : (⟨S2x800000, .i32⟩ : BufTy).Contents (Elt F)) : (⟨S850000, .i1⟩ : BufTy).Contents (Elt F) :=
  cmpi .slt (val_main_v6 (F := F) x1) (val_main_v24 (F := F))
def val_main_c_5 : (⟨S_, .i32⟩ : BufTy).Contents (Elt F) :=
  constantI S_ 32 50000#32
def val_main_v26 : (⟨S850000, .i32⟩ : BufTy).Contents (Elt F) :=
  broadcastInDim S850000 ![] bcast_S_S850000 (val_main_c_5 (F := F))
def val_main_v27 (x1 : (⟨S2x800000, .i32⟩ : BufTy).Contents (Elt F)) : (⟨S850000, .i32⟩ : BufTy).Contents (Elt F) :=
  addi (val_main_v6 (F := F) x1) (val_main_v26 (F := F))
def val_main_v28 (x1 : (⟨S2x800000, .i32⟩ : BufTy).Contents (Elt F)) : (⟨S850000, .i32⟩ : BufTy).Contents (Elt F) :=
  select (val_main_v25 (F := F) x1) (val_main_v27 (F := F) x1) (val_main_v6 (F := F) x1)
def val_main_v29 (x1 : (⟨S2x800000, .i32⟩ : BufTy).Contents (Elt F)) : (⟨S850000x1, .i32⟩ : BufTy).Contents (Elt F) :=
  broadcastInDim S850000x1 ![0] bcast_S850000_S850000x1_0 (val_main_v28 (F := F) x1)
def val_main_v30 (x1 : (⟨S2x800000, .i32⟩ : BufTy).Contents (Elt F)) : (⟨S850000, .f32⟩ : BufTy).Contents (Elt F) :=
  Host.gather gather_S50000_S850000x1_S850000_n_0_n_n_0_1_1 (val_main_v15 (F := F) x1) (val_main_v29 (F := F) x1)
def val_main_v31 (x1 : (⟨S2x800000, .i32⟩ : BufTy).Contents (Elt F)) : (⟨S850000, .f32⟩ : BufTy).Contents (Elt F) :=
  mulf (val_main_v23 (F := F) x1) (val_main_v30 (F := F) x1)
theorem val_main_v31_apply (x1 : (⟨S2x800000, .i32⟩ : BufTy).Contents (Elt F)) (i : S850000.Idx) :
    val_main_v31 (F := F) x1 i = FloatOps.mulf (val_main_v23 (F := F) x1 i) (val_main_v30 (F := F) x1 i) := rfl
def val_main_c_6 : (⟨S_, .i32⟩ : BufTy).Contents (Elt F) :=
  constantI S_ 32 0#32
def val_main_v32 : (⟨S850000, .i32⟩ : BufTy).Contents (Elt F) :=
  broadcastInDim S850000 ![] bcast_S_S850000 (val_main_c_6 (F := F))
def val_main_v33 (x1 : (⟨S2x800000, .i32⟩ : BufTy).Contents (Elt F)) : (⟨S850000, .i1⟩ : BufTy).Contents (Elt F) :=
  cmpi .slt (val_main_v3 (F := F) x1) (val_main_v32 (F := F))
def val_main_c_7 : (⟨S_, .i32⟩ : BufTy).Contents (Elt F) :=
  constantI S_ 32 50000#32
def val_main_v34 : (⟨S850000, .i32⟩ : BufTy).Contents (Elt F) :=
  broadcastInDim S850000 ![] bcast_S_S850000 (val_main_c_7 (F := F))
def val_main_v35 (x1 : (⟨S2x800000, .i32⟩ : BufTy).Contents (Elt F)) : (⟨S850000, .i32⟩ : BufTy).Contents (Elt F) :=
  addi (val_main_v3 (F := F) x1) (val_main_v34 (F := F))
def val_main_v36 (x1 : (⟨S2x800000, .i32⟩ : BufTy).Contents (Elt F)) : (⟨S850000, .i32⟩ : BufTy).Contents (Elt F) :=
  select (val_main_v33 (F := F) x1) (val_main_v35 (F := F) x1) (val_main_v3 (F := F) x1)
def val_main_v37 (x1 : (⟨S2x800000, .i32⟩ : BufTy).Contents (Elt F)) : (⟨S850000x1, .i32⟩ : BufTy).Contents (Elt F) :=
  broadcastInDim S850000x1 ![0] bcast_S850000_S850000x1_0 (val_main_v36 (F := F) x1)
def val_main_v38 (x0 : (⟨S50000x128, .f32⟩ : BufTy).Contents (Elt F)) (x1 : (⟨S2x800000, .i32⟩ : BufTy).Contents (Elt F)) (x2 : (⟨S128x256, .f32⟩ : BufTy).Contents (Elt F)) : (⟨S850000x256, .f32⟩ : BufTy).Contents (Elt F) :=
  Host.gather gather_S50000x256_S850000x1_S850000x256_1_0_n_n_0_1_1256 (val_main_v8 (F := F) x0 x2) (val_main_v37 (F := F) x1)
def val_main_v39 (x1 : (⟨S2x800000, .i32⟩ : BufTy).Contents (Elt F)) : (⟨S850000x1, .f32⟩ : BufTy).Contents (Elt F) :=
  broadcastInDim S850000x1 ![0] bcast_S850000_S850000x1_0 (val_main_v31 (F := F) x1)
abbrev idx_main_v39 (i : S850000x1.Idx) : S850000.Idx := fun a => match a with
  | ⟨0, _⟩ => ⟨(i 0).val, (i 0).isLt⟩
theorem val_main_v39_apply (x1 : (⟨S2x800000, .i32⟩ : BufTy).Contents (Elt F)) (i : S850000x1.Idx) :
    val_main_v39 (F := F) x1 i = val_main_v31 (F := F) x1 (idx_main_v39 i) := by
  unfold val_main_v39
  generalize val_main_v31 (F := F) x1 = y
  exact broadcastInDim_apply _ bcast_S850000_S850000x1_0 y i (idx_main_v39 i) (fun a => match a with
    | ⟨0, _⟩ => by show (i 0).val = if (850000 : Nat) = 1 then 0 else (i 0).val; rw [if_neg (by decide)])
def val_main_v40 (x1 : (⟨S2x800000, .i32⟩ : BufTy).Contents (Elt F)) : (⟨S850000x256, .f32⟩ : BufTy).Contents (Elt F) :=
  broadcastInDim S850000x256 ![0, 1] bcast_S850000x1_S850000x256_0_1 (val_main_v39 (F := F) x1)
abbrev idx_main_v40 (i : S850000x256.Idx) : S850000x1.Idx := fun a => match a with
  | ⟨0, _⟩ => ⟨(i 0).val, (i 0).isLt⟩
  | ⟨1, _⟩ => ⟨0, Nat.one_pos⟩
theorem val_main_v40_apply (x1 : (⟨S2x800000, .i32⟩ : BufTy).Contents (Elt F)) (i : S850000x256.Idx) :
    val_main_v40 (F := F) x1 i = val_main_v39 (F := F) x1 (idx_main_v40 i) := by
  unfold val_main_v40
  generalize val_main_v39 (F := F) x1 = y
  exact broadcastInDim_apply _ bcast_S850000x1_S850000x256_0_1 y i (idx_main_v40 i) (fun a => match a with
    | ⟨0, _⟩ => by show (i 0).val = if (850000 : Nat) = 1 then 0 else (i 0).val; rw [if_neg (by decide)]
    | ⟨1, _⟩ => by show 0 = if (1 : Nat) = 1 then 0 else (i 1).val; rw [if_pos rfl])
def val_main_v41 (x0 : (⟨S50000x128, .f32⟩ : BufTy).Contents (Elt F)) (x1 : (⟨S2x800000, .i32⟩ : BufTy).Contents (Elt F)) (x2 : (⟨S128x256, .f32⟩ : BufTy).Contents (Elt F)) : (⟨S850000x256, .f32⟩ : BufTy).Contents (Elt F) :=
  mulf (val_main_v38 (F := F) x0 x1 x2) (val_main_v40 (F := F) x1)
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl
def val_main_v42 : (⟨S50000x256, .f32⟩ : BufTy).Contents (Elt F) :=
  broadcastInDim S50000x256 ![] bcast_S_S50000x256 (val_main_cst_8 (F := F))
abbrev idx_main_v42 (i : S50000x256.Idx) : S_.Idx := fun a => a.elim0
theorem val_main_v42_apply (i : S50000x256.Idx) :
    val_main_v42 (F := F) i = val_main_cst_8 (F := F) (idx_main_v42 i) := by
  unfold val_main_v42
  generalize val_main_cst_8 (F := F) = y
  exact broadcastInDim_apply _ bcast_S_S50000x256 y i (idx_main_v42 i) (fun a => a.elim0)
def val_main_v43 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)
def val_main_v44 (x0 : (⟨S50000x128, .f32⟩ : BufTy).Contents (Elt F)) (x1 : (⟨S2x800000, .i32⟩ : BufTy).Contents (Elt F)) (x2 : (⟨S128x256, .f32⟩ : BufTy).Contents (Elt F)) : (⟨S50000x256, .f32⟩ : BufTy).Contents (Elt F) :=
  Host.scatterAdd scatter_S50000x256_S850000x1_S850000x256_1_0_0_1 (val_main_v42 (F := F)) (val_main_v43 (F := F) x1) (val_main_v41 (F := F) x0 x1 x2)
def val_main_v45 (x3 : (⟨S256, .f32⟩ : BufTy).Contents (Elt F)) : (⟨S1x256, .f32⟩ : BufTy).Contents (Elt F) :=
  broadcastInDim S1x256 ![1] bcast_S256_S1x256_1 (x3)
abbrev idx_main_v45 (i : S1x256.Idx) : S256.Idx := fun a => match a with
  | ⟨0, _⟩ => ⟨(i 1).val, (i 1).isLt⟩
theorem val_main_v45_apply (x3 : (⟨S256, .f32⟩ : BufTy).Contents (Elt F)) (i : S1x256.Idx) :
    val_main_v45 (F := F) x3 i = x3 (idx_main_v45 i) := by
  unfold val_main_v45
  exact broadcastInDim_apply _ bcast_S256_S1x256_1 x3 i (idx_main_v45 i) (fun a => match a with
    | ⟨0, _⟩ => by show (i 1).val = if (256 : Nat) = 1 then 0 else (i 1).val; rw [if_neg (by decide)])
def val_main_v46 (x3 : (⟨S256, .f32⟩ : BufTy).Contents (Elt F)) : (⟨S50000x256, .f32⟩ : BufTy).Contents (Elt F) :=
  broadcastInDim S50000x256 ![0, 1] bcast_S1x256_S50000x256_0_1 (val_main_v45 (F := F) x3)
abbrev idx_main_v46 (i : S50000x256.Idx) : S1x256.Idx := fun a => match a with
  | ⟨0, _⟩ => ⟨0, Nat.one_pos⟩
  | ⟨1, _⟩ => ⟨(i 1).val, (i 1).isLt⟩
theorem val_main_v46_apply (x3 : (⟨S256, .f32⟩ : BufTy).Contents (Elt F)) (i : S50000x256.Idx) :
    val_main_v46 (F := F) x3 i = val_main_v45 (F := F) x3 (idx_main_v46 i) := by
  unfold val_main_v46
  generalize val_main_v45 (F := F) x3 = y
  exact broadcastInDim_apply _ bcast_S1x256_S50000x256_0_1 y i (idx_main_v46 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])
def val_main_v47 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S50000x256, .f32⟩ : BufTy).Contents (Elt F) :=
  addf (val_main_v44 (F := F) x0 x1 x2) (val_main_v46 (F := F) x3)
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl
def val_main_v48 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S256, .f32⟩ : BufTy).Contents (Elt F) :=
  Host.reduceAdd (val_main_v47 (F := F) x0 x1 x2 x3) (val_main_cst_9 (F := F)) reducesTo_S50000x256_S256_d0 h_S_
def val_main_cst_10 : (⟨S_, .f32⟩ : BufTy).Contents (Elt F) :=
  constant S_ .f32 0x47435000#32
theorem val_main_cst_10_apply (i : S_.Idx) :
    val_main_cst_10 (F := F) i = FloatOps.ofBits .f32 0x47435000#32 := rfl
def val_main_v49 : (⟨S256, .f32⟩ : BufTy).Contents (Elt F) :=
  broadcastInDim S256 ![] bcast_S_S256 (val_main_cst_10 (F := F))
abbrev idx_main_v49 (i : S256.Idx) : S_.Idx := fun a => a.elim0
theorem val_main_v49_apply (i : S256.Idx) :
    val_main_v49 (F := F) i = val_main_cst_10 (F := F) (idx_main_v49 i) := by
  unfold val_main_v49
  generalize val_main_cst_10 (F := F) = y
  exact broadcastInDim_apply _ bcast_S_S256 y i (idx_main_v49 i) (fun a => a.elim0)
def val_main_v50 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S256, .f32⟩ : BufTy).Contents (Elt F) :=
  Host.divf (val_main_v48 (F := F) x0 x1 x2 x3) (val_main_v49 (F := F))
def val_main_v51 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S1x256, .f32⟩ : BufTy).Contents (Elt F) :=
  broadcastInDim S1x256 ![1] bcast_S256_S1x256_1 (val_main_v50 (F := F) x0 x1 x2 x3)
def val_main_v52 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S50000x256, .f32⟩ : BufTy).Contents (Elt F) :=
  broadcastInDim S50000x256 ![0, 1] bcast_S1x256_S50000x256_0_1 (val_main_v51 (F := F) x0 x1 x2 x3)
def val_main_v53 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S50000x256, .f32⟩ : BufTy).Contents (Elt F) :=
  subf (val_main_v47 (F := F) x0 x1 x2 x3) (val_main_v52 (F := F) x0 x1 x2 x3)
def val_main_v54 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S50000x256, .f32⟩ : BufTy).Contents (Elt F) :=
  mulf (val_main_v53 (F := F) x0 x1 x2 x3) (val_main_v53 (F := F) x0 x1 x2 x3)
def val_main_cst_11 : (⟨S_, .f32⟩ : BufTy).Contents (Elt F) :=
  constant S_ .f32 0x00000000#32
def val_main_v55 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S256, .f32⟩ : BufTy).Contents (Elt F) :=
  Host.reduceAdd (val_main_v54 (F := F) x0 x1 x2 x3) (val_main_cst_11 (F := F)) reducesTo_S50000x256_S256_d0 h_S_
def val_main_cst_12 : (⟨S_, .f32⟩ : BufTy).Contents (Elt F) :=
  constant S_ .f32 0x47435000#32
def val_main_v56 : (⟨S256, .f32⟩ : BufTy).Contents (Elt F) :=
  broadcastInDim S256 ![] bcast_S_S256 (val_main_cst_12 (F := F))
def val_main_v57 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S256, .f32⟩ : BufTy).Contents (Elt F) :=
  Host.divf (val_main_v55 (F := F) x0 x1 x2 x3) (val_main_v56 (F := F))
def val_main_v58 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S1x256, .f32⟩ : BufTy).Contents (Elt F) :=
  broadcastInDim S1x256 ![1] bcast_S256_S1x256_1 (val_main_v50 (F := F) x0 x1 x2 x3)
def val_main_v59 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S50000x256, .f32⟩ : BufTy).Contents (Elt F) :=
  broadcastInDim S50000x256 ![0, 1] bcast_S1x256_S50000x256_0_1 (val_main_v58 (F := F) x0 x1 x2 x3)
def val_main_v60 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S50000x256, .f32⟩ : BufTy).Contents (Elt F) :=
  subf (val_main_v47 (F := F) x0 x1 x2 x3) (val_main_v59 (F := F) x0 x1 x2 x3)
def val_main_cst_13 : (⟨S_, .f32⟩ : BufTy).Contents (Elt F) :=
  constant S_ .f32 0x3727C5AC#32
theorem val_main_cst_13_apply (i : S_.Idx) :
    val_main_cst_13 (F := F) i = FloatOps.ofBits .f32 0x3727C5AC#32 := rfl
def val_main_v61 : (⟨S256, .f32⟩ : BufTy).Contents (Elt F) :=
  broadcastInDim S256 ![] bcast_S_S256 (val_main_cst_13 (F := F))
abbrev idx_main_v61 (i : S256.Idx) : S_.Idx := fun a => a.elim0
theorem val_main_v61_apply (i : S256.Idx) :
    val_main_v61 (F := F) i = val_main_cst_13 (F := F) (idx_main_v61 i) := by
  unfold val_main_v61
  generalize val_main_cst_13 (F := F) = y
  exact broadcastInDim_apply _ bcast_S_S256 y i (idx_main_v61 i) (fun a => a.elim0)
def val_main_v62 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S256, .f32⟩ : BufTy).Contents (Elt F) :=
  addf (val_main_v57 (F := F) x0 x1 x2 x3) (val_main_v61 (F := F))
def val_main_v63 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S256, .f32⟩ : BufTy).Contents (Elt F) :=
  Host.rsqrt (val_main_v62 (F := F) x0 x1 x2 x3)
def val_main_v64 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S1x256, .f32⟩ : BufTy).Contents (Elt F) :=
  broadcastInDim S1x256 ![1] bcast_S256_S1x256_1 (val_main_v63 (F := F) x0 x1 x2 x3)
def val_main_v65 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S50000x256, .f32⟩ : BufTy).Contents (Elt F) :=
  broadcastInDim S50000x256 ![0, 1] bcast_S1x256_S50000x256_0_1 (val_main_v64 (F := F) x0 x1 x2 x3)
def val_main_v66 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) : (⟨S50000x256, .f32⟩ : BufTy).Contents (Elt F) :=
  mulf (val_main_v60 (F := F) x0 x1 x2 x3) (val_main_v65 (F := F) x0 x1 x2 x3)
def val_main_v67 (x4 : (⟨S256, .f32⟩ : BufTy).Contents (Elt F)) : (⟨S1x256, .f32⟩ : BufTy).Contents (Elt F) :=
  broadcastInDim S1x256 ![1] bcast_S256_S1x256_1 (x4)
def val_main_v68 (x4 : (⟨S256, .f32⟩ : BufTy).Contents (Elt F)) : (⟨S50000x256, .f32⟩ : BufTy).Contents (Elt F) :=
  broadcastInDim S50000x256 ![0, 1] bcast_S1x256_S50000x256_0_1 (val_main_v67 (F := F) x4)
def val_main_v69 (x0 : (⟨S50000x128, .f32⟩ : BufTy).Contents (Elt F)) (x1 : (⟨S2x800000, .i32⟩ : BufTy).Contents (Elt F)) (x2 : (⟨S128x256, .f32⟩ : BufTy).Contents (Elt F)) (x3 x4 : (⟨S256, .f32⟩ : BufTy).Contents (Elt F)) : (⟨S50000x256, .f32⟩ : BufTy).Contents (Elt F) :=
  mulf (val_main_v66 (F := F) x0 x1 x2 x3) (val_main_v68 (F := F) x4)
def val_main_v70 (x5 : (⟨S256, .f32⟩ : BufTy).Contents (Elt F)) : (⟨S1x256, .f32⟩ : BufTy).Contents (Elt F) :=
  broadcastInDim S1x256 ![1] bcast_S256_S1x256_1 (x5)
def val_main_v71 (x5 : (⟨S256, .f32⟩ : BufTy).Contents (Elt F)) : (⟨S50000x256, .f32⟩ : BufTy).Contents (Elt F) :=
  broadcastInDim S50000x256 ![0, 1] bcast_S1x256_S50000x256_0_1 (val_main_v70 (F := F) x5)
def val_main_v72 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) : (⟨S50000x256, .f32⟩ : BufTy).Contents (Elt F) :=
  addf (val_main_v69 (F := F) x0 x1 x2 x3 x4) (val_main_v71 (F := F) x5)
def val_main_cst_14 : (⟨S_, .f32⟩ : BufTy).Contents (Elt F) :=
  constant S_ .f32 0x00000000#32
theorem val_main_cst_14_apply (i : S_.Idx) :
    val_main_cst_14 (F := F) i = FloatOps.ofBits .f32 0x00000000#32 := rfl
def val_main_v73 : (⟨S50000x256, .f32⟩ : BufTy).Contents (Elt F) :=
  broadcastInDim S50000x256 ![] bcast_S_S50000x256 (val_main_cst_14 (F := F))
abbrev idx_main_v73 (i : S50000x256.Idx) : S_.Idx := fun a => a.elim0
theorem val_main_v73_apply (i : S50000x256.Idx) :
    val_main_v73 (F := F) i = val_main_cst_14 (F := F) (idx_main_v73 i) := by
  unfold val_main_v73
  generalize val_main_cst_14 (F := F) = y
  exact broadcastInDim_apply _ bcast_S_S50000x256 y i (idx_main_v73 i) (fun a => a.elim0)
def val_main_v74 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) : (⟨S50000x256, .i1⟩ : BufTy).Contents (Elt F) :=
  cmpf .ogt (val_main_v72 (F := F) x0 x1 x2 x3 x4 x5) (val_main_v73 (F := F))
def val_main_v75 (x6 : (⟨S1, .f32⟩ : BufTy).Contents (Elt F)) : (⟨S_, .f32⟩ : BufTy).Contents (Elt F) :=
  shapeCast _ (x6) shapeCasts_S1_S_
def val_main_v76 (x6 : (⟨S1, .f32⟩ : BufTy).Contents (Elt F)) : (⟨S50000x256, .f32⟩ : BufTy).Contents (Elt F) :=
  broadcastInDim S50000x256 ![] bcast_S_S50000x256 (val_main_v75 (F := F) x6)
abbrev idx_main_v76 (i : S50000x256.Idx) : S_.Idx := fun a => a.elim0
theorem val_main_v76_apply (x6 : (⟨S1, .f32⟩ : BufTy).Contents (Elt F)) (i : S50000x256.Idx) :
    val_main_v76 (F := F) x6 i = val_main_v75 (F := F) x6 (idx_main_v76 i) := by
  unfold val_main_v76
  generalize val_main_v75 (F := F) x6 = y
  exact broadcastInDim_apply _ bcast_S_S50000x256 y i (idx_main_v76 i) (fun a => a.elim0)
def val_main_v77 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) : (⟨S50000x256, .f32⟩ : BufTy).Contents (Elt F) :=
  mulf (val_main_v76 (F := F) x6) (val_main_v72 (F := F) x0 x1 x2 x3 x4 x5)
def val_main_v78 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) : (⟨S50000x256, .f32⟩ : BufTy).Contents (Elt F) :=
  select (val_main_v74 (F := F) x0 x1 x2 x3 x4 x5) (val_main_v72 (F := F) x0 x1 x2 x3 x4 x5) (val_main_v77 (F := F) x0 x1 x2 x3 x4 x5 x6)
def val_main_v79 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) : (⟨S50000x256, .f32⟩ : BufTy).Contents (Elt F) :=
  Host.dotGeneral dot_S50000x256_S256x256_S50000x256_1_0_0_1_n_n none (val_main_v78 (F := F) x0 x1 x2 x3 x4 x5 x6) (x7)
theorem lhs_main_v79_0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem lhs_main_v79_1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
theorem rhs_main_v79_0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
theorem rhs_main_v79_1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl
abbrev lidx_main_v79 (i : S50000x256.Idx) (k : Fin 256) : S50000x256.Idx := fun a => match a with
  | ⟨0, _⟩ => ⟨(i 0).val, (i 0).isLt⟩
  | ⟨1, _⟩ => ⟨k.val, k.isLt⟩
abbrev ridx_main_v79 (i : S50000x256.Idx) (k : Fin 256) : S256x256.Idx := fun a => match a with
  | ⟨0, _⟩ => ⟨k.val, k.isLt⟩
  | ⟨1, _⟩ => ⟨(i 1).val, (i 1).isLt⟩
theorem val_main_v79_apply (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal)) (x6 : (⟨S1, .f32⟩ : BufTy).Contents (Elt Ideal)) (x7 : (⟨S256x256, .f32⟩ : BufTy).Contents (Elt Ideal)) (i : S50000x256.Idx) :
    val_main_v79 (F := Ideal) x0 x1 x2 x3 x4 x5 x6 x7 i = ∑ k : Fin 256, (val_main_v78 (F := Ideal) x0 x1 x2 x3 x4 x5 x6) (lidx_main_v79 i k) * x7 (ridx_main_v79 i k) := by
  unfold val_main_v79
  generalize val_main_v78 (F := Ideal) x0 x1 x2 x3 x4 x5 x6 = y0
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx i ((ValueIdx.contrEquiv1 dot_S50000x256_S256x256_S50000x256_1_0_0_1_n_n 256 rfl rfl).symm k) = lidx_main_v79 i k := funext fun a => Fin.ext (by
    match a with
    | ⟨0, _⟩ => exact lhs_main_v79_0 _ _
    | ⟨1, _⟩ => exact (lhs_main_v79_1 _ _).trans hk)
  have er : dot_S50000x256_S256x256_S50000x256_1_0_0_1_n_n.rhsIdx i ((ValueIdx.contrEquiv1 dot_S50000x256_S256x256_S50000x256_1_0_0_1_n_n 256 rfl rfl).symm k) = ridx_main_v79 i k := funext fun a => Fin.ext (by
    match a with
    | ⟨0, _⟩ => exact (rhs_main_v79_0 _ _).trans hk
    | ⟨1, _⟩ => exact rhs_main_v79_1 _ _)
  rw [el, er]
def val_main_cst_15 : (⟨S_, .f32⟩ : BufTy).Contents (Elt F) :=
  constant S_ .f32 0x00000000#32
def val_main_v80 : (⟨S50000, .f32⟩ : BufTy).Contents (Elt F) :=
  broadcastInDim S50000 ![] bcast_S_S50000 (val_main_cst_15 (F := F))
def val_main_v81 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)
def val_main_v82 (x1 : (⟨S2x800000, .i32⟩ : BufTy).Contents (Elt F)) : (⟨S50000, .f32⟩ : BufTy).Contents (Elt F) :=
  Host.scatterAdd scatter_S50000_S850000x1_S850000_n_0_0_1 (val_main_v80 (F := F)) (val_main_v81 (F := F) x1) (val_main_v7 (F := F))
def val_main_cst_16 : (⟨S_, .f32⟩ : BufTy).Contents (Elt F) :=
  constant S_ .f32 0x00000000#32
def val_main_v83 : (⟨S50000, .f32⟩ : BufTy).Contents (Elt F) :=
  broadcastInDim S50000 ![] bcast_S_S50000 (val_main_cst_16 (F := F))
def val_main_v84 (x1 : (⟨S2x800000, .i32⟩ : BufTy).Contents (Elt F)) : (⟨S50000, .i1⟩ : BufTy).Contents (Elt F) :=
  cmpf .ogt (val_main_v82 (F := F) x1) (val_main_v83 (F := F))
def val_main_v85 (x1 : (⟨S2x800000, .i32⟩ : BufTy).Contents (Elt F)) : (⟨S50000, .f32⟩ : BufTy).Contents (Elt F) :=
  Host.rsqrt (val_main_v82 (F := F) x1)
def val_main_cst_17 : (⟨S_, .f32⟩ : BufTy).Contents (Elt F) :=
  constant S_ .f32 0x00000000#32
def val_main_call2_v0 : (⟨S_, .f32⟩ : BufTy).Contents (Elt F) :=
  id (val_main_cst_17 (F := F))
def val_main_call2_v1 : (⟨S50000, .f32⟩ : BufTy).Contents (Elt F) :=
  broadcastInDim S50000 ![] bcast_S_S50000 (val_main_call2_v0 (F := F))
def val_main_v86 (x1 : (⟨S2x800000, .i32⟩ : BufTy).Contents (Elt F)) : (⟨S50000, .f32⟩ : BufTy).Contents (Elt F) :=
  select (val_main_v84 (F := F) x1) (val_main_v85 (F := F) x1) (val_main_call2_v1 (F := F))
def val_main_c_18 : (⟨S_, .i32⟩ : BufTy).Contents (Elt F) :=
  constantI S_ 32 0#32
def val_main_v87 : (⟨S850000, .i32⟩ : BufTy).Contents (Elt F) :=
  broadcastInDim S850000 ![] bcast_S_S850000 (val_main_c_18 (F := F))
def val_main_v88 (x1 : (⟨S2x800000, .i32⟩ : BufTy).Contents (Elt F)) : (⟨S850000, .i1⟩ : BufTy).Contents (Elt F) :=
  cmpi .slt (val_main_v3 (F := F) x1) (val_main_v87 (F := F))
def val_main_c_19 : (⟨S_, .i32⟩ : BufTy).Contents (Elt F) :=
  constantI S_ 32 50000#32
def val_main_v89 : (⟨S850000, .i32⟩ : BufTy).Contents (Elt F) :=
  broadcastInDim S850000 ![] bcast_S_S850000 (val_main_c_19 (F := F))
def val_main_v90 (x1 : (⟨S2x800000, .i32⟩ : BufTy).Contents (Elt F)) : (⟨S850000, .i32⟩ : BufTy).Contents (Elt F) :=
  addi (val_main_v3 (F := F) x1) (val_main_v89 (F := F))
def val_main_v91 (x1 : (⟨S2x800000, .i32⟩ : BufTy).Contents (Elt F)) : (⟨S850000, .i32⟩ : BufTy).Contents (Elt F) :=
  select (val_main_v88 (F := F) x1) (val_main_v90 (F := F) x1) (val_main_v3 (F := F) x1)
def val_main_v92 (x1 : (⟨S2x800000, .i32⟩ : BufTy).Contents (Elt F)) : (⟨S850000x1, .i32⟩ : BufTy).Contents (Elt F) :=
  broadcastInDim S850000x1 ![0] bcast_S850000_S850000x1_0 (val_main_v91 (F := F) x1)
def val_main_v93 (x1 : (⟨S2x800000, .i32⟩ : BufTy).Contents (Elt F)) : (⟨S850000, .f32⟩ : BufTy).Contents (Elt F) :=
  Host.gather gather_S50000_S850000x1_S850000_n_0_n_n_0_1_1 (val_main_v86 (F := F) x1) (val_main_v92 (F := F) x1)
def val_main_v94 (x1 : (⟨S2x800000, .i32⟩ : BufTy).Contents (Elt F)) : (⟨S850000, .f32⟩ : BufTy).Contents (Elt F) :=
  mulf (val_main_v93 (F := F) x1) (val_main_v7 (F := F))
def val_main_c_20 : (⟨S_, .i32⟩ : BufTy).Contents (Elt F) :=
  constantI S_ 32 0#32
def val_main_v95 : (⟨S850000, .i32⟩ : BufTy).Contents (Elt F) :=
  broadcastInDim S850000 ![] bcast_S_S850000 (val_main_c_20 (F := F))
def val_main_v96 (x1 : (⟨S2x800000, .i32⟩ : BufTy).Contents (Elt F)) : (⟨S850000, .i1⟩ : BufTy).Contents (Elt F) :=
  cmpi .slt (val_main_v6 (F := F) x1) (val_main_v95 (F := F))
def val_main_c_21 : (⟨S_, .i32⟩ : BufTy).Contents (Elt F) :=
  constantI S_ 32 50000#32
def val_main_v97 : (⟨S850000, .i32⟩ : BufTy).Contents (Elt F) :=
  broadcastInDim S850000 ![] bcast_S_S850000 (val_main_c_21 (F := F))
def val_main_v98 (x1 : (⟨S2x800000, .i32⟩ : BufTy).Contents (Elt F)) : (⟨S850000, .i32⟩ : BufTy).Contents (Elt F) :=
  addi (val_main_v6 (F := F) x1) (val_main_v97 (F := F))
def val_main_v99 (x1 : (⟨S2x800000, .i32⟩ : BufTy).Contents (Elt F)) : (⟨S850000, .i32⟩ : BufTy).Contents (Elt F) :=
  select (val_main_v96 (F := F) x1) (val_main_v98 (F := F) x1) (val_main_v6 (F := F) x1)
def val_main_v100 (x1 : (⟨S2x800000, .i32⟩ : BufTy).Contents (Elt F)) : (⟨S850000x1, .i32⟩ : BufTy).Contents (Elt F) :=
  broadcastInDim S850000x1 ![0] bcast_S850000_S850000x1_0 (val_main_v99 (F := F) x1)
def val_main_v101 (x1 : (⟨S2x800000, .i32⟩ : BufTy).Contents (Elt F)) : (⟨S850000, .f32⟩ : BufTy).Contents (Elt F) :=
  Host.gather gather_S50000_S850000x1_S850000_n_0_n_n_0_1_1 (val_main_v86 (F := F) x1) (val_main_v100 (F := F) x1)
def val_main_v102 (x1 : (⟨S2x800000, .i32⟩ : BufTy).Contents (Elt F)) : (⟨S850000, .f32⟩ : BufTy).Contents (Elt F) :=
  mulf (val_main_v94 (F := F) x1) (val_main_v101 (F := F) x1)
def val_main_c_22 : (⟨S_, .i32⟩ : BufTy).Contents (Elt F) :=
  constantI S_ 32 0#32
def val_main_v103 : (⟨S850000, .i32⟩ : BufTy).Contents (Elt F) :=
  broadcastInDim S850000 ![] bcast_S_S850000 (val_main_c_22 (F := F))
def val_main_v104 (x1 : (⟨S2x800000, .i32⟩ : BufTy).Contents (Elt F)) : (⟨S850000, .i1⟩ : BufTy).Contents (Elt F) :=
  cmpi .slt (val_main_v3 (F := F) x1) (val_main_v103 (F := F))
def val_main_c_23 : (⟨S_, .i32⟩ : BufTy).Contents (Elt F) :=
  constantI S_ 32 50000#32
def val_main_v105 : (⟨S850000, .i32⟩ : BufTy).Contents (Elt F) :=
  broadcastInDim S850000 ![] bcast_S_S850000 (val_main_c_23 (F := F))
def val_main_v106 (x1 : (⟨S2x800000, .i32⟩ : BufTy).Contents (Elt F)) : (⟨S850000, .i32⟩ : BufTy).Contents (Elt F) :=
  addi (val_main_v3 (F := F) x1) (val_main_v105 (F := F))
def val_main_v107 (x1 : (⟨S2x800000, .i32⟩ : BufTy).Contents (Elt F)) : (⟨S850000, .i32⟩ : BufTy).Contents (Elt F) :=
  select (val_main_v104 (F := F) x1) (val_main_v106 (F := F) x1) (val_main_v3 (F := F) x1)
def val_main_v108 (x1 : (⟨S2x800000, .i32⟩ : BufTy).Contents (Elt F)) : (⟨S850000x1, .i32⟩ : BufTy).Contents (Elt F) :=
  broadcastInDim S850000x1 ![0] bcast_S850000_S850000x1_0 (val_main_v107 (F := F) x1)
def val_main_v109 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) : (⟨S850000x256, .f32⟩ : BufTy).Contents (Elt F) :=
  Host.gather gather_S50000x256_S850000x1_S850000x256_1_0_n_n_0_1_1256 (val_main_v79 (F := F) x0 x1 x2 x3 x4 x5 x6 x7) (val_main_v108 (F := F) x1)
def val_main_v110 (x1 : (⟨S2x800000, .i32⟩ : BufTy).Contents (Elt F)) : (⟨S850000x1, .f32⟩ : BufTy).Contents (Elt F) :=
  broadcastInDim S850000x1 ![0] bcast_S850000_S850000x1_0 (val_main_v102 (F := F) x1)
def val_main_v111 (x1 : (⟨S2x800000, .i32⟩ : BufTy).Contents (Elt F)) : (⟨S850000x256, .f32⟩ : BufTy).Contents (Elt F) :=
  broadcastInDim S850000x256 ![0, 1] bcast_S850000x1_S850000x256_0_1 (val_main_v110 (F := F) x1)
def val_main_v112 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) : (⟨S850000x256, .f32⟩ : BufTy).Contents (Elt F) :=
  mulf (val_main_v109 (F := F) x0 x1 x2 x3 x4 x5 x6 x7) (val_main_v111 (F := F) x1)
def val_main_cst_24 : (⟨S_, .f32⟩ : BufTy).Contents (Elt F) :=
  constant S_ .f32 0x00000000#32
def val_main_v113 : (⟨S50000x256, .f32⟩ : BufTy).Contents (Elt F) :=
  broadcastInDim S50000x256 ![] bcast_S_S50000x256 (val_main_cst_24 (F := F))
def val_main_v114 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)
def val_main_v115 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) : (⟨S50000x256, .f32⟩ : BufTy).Contents (Elt F) :=
  Host.scatterAdd scatter_S50000x256_S850000x1_S850000x256_1_0_0_1 (val_main_v113 (F := F)) (val_main_v114 (F := F) x1) (val_main_v112 (F := F) x0 x1 x2 x3 x4 x5 x6 x7)
def val_main_v116 (x8 : (⟨S256, .f32⟩ : BufTy).Contents (Elt F)) : (⟨S1x256, .f32⟩ : BufTy).Contents (Elt F) :=
  broadcastInDim S1x256 ![1] bcast_S256_S1x256_1 (x8)
def val_main_v117 (x8 : (⟨S256, .f32⟩ : BufTy).Contents (Elt F)) : (⟨S50000x256, .f32⟩ : BufTy).Contents (Elt F) :=
  broadcastInDim S50000x256 ![0, 1] bcast_S1x256_S50000x256_0_1 (val_main_v116 (F := F) x8)
def val_main_v118 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S50000x256, .f32⟩ : BufTy).Contents (Elt F) :=
  addf (val_main_v115 (F := F) x0 x1 x2 x3 x4 x5 x6 x7) (val_main_v117 (F := F) x8)
def val_main_cst_25 : (⟨S_, .f32⟩ : BufTy).Contents (Elt F) :=
  constant S_ .f32 0x00000000#32
def val_main_v119 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S256, .f32⟩ : BufTy).Contents (Elt F) :=
  Host.reduceAdd (val_main_v118 (F := F) x0 x1 x2 x3 x4 x5 x6 x7 x8) (val_main_cst_25 (F := F)) reducesTo_S50000x256_S256_d0 h_S_
def val_main_cst_26 : (⟨S_, .f32⟩ : BufTy).Contents (Elt F) :=
  constant S_ .f32 0x47435000#32
def val_main_v120 : (⟨S256, .f32⟩ : BufTy).Contents (Elt F) :=
  broadcastInDim S256 ![] bcast_S_S256 (val_main_cst_26 (F := F))
def val_main_v121 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S256, .f32⟩ : BufTy).Contents (Elt F) :=
  Host.divf (val_main_v119 (F := F) x0 x1 x2 x3 x4 x5 x6 x7 x8) (val_main_v120 (F := F))
def val_main_v122 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S1x256, .f32⟩ : BufTy).Contents (Elt F) :=
  broadcastInDim S1x256 ![1] bcast_S256_S1x256_1 (val_main_v121 (F := F) x0 x1 x2 x3 x4 x5 x6 x7 x8)
def val_main_v123 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S50000x256, .f32⟩ : BufTy).Contents (Elt F) :=
  broadcastInDim S50000x256 ![0, 1] bcast_S1x256_S50000x256_0_1 (val_main_v122 (F := F) x0 x1 x2 x3 x4 x5 x6 x7 x8)
def val_main_v124 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S50000x256, .f32⟩ : BufTy).Contents (Elt F) :=
  subf (val_main_v118 (F := F) x0 x1 x2 x3 x4 x5 x6 x7 x8) (val_main_v123 (F := F) x0 x1 x2 x3 x4 x5 x6 x7 x8)
def val_main_v125 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S50000x256, .f32⟩ : BufTy).Contents (Elt F) :=
  mulf (val_main_v124 (F := F) x0 x1 x2 x3 x4 x5 x6 x7 x8) (val_main_v124 (F := F) x0 x1 x2 x3 x4 x5 x6 x7 x8)
def val_main_cst_27 : (⟨S_, .f32⟩ : BufTy).Contents (Elt F) :=
  constant S_ .f32 0x00000000#32
def val_main_v126 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S256, .f32⟩ : BufTy).Contents (Elt F) :=
  Host.reduceAdd (val_main_v125 (F := F) x0 x1 x2 x3 x4 x5 x6 x7 x8) (val_main_cst_27 (F := F)) reducesTo_S50000x256_S256_d0 h_S_
def val_main_cst_28 : (⟨S_, .f32⟩ : BufTy).Contents (Elt F) :=
  constant S_ .f32 0x47435000#32
def val_main_v127 : (⟨S256, .f32⟩ : BufTy).Contents (Elt F) :=
  broadcastInDim S256 ![] bcast_S_S256 (val_main_cst_28 (F := F))
def val_main_v128 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S256, .f32⟩ : BufTy).Contents (Elt F) :=
  Host.divf (val_main_v126 (F := F) x0 x1 x2 x3 x4 x5 x6 x7 x8) (val_main_v127 (F := F))
def val_main_v129 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S1x256, .f32⟩ : BufTy).Contents (Elt F) :=
  broadcastInDim S1x256 ![1] bcast_S256_S1x256_1 (val_main_v121 (F := F) x0 x1 x2 x3 x4 x5 x6 x7 x8)
def val_main_v130 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S50000x256, .f32⟩ : BufTy).Contents (Elt F) :=
  broadcastInDim S50000x256 ![0, 1] bcast_S1x256_S50000x256_0_1 (val_main_v129 (F := F) x0 x1 x2 x3 x4 x5 x6 x7 x8)
def val_main_v131 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S50000x256, .f32⟩ : BufTy).Contents (Elt F) :=
  subf (val_main_v118 (F := F) x0 x1 x2 x3 x4 x5 x6 x7 x8) (val_main_v130 (F := F) x0 x1 x2 x3 x4 x5 x6 x7 x8)
def val_main_cst_29 : (⟨S_, .f32⟩ : BufTy).Contents (Elt F) :=
  constant S_ .f32 0x3727C5AC#32
def val_main_v132 : (⟨S256, .f32⟩ : BufTy).Contents (Elt F) :=
  broadcastInDim S256 ![] bcast_S_S256 (val_main_cst_29 (F := F))
def val_main_v133 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S256, .f32⟩ : BufTy).Contents (Elt F) :=
  addf (val_main_v128 (F := F) x0 x1 x2 x3 x4 x5 x6 x7 x8) (val_main_v132 (F := F))
def val_main_v134 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S256, .f32⟩ : BufTy).Contents (Elt F) :=
  Host.rsqrt (val_main_v133 (F := F) x0 x1 x2 x3 x4 x5 x6 x7 x8)
def val_main_v135 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S1x256, .f32⟩ : BufTy).Contents (Elt F) :=
  broadcastInDim S1x256 ![1] bcast_S256_S1x256_1 (val_main_v134 (F := F) x0 x1 x2 x3 x4 x5 x6 x7 x8)
def val_main_v136 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S50000x256, .f32⟩ : BufTy).Contents (Elt F) :=
  broadcastInDim S50000x256 ![0, 1] bcast_S1x256_S50000x256_0_1 (val_main_v135 (F := F) x0 x1 x2 x3 x4 x5 x6 x7 x8)
def val_main_v137 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) : (⟨S50000x256, .f32⟩ : BufTy).Contents (Elt F) :=
  mulf (val_main_v131 (F := F) x0 x1 x2 x3 x4 x5 x6 x7 x8) (val_main_v136 (F := F) x0 x1 x2 x3 x4 x5 x6 x7 x8)
def val_main_v138 (x9 : (⟨S256, .f32⟩ : BufTy).Contents (Elt F)) : (⟨S1x256, .f32⟩ : BufTy).Contents (Elt F) :=
  broadcastInDim S1x256 ![1] bcast_S256_S1x256_1 (x9)
def val_main_v139 (x9 : (⟨S256, .f32⟩ : BufTy).Contents (Elt F)) : (⟨S50000x256, .f32⟩ : BufTy).Contents (Elt F) :=
  broadcastInDim S50000x256 ![0, 1] bcast_S1x256_S50000x256_0_1 (val_main_v138 (F := F) x9)
def val_main_v140 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 x9 : (⟨S256, .f32⟩ : BufTy).Contents (Elt F)) : (⟨S50000x256, .f32⟩ : BufTy).Contents (Elt F) :=
  mulf (val_main_v137 (F := F) x0 x1 x2 x3 x4 x5 x6 x7 x8) (val_main_v139 (F := F) x9)
def val_main_v141 (x10 : (⟨S256, .f32⟩ : BufTy).Contents (Elt F)) : (⟨S1x256, .f32⟩ : BufTy).Contents (Elt F) :=
  broadcastInDim S1x256 ![1] bcast_S256_S1x256_1 (x10)
def val_main_v142 (x10 : (⟨S256, .f32⟩ : BufTy).Contents (Elt F)) : (⟨S50000x256, .f32⟩ : BufTy).Contents (Elt F) :=
  broadcastInDim S50000x256 ![0, 1] bcast_S1x256_S50000x256_0_1 (val_main_v141 (F := F) x10)
def val_main_v143 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 x9 x10 : (⟨S256, .f32⟩ : BufTy).Contents (Elt F)) : (⟨S50000x256, .f32⟩ : BufTy).Contents (Elt F) :=
  addf (val_main_v140 (F := F) x0 x1 x2 x3 x4 x5 x6 x7 x8 x9) (val_main_v142 (F := F) x10)
def val_main_cst_30 : (⟨S_, .f32⟩ : BufTy).Contents (Elt F) :=
  constant S_ .f32 0x00000000#32
def val_main_v144 : (⟨S50000x256, .f32⟩ : BufTy).Contents (Elt F) :=
  broadcastInDim S50000x256 ![] bcast_S_S50000x256 (val_main_cst_30 (F := F))
def val_main_v145 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 x9 x10 : (⟨S256, .f32⟩ : BufTy).Contents (Elt F)) : (⟨S50000x256, .i1⟩ : BufTy).Contents (Elt F) :=
  cmpf .ogt (val_main_v143 (F := F) x0 x1 x2 x3 x4 x5 x6 x7 x8 x9 x10) (val_main_v144 (F := F))
def val_main_v146 (x11 : (⟨S1, .f32⟩ : BufTy).Contents (Elt F)) : (⟨S_, .f32⟩ : BufTy).Contents (Elt F) :=
  shapeCast _ (x11) shapeCasts_S1_S_
def val_main_v147 (x11 : (⟨S1, .f32⟩ : BufTy).Contents (Elt F)) : (⟨S50000x256, .f32⟩ : BufTy).Contents (Elt F) :=
  broadcastInDim S50000x256 ![] bcast_S_S50000x256 (val_main_v146 (F := F) x11)
def val_main_v148 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 x9 x10 : (⟨S256, .f32⟩ : BufTy).Contents (Elt F)) (x11 : (⟨S1, .f32⟩ : BufTy).Contents (Elt F)) : (⟨S50000x256, .f32⟩ : BufTy).Contents (Elt F) :=
  mulf (val_main_v147 (F := F) x11) (val_main_v143 (F := F) x0 x1 x2 x3 x4 x5 x6 x7 x8 x9 x10)
def val_main_v149 (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F)) (x6 : (⟨S1, .f32⟩ : BufTy).Contents (Elt F)) (x7 : (⟨S256x256, .f32⟩ : BufTy).Contents (Elt F)) (x8 x9 x10 : (⟨S256, .f32⟩ : BufTy).Contents (Elt F)) (x11 : (⟨S1, .f32⟩ : BufTy).Contents (Elt F)) : (⟨S50000x256, .f32⟩ : BufTy).Contents (Elt F) :=
  select (val_main_v145 (F := F) x0 x1 x2 x3 x4 x5 x6 x7 x8 x9 x10) (val_main_v143 (F := F) x0 x1 x2 x3 x4 x5 x6 x7 x8 x9 x10) (val_main_v148 (F := F) x0 x1 x2 x3 x4 x5 x6 x7 x8 x9 x10 x11)

end Cert.ReferenceIdeal.ReadP

end
-- ==== Proof.RefIs.lean ====
-- The reference's stages read as the specification's functions.
import proofs.«164947_j60361470378157_1_alg».proof.Proof.RefReadP
import proofs.«164947_j60361470378157_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
noncomputable section
namespace Cert.RefIs
open Cert.ReferenceIdeal Cert.ReferenceIdeal.Gen Cert.ReferenceIdeal.ReadP Idealize.ShloMosaic Idealize.ShloMosaic.ValueIdx
open scoped BigOperators
variable (x0 : (⟨S50000x128, .f32⟩ : BufTy).Contents (Elt Ideal)) (x1 : (⟨S2x800000, .i32⟩ : BufTy).Contents (Elt Ideal)) (x2 : (⟨S128x256, .f32⟩ : BufTy).Contents (Elt Ideal)) (x3 x4 x5 : (⟨S256, .f32⟩ : BufTy).Contents (Elt Ideal))
  (x6 : (⟨S1, .f32⟩ : BufTy).Contents (Elt Ideal)) (x7 : (⟨S256x256, .f32⟩ : BufTy).Contents (Elt Ideal)) (x8 x9 x10 : (⟨S256, .f32⟩ : BufTy).Contents (Elt Ideal)) (x11 : (⟨S1, .f32⟩ : BufTy).Contents (Elt Ideal))
theorem v8_eq :
    val_main_v8 (F := Ideal) x0 x2 = Cert.Spec.mm128 x0 x2 := by
  funext i
  rw [val_main_v8_apply]
  unfold Cert.Spec.mm128
  refine Finset.sum_congr rfl fun k _ => ?_
  exact congrArg₂ (· * ·) (congrArg _ (by funext a; fin_cases a <;> rfl)) (congrArg _ (by funext a; fin_cases a <;> rfl))
theorem v79_eq :
    val_main_v79 (F := Ideal) x0 x1 x2 x3 x4 x5 x6 x7 = Cert.Spec.mm256 (val_main_v78 (F := Ideal) x0 x1 x2 x3 x4 x5 x6) x7 := by
  funext i
  rw [val_main_v79_apply]
  unfold Cert.Spec.mm256
  refine Finset.sum_congr rfl fun k _ => ?_
  exact congrArg₂ (· * ·) (congrArg _ (by funext a; fin_cases a <;> rfl)) (congrArg _ (by funext a; fin_cases a <;> rfl))
theorem rowB_apply {F : FTy → Type} [FloatOps F] (b : (⟨S256, .f32⟩ : BufTy).Contents (Elt F)) (i : S50000x256.Idx) :
    val_main_v46 (F := F) b i = b (ix1 (n := 256) (i 1)) := by
  rw [val_main_v46_apply, val_main_v45_apply]
  exact congrArg b (by funext a; fin_cases a <;> rfl)
theorem biased_eq (y : (⟨S50000x256, .f32⟩ : BufTy).Contents (Elt Ideal)) (b : (⟨S256, .f32⟩ : BufTy).Contents (Elt Ideal)) :
    addf (F := Ideal) (s := S50000x256) (φ := .f32) y (val_main_v46 (F := Ideal) b) = Cert.Spec.biased y b := by
  funext i
  rw [addf_apply, rowB_apply]
  rfl
section Chain
variable {F : FTy → Type} [FloatOps F] (z : (⟨S50000x256, .f32⟩ : BufTy).Contents (Elt F))
  (x0 : (⟨S50000x128, .f32⟩ : BufTy).Contents (Elt F)) (x1 : (⟨S2x800000, .i32⟩ : BufTy).Contents (Elt F)) (x2 : (⟨S128x256, .f32⟩ : BufTy).Contents (Elt F)) (x3 x4 x5 : (⟨S256, .f32⟩ : BufTy).Contents (Elt F))
  (x6 : (⟨S1, .f32⟩ : BufTy).Contents (Elt F)) (x7 : (⟨S256x256, .f32⟩ : BufTy).Contents (Elt F)) (x8 x9 x10 : (⟨S256, .f32⟩ : BufTy).Contents (Elt F)) (x11 : (⟨S1, .f32⟩ : BufTy).Contents (Elt F))
def gSum : (⟨S256, .f32⟩ : BufTy).Contents (Elt F) :=
  Host.reduceAdd z (val_main_cst_9 (F := F)) reducesTo_S50000x256_S256_d0 h_S_
def gMean : (⟨S256, .f32⟩ : BufTy).Contents (Elt F) :=
  Host.divf (gSum z) (val_main_v49 (F := F))
def gCent : (⟨S50000x256, .f32⟩ : BufTy).Contents (Elt F) :=
  subf z (val_main_v46 (F := F) (gMean z))
def gVar : (⟨S256, .f32⟩ : BufTy).Contents (Elt F) :=
  Host.divf (gSum (mulf (gCent z) (gCent z))) (val_main_v49 (F := F))
def gNorm (γ β : (⟨S256, .f32⟩ : BufTy).Contents (Elt F)) :
    (⟨S50000x256, .f32⟩ : BufTy).Contents (Elt F) :=
  addf (mulf (mulf (gCent z) (val_main_v46 (F := F) (Host.rsqrt (addf (gVar z) (val_main_v61 (F := F)))))) (val_main_v46 (F := F) γ))
    (val_main_v46 (F := F) β)
def gOut (γ β : (⟨S256, .f32⟩ : BufTy).Contents (Elt F))
    (a : (⟨S1, .f32⟩ : BufTy).Contents (Elt F)) : (⟨S50000x256, .f32⟩ : BufTy).Contents (Elt F) :=
  select (cmpf .ogt (gNorm z γ β) (val_main_v73 (F := F))) (gNorm z γ β) (mulf (val_main_v76 (F := F) a) (gNorm z γ β))
theorem v78_chain :
    val_main_v78 (F := F) x0 x1 x2 x3 x4 x5 x6 = gOut (val_main_v47 (F := F) x0 x1 x2 x3) x4 x5 x6 := rfl
theorem v149_chain :
    val_main_v149 (F := F) x0 x1 x2 x3 x4 x5 x6 x7 x8 x9 x10 x11
      = gOut (val_main_v118 (F := F) x0 x1 x2 x3 x4 x5 x6 x7 x8) x9 x10 x11 := rfl
end Chain
variable (z : (⟨S50000x256, .f32⟩ : BufTy).Contents (Elt Ideal))
theorem hdiv_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl
theorem gSum_apply (j : S256.Idx) :
    gSum (F := Ideal) z j = Cert.Spec.colsum z (j 0) := by
  unfold gSum Cert.Spec.colsum
  simp only [Host.reduceAdd, Ideal.hostReduceAdd_def]
  rw [Ideal.hostReduceAdd_single reducesTo_S50000x256_S256_d0 (by decide), val_main_cst_9_apply, Ideal.ofBits_def,
    Ideal.ofBits_zero_f32, zero_add]
  exact Finset.sum_congr rfl fun k _ => congrArg z (by funext a; fin_cases a <;> rfl)
theorem gMean_apply (j : S256.Idx) :
    gMean (F := Ideal) z j = Cert.Spec.meanR z (j 0) := by
  unfold gMean
  rw [hdiv_apply, gSum_apply, val_main_v49_apply, val_main_cst_10_apply]
  rfl
theorem gCent_apply (i : S50000x256.Idx) :
    gCent (F := Ideal) z i = z i - Cert.Spec.meanR z (i 1) := by
  unfold gCent
  rw [subf_apply, rowB_apply, gMean_apply]
theorem gVar_apply (j : S256.Idx) :
    gVar (F := Ideal) z j = Cert.Spec.varR z (j 0) := by
  unfold gVar
  rw [hdiv_apply, gSum_apply, val_main_v49_apply, val_main_cst_10_apply]
  simp only [Cert.Spec.colsum, mulf_apply, gCent_apply]
  rfl
theorem gNorm_apply (γ β : (⟨S256, .f32⟩ : BufTy).Contents (Elt Ideal))
    (i : S50000x256.Idx) :
    gNorm (F := Ideal) z γ β i
      = (z i - Cert.Spec.meanR z (i 1)) * Ideal.rsqrt (Cert.Spec.varR z (i 1) + Cert.Spec.eps) * γ (ix1 (n := 256) (i 1))
        + β (ix1 (n := 256) (i 1)) := by
  unfold gNorm
  rw [addf_apply, mulf_apply, mulf_apply, gCent_apply, rowB_apply, rowB_apply, rowB_apply, hrsqrt_apply, addf_apply,
    gVar_apply, val_main_v61_apply, val_main_cst_13_apply]
  rfl
theorem slope_apply {F : FTy → Type} [FloatOps F] (a : (⟨S1, .f32⟩ : BufTy).Contents (Elt F)) (i : S50000x256.Idx) :
    val_main_v76 (F := F) a i = a (ix1 (n := 1) 0) := by
  rw [val_main_v76_apply]
  unfold val_main_v75
  exact shapeCast_apply a shapeCasts_S1_S_ _ (ix1 (n := 1) 0) ((Fin.val_eq_zero _).trans (Fin.val_eq_zero _).symm)
theorem gOut_eq (γ β : (⟨S256, .f32⟩ : BufTy).Contents (Elt Ideal))
    (a : (⟨S1, .f32⟩ : BufTy).Contents (Elt Ideal)) :
    gOut (F := Ideal) z γ β a
      = Cert.Spec.bnp z (Cert.Spec.meanR z) (Cert.Spec.varR z) γ β (a (ix1 (n := 1) 0)) := by
  funext i
  unfold gOut Cert.Spec.bnp
  rw [select_apply, cmpf_apply, mulf_apply, slope_apply, gNorm_apply, val_main_v73_apply, val_main_cst_14_apply]
  rfl
def aggR (x1 : (⟨S2x800000, .i32⟩ : BufTy).Contents (Elt Ideal)) (h : Cert.Spec.A 50000 256) : Cert.Spec.A 50000 256 :=
  Host.scatterAdd (F := Ideal) (φ := .f32) scatter_S50000x256_S850000x1_S850000x256_1_0_0_1 (val_main_v42 (F := Ideal))
    (val_main_v43 (F := Ideal) x1)
    (mulf (F := Ideal) (φ := .f32) (Host.gather gather_S50000x256_S850000x1_S850000x256_1_0_n_n_0_1_1256 h (val_main_v37 (F := Ideal) x1))
    (val_main_v40 (F := Ideal) x1))
theorem v44_agg :
    val_main_v44 (F := Ideal) x0 x1 x2 = aggR x1 (val_main_v8 (F := Ideal) x0 x2) := rfl
theorem v115_agg :
    val_main_v115 (F := Ideal) x0 x1 x2 x3 x4 x5 x6 x7 = aggR x1 (val_main_v79 (F := Ideal) x0 x1 x2 x3 x4 x5 x6 x7) := rfl
theorem layer1 :
    val_main_v78 (F := Ideal) x0 x1 x2 x3 x4 x5 x6
      = Cert.Spec.layerR (aggR x1) (Cert.Spec.mm128 x0 x2) x3 x4 x5 (x6 (ix1 (n := 1) 0)) := by
  rw [v78_chain, gOut_eq, show val_main_v47 (F := Ideal) x0 x1 x2 x3 = _ from by unfold val_main_v47; rw [biased_eq, v44_agg, v8_eq]]
  rfl
theorem layer2 :
    val_main_v149 (F := Ideal) x0 x1 x2 x3 x4 x5 x6 x7 x8 x9 x10 x11
      = Cert.Spec.layerR (aggR x1) (Cert.Spec.mm256 (val_main_v78 (F := Ideal) x0 x1 x2 x3 x4 x5 x6) x7) x8 x9 x10
    (x11 (ix1 (n := 1) 0)) := by
  rw [v149_chain, gOut_eq, show val_main_v118 (F := Ideal) x0 x1 x2 x3 x4 x5 x6 x7 x8 = _ from by
    unfold val_main_v118
    rw [show val_main_v117 (F := Ideal) x8 = val_main_v46 (F := Ideal) x8 from rfl, biased_eq, v115_agg, v79_eq]]
  rfl
theorem ref_is :
    val_main_v149 (F := Ideal) x0 x1 x2 x3 x4 x5 x6 x7 x8 x9 x10 x11
      = Cert.Spec.netR (aggR x1) x0 x2 x3 x4 x5 (x6 (Idealize.ShloMosaic.ValueIdx.ix1 (n := 1) 0)) x7 x8 x9 x10
    (x11 (Idealize.ShloMosaic.ValueIdx.ix1 (n := 1) 0)) := by
  rw [layer2, layer1]
  rfl
theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩
theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩
theorem real_sum {ι : Type} (s : Finset ι) (f : ι → EReal) (h : ∀ i ∈ s, ∃ r : ℝ, f i = (r : EReal)) :
    ∃ r : ℝ, ∑ i ∈ s, f i = (r : EReal) :=
  Finset.sum_induction f (fun a => ∃ r : ℝ, a = (r : EReal)) (fun _ _ => real_add) ⟨0, EReal.coe_zero.symm⟩ h
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) :=
  Finset.sum_induction f (fun a => ∃ r : ℝ, 0 ≤ r ∧ a = (r : EReal))
    (fun _ _ ⟨ra, ha0, ha⟩ ⟨rb, hb0, hb⟩ => ⟨ra + rb, add_nonneg ha0 hb0, by rw [ha, hb, EReal.coe_add]⟩)
    ⟨0, le_refl _, EReal.coe_zero.symm⟩ h
section Scatter
variable {s si su : Shape} (d : ScatterDims s si su) {w : Nat} (x : FVec Ideal s .f32) (idx : IVec si w) (upd : FVec Ideal su .f32) (i : s.Idx)
theorem scatterAdd_apply :
    Host.scatterAdd d x idx upd i = x i + ∑ j ∈ Finset.univ.filter (fun j => d.resultIdx? j idx = some i), upd j := rfl
theorem scatterAdd_real (hx : ∃ r : ℝ, x i = (r : EReal)) (hu : ∀ j, ∃ r : ℝ, upd j = (r : EReal)) :
    ∃ r : ℝ, Host.scatterAdd d x idx upd i = (r : EReal) := by
  rw [scatterAdd_apply]
  exact real_add hx (real_sum _ _ fun j _ => hu j)
theorem scatterAdd_nonneg (hx : x i = 0) (hu : ∀ j, ∃ r : ℝ, 0 ≤ r ∧ upd j = (r : EReal)) :
    ∃ r : ℝ, 0 ≤ r ∧ Host.scatterAdd d x idx upd i = (r : EReal) := by
  rw [scatterAdd_apply, hx, zero_add]
  exact nonneg_sum _ _ fun j _ => hu j
end Scatter
theorem gather_apply {s si t : Shape} {α : Type} {w : Nat} (d : GatherDims s si t) (x : s.Idx → α) (idx : IVec si w) (j : t.Idx) :
    Host.gather d x idx j = x (d.operandIdx j idx) := rfl
theorem ones_apply (j : S850000.Idx) : val_main_v7 (F := Ideal) j = ((1 : ℝ) : EReal) := by
  rw [val_main_v7_apply, val_main_cst_apply, Ideal.ofBits_def, Ideal.ofBits_one_f32, EReal.coe_one]
theorem deg_real (m : S50000.Idx) :
    ∃ r : ℝ, 0 ≤ r ∧ val_main_v11 (F := Ideal) x1 m = (r : EReal) := by
  have h0 : val_main_v9 (F := Ideal) m = 0 := by
    rw [val_main_v9_apply, val_main_cst_0_apply, Ideal.ofBits_def, Ideal.ofBits_zero_f32]
  unfold val_main_v11
  exact scatterAdd_nonneg _ _ _ _ m h0 fun j => ⟨1, zero_le_one, ones_apply j⟩
theorem dinv_real (m : S50000.Idx) :
    ∃ r : ℝ, val_main_v15 (F := Ideal) x1 m = (r : EReal) := by
  obtain ⟨d, hd0, hd⟩ := deg_real x1 m
  rw [val_main_v15_apply, val_main_v13_apply, val_main_v14_apply, hd, val_main_v12_apply, val_main_cst_1_apply,
    val_main_call0_v1_apply, val_main_call0_v0_apply, val_main_cst_2_apply, Ideal.ofBits_def, Ideal.ofBits_zero_f32,
    Ideal.hostUnary_rsqrt_def, Ideal.rsqrt_coe]
  by_cases h : 0 < d
  · have hc : FloatOps.cmpf (F := Ideal) (φ := .f32) .ogt (d : EReal) 0 = 1#1 := by
      show Ideal.cmp .ogt (d : EReal) 0 = 1#1
      simp [Ideal.cmp, EReal.coe_pos.2 h]
    rw [hc, select_one, if_neg (not_lt.2 h.le), if_neg h.ne']
    exact ⟨_, rfl⟩
  · have hc : FloatOps.cmpf (F := Ideal) (φ := .f32) .ogt (d : EReal) 0 = 0#1 := by
      show Ideal.cmp .ogt (d : EReal) 0 = 0#1
      simp [Ideal.cmp, mt EReal.coe_pos.1 h]
    rw [hc, select_zero]
    exact ⟨0, EReal.coe_zero.symm⟩
theorem norm_real (k : S850000.Idx) :
    ∃ r : ℝ, val_main_v31 (F := Ideal) x1 k = (r : EReal) := by
  rw [val_main_v31_apply, val_main_v23_apply, Ideal.mulf_def, Ideal.mulf_def]
  refine real_mul (real_mul ?_ ⟨1, ones_apply k⟩) ?_
  · unfold val_main_v22
    rw [gather_apply]
    exact dinv_real x1 _
  · unfold val_main_v30
    rw [gather_apply]
    exact dinv_real x1 _
theorem isReal_aggR (x1 : (⟨S2x800000, .i32⟩ : BufTy).Contents (Elt Ideal)) (h : Cert.Spec.A 50000 256)
    (hh : Cert.Spec.IsReal h) : Cert.Spec.IsReal (aggR x1 h) := by
  intro i
  have h0 : val_main_v42 (F := Ideal) i = ((0 : ℝ) : EReal) := by
    rw [val_main_v42_apply, val_main_cst_8_apply, Ideal.ofBits_def, Ideal.ofBits_zero_f32, EReal.coe_zero]
  unfold aggR
  refine scatterAdd_real _ _ _ _ i ⟨0, h0⟩ fun j => ?_
  rw [mulf_apply, gather_apply, val_main_v40_apply, val_main_v39_apply]
  exact real_mul (hh _) (norm_real x1 _)
end Cert.RefIs
end
-- ==== Proof.KI.HostVal.lean ====
-- The host stretches between the calls, read as functions of the launch memory in the reference's own terms.
import proofs.«164947_j60361470378157_1_alg».proof.Proof.KI.RunVals
import proofs.«164947_j60361470378157_1_alg».proof.Proof.RefIs
import proofs.«164947_j60361470378157_1_alg».proof.Proof.Spec
import Idealize.ShloMosaic.Lib.StableHlo.Run
import Idealize.ShloMosaic.Lib.ValueIdx
import Idealize.ShloMosaic.Lib.ValueLayout
import Idealize.ShloMosaic.Lib.Pipeline.Value
noncomputable section
namespace Cert.KernelIdeal.Hand
open Cert.KernelIdeal Cert.KernelIdeal.Gen
open Idealize.ShloMosaic Idealize.ShloMosaic.TcCoe Idealize.ShloMosaic.Tactic
open Idealize.SL Idealize.SL.Sem
open Idealize.ShloMosaic.StableHlo
open Cert.ReferenceIdeal.ReadP
section Stretches
variable {F : FTy → Type} [FloatOps F] [Named F]
def wrapK (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)
def aggK (v3 v6 : (⟨S850000, .i32⟩ : BufTy).Contents (Elt F)) (v30 : (⟨S850000, .f32⟩ : BufTy).Contents (Elt F))
    (h : (⟨S50000x256, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 v6)
    (mulf (Host.gather gather_S50000x256_S850000x1_S850000x256_1_0_n_n_0_1_1256 h (wrapK v3))
      (broadcastInDim S850000x256 ![0, 1] bcast_S850000x1_S850000x256_0_1 (broadcastInDim S850000x1 ![0] bcast_S850000_S850000x1_0 v30)))
def normK (v3 v6 : (⟨S850000, .i32⟩ : BufTy).Contents (Elt F)) (v7 : (⟨S850000, .f32⟩ : BufTy).Contents (Elt F))
    (v14 : (⟨S50000, .f32⟩ : BufTy).Contents (Elt F)) : (⟨S850000, .f32⟩ : BufTy).Contents (Elt F) :=
  mulf (mulf (Host.gather gather_S50000_S850000x1_S850000_n_0_n_n_0_1_1 v14 (wrapK v3)) v7)
    (Host.gather gather_S50000_S850000x1_S850000_n_0_n_n_0_1_1 v14 (wrapK v6))
theorem h0_vals (W : Valuation τ sig (Elt F)) :
    StableHlo.after hostOps0 W (Proc.devRef .tc main_v3) = val_main_v3 (F := F) (W main_arg1)
    ∧ StableHlo.after hostOps0 W (Proc.devRef .tc main_v6) = val_main_v6 (F := F) (W main_arg1)
    ∧ StableHlo.after hostOps0 W (Proc.devRef .tc main_v7) = val_main_v7 (F := F)
    ∧ StableHlo.after hostOps0 W (Proc.devRef .tc main_v12) = val_main_v13 (F := F) (W main_arg1)
    ∧ StableHlo.after hostOps0 W (Proc.devRef .tc main_v13) = val_main_v14 (F := F) (W main_arg1)
    ∧ StableHlo.after hostOps0 W (Proc.devRef .tc main_cst_2) = val_main_cst_2 (F := F) := by
  refine ⟨?_, ?_, ?_, ?_, ?_, ?_⟩ <;> (after_results_simp; rfl)
theorem h01_v14 (W : Valuation τ sig (Elt F)) :
    StableHlo.after hostOps0_1 W (Proc.devRef .tc main_v14)
      = select (W main_v12) (W main_v13) (broadcastInDim S50000 ![] bcast_S_S50000 (id (W main_cst_2))) := by
  after_results
  rfl
theorem h02_v30 (W : Valuation τ sig (Elt F)) :
    StableHlo.after hostOps0_2 W (Proc.devRef .tc main_v30) = normK (W main_v3) (W main_v6) (W main_v7) (W main_v14) := by
  after_results_simp
  rfl
theorem h1_vals (W : Valuation τ sig (Elt F)) :
    StableHlo.after hostOps1 W (Proc.devRef .tc main_v44) = aggK (W main_v3) (W main_v6) (W main_v30) (W main_v31)
    ∧ StableHlo.after hostOps1 W (Proc.devRef .tc main_v45) = shapeCast S1x256 (W main_arg3) shapeCasts_S256_S1x256 := by
  refine ⟨?_, ?_⟩ <;> (after_results_simp; rfl)
theorem h4_vals (W : Valuation τ sig (Elt F)) :
    StableHlo.after hostOps4 W (Proc.devRef .tc main_v64) = aggK (W main_v3) (W main_v6) (W main_v30) (W main_v51)
    ∧ StableHlo.after hostOps4 W (Proc.devRef .tc main_v65) = shapeCast S1x256 (W main_arg8) shapeCasts_S256_S1x256 := by
  refine ⟨?_, ?_⟩ <;> (after_results_simp; rfl)
theorem h2_vals (W : Valuation τ sig (Elt F)) :
    StableHlo.after hostOps2 W (Proc.devRef .tc main_v47) = shapeCast S1x256 (W main_arg4) shapeCasts_S256_S1x256
    ∧ StableHlo.after hostOps2 W (Proc.devRef .tc main_v48) = shapeCast S1x256 (W main_arg5) shapeCasts_S256_S1x256
    ∧ StableHlo.after hostOps2 W (Proc.devRef .tc main_v49) = shapeCast S1x1 (W main_arg6) shapeCasts_S1_S1x1 := by
  refine ⟨?_, ?_, ?_⟩ <;> (after_results; rfl)
theorem h5_vals (W : Valuation τ sig (Elt F)) :
    StableHlo.after hostOps5 W (Proc.devRef .tc main_v67) = shapeCast S1x256 (W main_arg9) shapeCasts_S256_S1x256
    ∧ StableHlo.after hostOps5 W (Proc.devRef .tc main_v68) = shapeCast S1x256 (W main_arg10) shapeCasts_S256_S1x256
    ∧ StableHlo.after hostOps5 W (Proc.devRef .tc main_v69) = shapeCast S1x1 (W main_arg11) shapeCasts_S1_S1x1 := by
  refine ⟨?_, ?_, ?_⟩ <;> (after_results; rfl)
end Stretches
section Chain
variable {F : FTy → Type} [FloatOps F] [Named F]
variable (m : (ℓ : Loc nD τ sig) → Buf (Elt F) ℓ) (c : Dev nD)
theorem V2_v14 : Gen.V2 m c main_v14 = val_main_v15 (F := F) (m ((c : Thread nD τ).loc main_arg1)) := by
  refine (h01_v14 (Gen.V1 m c)).trans ?_
  rw [show Gen.V1 m c main_v12 = _ from (h0_vals (Gen.V0 m c)).2.2.2.1, show Gen.V1 m c main_v13 = _ from (h0_vals (Gen.V0 m c)).2.2.2.2.1,
    show Gen.V1 m c main_cst_2 = _ from (h0_vals (Gen.V0 m c)).2.2.2.2.2]
  rfl
theorem V3_v30 : Gen.V3 m c main_v30 = val_main_v31 (F := F) (m ((c : Thread nD τ).loc main_arg1)) := by
  refine (h02_v30 (Gen.V2 m c)).trans ?_
  rw [Gen.V2_of m c main_v3 (by decide), Gen.V2_of m c main_v6 (by decide), Gen.V2_of m c main_v7 (by decide),
    show Gen.V1 m c main_v3 = _ from (h0_vals (Gen.V0 m c)).1, show Gen.V1 m c main_v6 = _ from (h0_vals (Gen.V0 m c)).2.1,
    show Gen.V1 m c main_v7 = _ from (h0_vals (Gen.V0 m c)).2.2.1, V2_v14 m c]
  rfl
theorem W4_v3 : W4 m c main_v3 = val_main_v3 (F := F) (m ((c : Thread nD τ).loc main_arg1)) :=
  (W4_of m c main_v3 (by decide)).trans ((Gen.V3_of m c main_v3 (by decide)).trans ((Gen.V2_of m c main_v3 (by decide)).trans ((h0_vals (Gen.V0 m c)).1)))
theorem W4_v6 : W4 m c main_v6 = val_main_v6 (F := F) (m ((c : Thread nD τ).loc main_arg1)) :=
  (W4_of m c main_v6 (by decide)).trans ((Gen.V3_of m c main_v6 (by decide)).trans ((Gen.V2_of m c main_v6 (by decide)).trans ((h0_vals (Gen.V0 m c)).2.1)))
theorem W4_v30 : W4 m c main_v30 = val_main_v31 (F := F) (m ((c : Thread nD τ).loc main_arg1)) :=
  (W4_of m c main_v30 (by decide)).trans (V3_v30 m c)
abbrev Kept4 (r : Ref sig .tc) : Prop :=
  r ∉ hostOps0_W ∧ r ∉ hostOps0_1_W ∧ r ∉ hostOps0_2_W ∧ r ∉ ([main_v31] : List (Ref sig .tc))
abbrev Since4 (r : Ref sig .tc) : Prop :=
  r ∉ hostOps1_W ∧ r ∉ ([main_v46_0, main_v46_1, main_v46_2] : List (Ref sig .tc)) ∧ r ∉ hostOps2_W
    ∧ r ∉ ([main_v50] : List (Ref sig .tc)) ∧ r ∉ ([main_v51] : List (Ref sig .tc))
abbrev Since9 (r : Ref sig .tc) : Prop :=
  r ∉ hostOps4_W ∧ r ∉ ([main_v66_0, main_v66_1, main_v66_2] : List (Ref sig .tc))
theorem W4_keep (r : Ref sig .tc) (h : Kept4 r) : W4 m c r = m ((c : Thread nD τ).loc r) :=
  (W4_of m c r h.2.2.2).trans ((Gen.V3_of m c r h.2.2.1).trans ((Gen.V2_of m c r h.2.1).trans (Gen.V1_of m c r h.1)))
theorem W6_keep (r : Ref sig .tc) (h : Kept4 r) (h' : Since4 r) : W6 m c r = m ((c : Thread nD τ).loc r) :=
  (W6_of m c r h'.2.1).trans ((W5_of m c r h'.1).trans (W4_keep m c r h))
theorem W9_since4 (r : Ref sig .tc) (h : Since4 r) : W9 m c r = W4 m c r :=
  (W9_of m c r h.2.2.2.2).trans ((W8_of m c r h.2.2.2.1).trans ((W7_of m c r h.2.2.1).trans ((W6_of m c r h.2.1).trans (W5_of m c r h.1))))
theorem W9_keep (r : Ref sig .tc) (h : Kept4 r) (h' : Since4 r) : W9 m c r = m ((c : Thread nD τ).loc r) :=
  (W9_since4 m c r h').trans (W4_keep m c r h)
theorem W11_keep (r : Ref sig .tc) (h : Kept4 r) (h' : Since4 r) (h'' : Since9 r) : W11 m c r = m ((c : Thread nD τ).loc r) :=
  (W11_of m c r h''.2).trans ((W10_of m c r h''.1).trans (W9_keep m c r h h'))
end Chain
section AtIdeal
open Idealize.ShloMosaic.ValueIdx
variable (m : (ℓ : Loc nD τ sig) → Buf (Elt Ideal) ℓ) (c : Dev nD)
theorem row_of_cast {w : (⟨S1x256, .f32⟩ : BufTy).Contents (Elt Ideal)} {x : (⟨S256, .f32⟩ : BufTy).Contents (Elt Ideal)}
    (e : w = shapeCast S1x256 x shapeCasts_S256_S1x256) : Cert.Spec.row w = x := by
  subst e; funext j
  obtain ⟨q, rfl⟩ : ∃ q : Fin 256, j = ix1 q := ⟨j 0, eq_ix1 j⟩
  exact shapeCast_a_1a_apply x shapeCasts_S256_S1x256 (0 : Fin 1) q
theorem cell_of_cast {w : (⟨S1x1, .f32⟩ : BufTy).Contents (Elt Ideal)} {x : (⟨S1, .f32⟩ : BufTy).Contents (Elt Ideal)}
    (e : w = shapeCast S1x1 x shapeCasts_S1_S1x1) : w (ix2 (n0 := 1) (n1 := 1) 0 0) = x (ix1 (n := 1) 0) := by
  subst e; exact shapeCast_a_1a_apply x shapeCasts_S1_S1x1 (0 : Fin 1) (0 : Fin 1)
theorem v44_eq :
    W5 (F := Ideal) m c main_v44 = Cert.RefIs.aggR (m ((c : Thread nD τ).loc main_arg1)) (X31 m c) := by
  refine (h1_vals (W4 m c)).1.trans ?_
  rw [W4_v3 m c, W4_v6 m c, W4_v30 m c, W4_main_v31 m c]
  rfl
theorem v64_eq :
    W10 (F := Ideal) m c main_v64 = Cert.RefIs.aggR (m ((c : Thread nD τ).loc main_arg1)) (X51 m c) := by
  refine (h4_vals (W9 m c)).1.trans ?_
  rw [W9_since4 m c main_v3 (by decide),
    W9_since4 m c main_v6 (by decide),
    W9_since4 m c main_v30 (by decide),
    W4_v3 m c, W4_v6 m c, W4_v30 m c, W9_main_v51 m c]
  rfl
theorem v45_eq : Cert.Spec.row (W5 (F := Ideal) m c main_v45) = m ((c : Thread nD τ).loc main_arg3) :=
  row_of_cast ((h1_vals (W4 m c)).2.trans (by rw [W4_keep m c main_arg3 (by decide)]))
theorem v65_eq : Cert.Spec.row (W10 (F := Ideal) m c main_v65) = m ((c : Thread nD τ).loc main_arg8) :=
  row_of_cast ((h4_vals (W9 m c)).2.trans (by rw [W9_keep m c main_arg8 (by decide) (by decide)]))
theorem v47_eq : Cert.Spec.row (W7 (F := Ideal) m c main_v47) = m ((c : Thread nD τ).loc main_arg4) :=
  row_of_cast ((h2_vals (W6 m c)).1.trans (by rw [W6_keep m c main_arg4 (by decide) (by decide)]))
theorem v48_eq : Cert.Spec.row (W7 (F := Ideal) m c main_v48) = m ((c : Thread nD τ).loc main_arg5) :=
  row_of_cast ((h2_vals (W6 m c)).2.1.trans (by rw [W6_keep m c main_arg5 (by decide) (by decide)]))
theorem v49_eq :
    W7 (F := Ideal) m c main_v49 (ix2 (n0 := 1) (n1 := 1) 0 0)
      = m ((c : Thread nD τ).loc main_arg6) (ix1 (n := 1) 0) :=
  cell_of_cast ((h2_vals (W6 m c)).2.2.trans (by rw [W6_keep m c main_arg6 (by decide) (by decide)]))
theorem v67_eq : Cert.Spec.row (W12 (F := Ideal) m c main_v67) = m ((c : Thread nD τ).loc main_arg9) :=
  row_of_cast ((h5_vals (W11 m c)).1.trans (by rw [W11_keep m c main_arg9 (by decide) (by decide) (by decide)]))
theorem v68_eq : Cert.Spec.row (W12 (F := Ideal) m c main_v68) = m ((c : Thread nD τ).loc main_arg10) :=
  row_of_cast ((h5_vals (W11 m c)).2.1.trans (by rw [W11_keep m c main_arg10 (by decide) (by decide) (by decide)]))
theorem v69_eq :
    W12 (F := Ideal) m c main_v69 (ix2 (n0 := 1) (n1 := 1) 0 0)
      = m ((c : Thread nD τ).loc main_arg11) (ix1 (n := 1) 0) :=
  cell_of_cast ((h5_vals (W11 m c)).2.2.trans (by rw [W11_keep m c main_arg11 (by decide) (by decide) (by decide)]))
end AtIdeal
end Cert.KernelIdeal.Hand
end
-- ==== Proof.KI.KVal.lean ====
-- The kernel program's result as one function of its arguments: two layers of aggregate, bias, batch statistics, normalise, threshold.
import proofs.«164947_j60361470378157_1_alg».proof.Proof.KI.RunVals
import proofs.«164947_j60361470378157_1_alg».proof.Proof.KI.R0Val
import proofs.«164947_j60361470378157_1_alg».proof.Proof.KI.R1Val
import proofs.«164947_j60361470378157_1_alg».proof.Proof.KI.R2Val
import proofs.«164947_j60361470378157_1_alg».proof.Proof.KI.R3Val
import proofs.«164947_j60361470378157_1_alg».proof.Proof.KI.R4Val
import proofs.«164947_j60361470378157_1_alg».proof.Proof.KI.R5Val
import proofs.«164947_j60361470378157_1_alg».proof.Proof.KI.HostVal
import proofs.«164947_j60361470378157_1_alg».proof.Proof.RefIs
import proofs.«164947_j60361470378157_1_alg».proof.Proof.Spec
noncomputable section
namespace Cert.KernelIdeal.Hand
open Cert.KernelIdeal Cert.KernelIdeal.Gen
open Idealize.ShloMosaic Idealize.ShloMosaic.TcCoe Idealize.ShloMosaic.ValueIdx
open Idealize.SL.Sem
open Cert.Spec
variable (m : (ℓ : Loc nD τ sig) → Buf (Elt Ideal) ℓ) (c : Dev nD)
theorem V3_keep (r : Ref sig .tc) (h : r ∉ hostOps0_W ∧ r ∉ hostOps0_1_W ∧ r ∉ hostOps0_2_W) : Gen.V3 m c r = m ((c : Thread nD τ).loc r) :=
  (Gen.V3_of m c r h.2.2).trans ((Gen.V2_of m c r h.2.1).trans (Gen.V1_of m c r h.1))
theorem W8_arg7 : W8 m c main_arg7 = m ((c : Thread nD τ).loc main_arg7) := (W8_of m c main_arg7 (by decide)).trans ((W7_of m c main_arg7 (by decide)).trans ((W6_of m c main_arg7 (by decide)).trans ((W5_of m c main_arg7 (by decide)).trans ((W4_of m c main_arg7 (by decide)).trans (V3_keep m c main_arg7 (by decide))))))
theorem X31_eq : X31 m c = mm128 (m ((c : Thread nD τ).loc main_arg0)) (m ((c : Thread nD τ).loc main_arg2)) := by
  unfold X31; rw [arrAt0_2]
  show mm128 (Gen.V3 m c main_arg0) (Gen.V3 m c main_arg2) = _
  rw [V3_keep m c main_arg0 (by decide), V3_keep m c main_arg2 (by decide)]
abbrev z1 : A 50000 256 :=
  biased (Cert.RefIs.aggR (m ((c : Thread nD τ).loc main_arg1)) (mm128 (m ((c : Thread nD τ).loc main_arg0)) (m ((c : Thread nD τ).loc main_arg2)))) (m ((c : Thread nD τ).loc main_arg3))
theorem z1_eq : biased (W5 m c main_v44) (row (W5 m c main_v45)) = z1 m c := by rw [v44_eq, v45_eq, X31_eq]
theorem X46_0_eq : X46_0 m c = z1 m c := by unfold X46_0; rw [arrAt1_2]; exact z1_eq m c
theorem X46_1_eq : X46_1 m c = asRow (meanK (z1 m c)) := by
  unfold X46_1; rw [arrAt1_3]; exact congrArg (fun z => asRow (meanK z)) (z1_eq m c)
theorem X46_2_eq : X46_2 m c = asRow (varK (z1 m c)) := by
  unfold X46_2; rw [arrAt1_4]; exact congrArg (fun z => asRow (varK z)) (z1_eq m c)
abbrev y1 : A 50000 256 :=
  layerK (Cert.RefIs.aggR (m ((c : Thread nD τ).loc main_arg1))) (mm128 (m ((c : Thread nD τ).loc main_arg0)) (m ((c : Thread nD τ).loc main_arg2)))
    (m ((c : Thread nD τ).loc main_arg3)) (m ((c : Thread nD τ).loc main_arg4)) (m ((c : Thread nD τ).loc main_arg5)) (m ((c : Thread nD τ).loc main_arg6) (ix1 (n := 1) 0))
theorem X50_eq : X50 m c = y1 m c := by
  unfold X50; rw [arrAt2_6]
  show bnp (W7 m c main_v46_0) (unrow (W7 m c main_v46_1)) (unrow (W7 m c main_v46_2)) (row (W7 m c main_v47)) (row (W7 m c main_v48))
      (W7 m c main_v49 (ix2 (n0 := 1) (n1 := 1) 0 0)) = _
  rw [v47_eq, v48_eq, v49_eq, W7_of m c main_v46_0 (by decide), W7_of m c main_v46_1 (by decide), W7_of m c main_v46_2 (by decide),
    W6_main_v46_0, W6_main_v46_1, W6_main_v46_2, X46_0_eq, X46_1_eq, X46_2_eq, unrow_asRow, unrow_asRow]
  rfl
theorem X51_eq : X51 m c = mm256 (y1 m c) (m ((c : Thread nD τ).loc main_arg7)) := by
  unfold X51; rw [arrAt3_2]
  show mm256 (W8 m c main_v50) (W8 m c main_arg7) = _
  rw [W8_main_v50, W8_arg7, X50_eq]
abbrev z2 : A 50000 256 :=
  biased (Cert.RefIs.aggR (m ((c : Thread nD τ).loc main_arg1)) (mm256 (y1 m c) (m ((c : Thread nD τ).loc main_arg7)))) (m ((c : Thread nD τ).loc main_arg8))
theorem z2_eq : biased (W10 m c main_v64) (row (W10 m c main_v65)) = z2 m c := by rw [v64_eq, v65_eq, X51_eq]
theorem X66_0_eq : X66_0 m c = z2 m c := by unfold X66_0; rw [arrAt4_2]; exact z2_eq m c
theorem X66_1_eq : X66_1 m c = asRow (meanK (z2 m c)) := by
  unfold X66_1; rw [arrAt4_3]; exact congrArg (fun z => asRow (meanK z)) (z2_eq m c)
theorem X66_2_eq : X66_2 m c = asRow (varK (z2 m c)) := by
  unfold X66_2; rw [arrAt4_4]; exact congrArg (fun z => asRow (varK z)) (z2_eq m c)
theorem kernel_value : X70 m c
    = netK (Cert.RefIs.aggR (m ((c : Thread nD τ).loc main_arg1))) (m ((c : Thread nD τ).loc main_arg0)) (m ((c : Thread nD τ).loc main_arg2))
        (m ((c : Thread nD τ).loc main_arg3)) (m ((c : Thread nD τ).loc main_arg4)) (m ((c : Thread nD τ).loc main_arg5)) (m ((c : Thread nD τ).loc main_arg6) (ix1 (n := 1) 0))
        (m ((c : Thread nD τ).loc main_arg7)) (m ((c : Thread nD τ).loc main_arg8)) (m ((c : Thread nD τ).loc main_arg9)) (m ((c : Thread nD τ).loc main_arg10))
        (m ((c : Thread nD τ).loc main_arg11) (ix1 (n := 1) 0)) := by
  unfold X70; rw [arrAt5_6]
  show bnp (W12 m c main_v66_0) (unrow (W12 m c main_v66_1)) (unrow (W12 m c main_v66_2)) (row (W12 m c main_v67)) (row (W12 m c main_v68))
      (W12 m c main_v69 (ix2 (n0 := 1) (n1 := 1) 0 0)) = _
  rw [v67_eq, v68_eq, v69_eq, W12_of m c main_v66_0 (by decide), W12_of m c main_v66_1 (by decide), W12_of m c main_v66_2 (by decide),
    W11_main_v66_0, W11_main_v66_1, W11_main_v66_2, X66_0_eq, X66_1_eq, X66_2_eq, unrow_asRow, unrow_asRow]
  rfl
end Cert.KernelIdeal.Hand
end
-- ==== Proof.RefStaged.lean ====
-- The reference's run cut into seven stretches of host operations: after each stretch the live buffers hold the stage functions of @main's arguments.
import proofs.«164947_j60361470378157_1_alg».proof.Proof.RefRunP
import proofs.«164947_j60361470378157_1_alg».proof.Proof.RefReadP
import Idealize.ShloMosaic.Lib.Pipeline.Frame
noncomputable section
namespace Cert.RefStaged
open Cert.ReferenceIdeal Cert.ReferenceIdeal.Gen Idealize.ShloMosaic Idealize.ShloMosaic.TcCoe Idealize.SL.Sem Idealize.ShloMosaic.StableHlo
open Cert.ReferenceIdeal.ReadP
variable {F : FTy → Type} [FloatOps F]
local notation:max W "⟪" r "⟫" => W (Proc.devRef Proc.tc r)
structure Args (F : FTy → Type) [FloatOps F] where
  x0 : (⟨S50000x128, .f32⟩ : BufTy).Contents (Elt F)
  x1 : (⟨S2x800000, .i32⟩ : BufTy).Contents (Elt F)
  x2 : (⟨S128x256, .f32⟩ : BufTy).Contents (Elt F)
  x3 : (⟨S256, .f32⟩ : BufTy).Contents (Elt F)
  x4 : (⟨S256, .f32⟩ : BufTy).Contents (Elt F)
  x5 : (⟨S256, .f32⟩ : BufTy).Contents (Elt F)
  x6 : (⟨S1, .f32⟩ : BufTy).Contents (Elt F)
  x7 : (⟨S256x256, .f32⟩ : BufTy).Contents (Elt F)
  x8 : (⟨S256, .f32⟩ : BufTy).Contents (Elt F)
  x9 : (⟨S256, .f32⟩ : BufTy).Contents (Elt F)
  x10 : (⟨S256, .f32⟩ : BufTy).Contents (Elt F)
  x11 : (⟨S1, .f32⟩ : BufTy).Contents (Elt F)
abbrev chunk (a n : Nat) : List (HloOp τ sig (Elt F)) := ((ValueP.ops (F := F)).drop a).take n
theorem after_cut (a n b : Nat) (h : a + n = b) (U : Valuation τ sig (Elt F)) :
    after ((ValueP.ops (F := F)).drop a) U = after ((ValueP.ops (F := F)).drop b) (after (chunk a n) U) := by
  subst h
  rw [← StableHlo.after_append, ← List.drop_drop, List.take_append_drop]
theorem after_ops_cut (V : Valuation τ sig (Elt F)) :
    after (ValueP.ops (F := F)) V
      = after ((ValueP.ops (F := F)).drop 150) (after (chunk 131 19) (after (chunk 99 32) (after (chunk 61 38)
          (after (chunk 42 19) (after (chunk 10 32) (after (chunk 0 10) V)))))) :=
  (show after (ValueP.ops (F := F)) V = after ((ValueP.ops (F := F)).drop 0) V from rfl).trans <|
  (after_cut 0 10 10 rfl V).trans <| (after_cut 10 32 42 rfl _).trans <| (after_cut 42 19 61 rfl _).trans <|
  (after_cut 61 38 99 rfl _).trans <| (after_cut 99 32 131 rfl _).trans <| after_cut 131 19 150 rfl _
def Inv0 (a : Args F) (W : Valuation τ sig (Elt F)) : Prop :=
  W⟪main_arg0⟫ = a.x0 ∧ W⟪main_arg1⟫ = a.x1 ∧ W⟪main_arg2⟫ = a.x2 ∧ W⟪main_arg3⟫ = a.x3 ∧ W⟪main_arg4⟫ = a.x4
  ∧ W⟪main_arg5⟫ = a.x5 ∧ W⟪main_arg6⟫ = a.x6 ∧ W⟪main_arg7⟫ = a.x7 ∧ W⟪main_arg8⟫ = a.x8 ∧ W⟪main_arg9⟫ = a.x9
  ∧ W⟪main_arg10⟫ = a.x10 ∧ W⟪main_arg11⟫ = a.x11
def Inv1 (a : Args F) (W : Valuation τ sig (Elt F)) : Prop :=
  W⟪main_v3⟫ = val_main_v3 (F := F) a.x1 ∧ W⟪main_v6⟫ = val_main_v6 (F := F) a.x1 ∧ W⟪main_v7⟫ = val_main_v7 (F := F)
  ∧ W⟪main_v8⟫ = val_main_v8 (F := F) a.x0 a.x2
  ∧ W⟪main_arg3⟫ = a.x3 ∧ W⟪main_arg4⟫ = a.x4 ∧ W⟪main_arg5⟫ = a.x5 ∧ W⟪main_arg6⟫ = a.x6 ∧ W⟪main_arg7⟫ = a.x7
  ∧ W⟪main_arg8⟫ = a.x8 ∧ W⟪main_arg9⟫ = a.x9 ∧ W⟪main_arg10⟫ = a.x10 ∧ W⟪main_arg11⟫ = a.x11
def Inv2 (a : Args F) (W : Valuation τ sig (Elt F)) : Prop :=
  W⟪main_v3⟫ = val_main_v3 (F := F) a.x1 ∧ W⟪main_v6⟫ = val_main_v6 (F := F) a.x1 ∧ W⟪main_v7⟫ = val_main_v7 (F := F)
  ∧ W⟪main_v8⟫ = val_main_v8 (F := F) a.x0 a.x2 ∧ W⟪main_v31⟫ = val_main_v31 (F := F) a.x1
  ∧ W⟪main_arg3⟫ = a.x3 ∧ W⟪main_arg4⟫ = a.x4 ∧ W⟪main_arg5⟫ = a.x5 ∧ W⟪main_arg6⟫ = a.x6 ∧ W⟪main_arg7⟫ = a.x7
  ∧ W⟪main_arg8⟫ = a.x8 ∧ W⟪main_arg9⟫ = a.x9 ∧ W⟪main_arg10⟫ = a.x10 ∧ W⟪main_arg11⟫ = a.x11
def Inv3 (a : Args F) (W : Valuation τ sig (Elt F)) : Prop :=
  W⟪main_v3⟫ = val_main_v3 (F := F) a.x1 ∧ W⟪main_v6⟫ = val_main_v6 (F := F) a.x1 ∧ W⟪main_v7⟫ = val_main_v7 (F := F)
  ∧ W⟪main_v47⟫ = val_main_v47 (F := F) a.x0 a.x1 a.x2 a.x3
  ∧ W⟪main_arg4⟫ = a.x4 ∧ W⟪main_arg5⟫ = a.x5 ∧ W⟪main_arg6⟫ = a.x6 ∧ W⟪main_arg7⟫ = a.x7
  ∧ W⟪main_arg8⟫ = a.x8 ∧ W⟪main_arg9⟫ = a.x9 ∧ W⟪main_arg10⟫ = a.x10 ∧ W⟪main_arg11⟫ = a.x11
def Inv4 (a : Args F) (W : Valuation τ sig (Elt F)) : Prop :=
  W⟪main_v3⟫ = val_main_v3 (F := F) a.x1 ∧ W⟪main_v6⟫ = val_main_v6 (F := F) a.x1 ∧ W⟪main_v7⟫ = val_main_v7 (F := F)
  ∧ W⟪main_v79⟫ = val_main_v79 (F := F) a.x0 a.x1 a.x2 a.x3 a.x4 a.x5 a.x6 a.x7
  ∧ W⟪main_arg8⟫ = a.x8 ∧ W⟪main_arg9⟫ = a.x9 ∧ W⟪main_arg10⟫ = a.x10 ∧ W⟪main_arg11⟫ = a.x11
def Inv5 (a : Args F) (W : Valuation τ sig (Elt F)) : Prop :=
  W⟪main_v3⟫ = val_main_v3 (F := F) a.x1 ∧ W⟪main_v6⟫ = val_main_v6 (F := F) a.x1
  ∧ W⟪main_v79⟫ = val_main_v79 (F := F) a.x0 a.x1 a.x2 a.x3 a.x4 a.x5 a.x6 a.x7 ∧ W⟪main_v102⟫ = val_main_v102 (F := F) a.x1
  ∧ W⟪main_arg8⟫ = a.x8 ∧ W⟪main_arg9⟫ = a.x9 ∧ W⟪main_arg10⟫ = a.x10 ∧ W⟪main_arg11⟫ = a.x11
def Inv6 (a : Args F) (W : Valuation τ sig (Elt F)) : Prop :=
  W⟪main_v118⟫ = val_main_v118 (F := F) a.x0 a.x1 a.x2 a.x3 a.x4 a.x5 a.x6 a.x7 a.x8
  ∧ W⟪main_arg9⟫ = a.x9 ∧ W⟪main_arg10⟫ = a.x10 ∧ W⟪main_arg11⟫ = a.x11
set_option maxRecDepth 8192 in
set_option maxHeartbeats 4000000 in
theorem stage0 (a : Args F) (W : Valuation τ sig (Elt F)) (h : Inv0 a W) : Inv1 a (after (chunk 0 10) W) := by
  unfold Inv0 at h
  obtain ⟨a0, a1, a2, a3, a4, a5, a6, a7, a8, a9, a10, a11⟩ := h
  unfold Inv1
  simp only [chunk, List.drop_zero, List.drop_succ_cons, List.take_succ_cons, List.take_zero]
  refine ⟨?g0, ?g1, ?g2, ?g3, ?_, ?_, ?_, ?_, ?_, ?_, ?_, ?_, ?_⟩
  case g0 => after_results; rw [a1]; rfl
  case g1 => after_results; rw [a1]; rfl
  case g2 => after_results_simp; rfl
  case g3 => after_results_simp; simp only [a0, a2]; rfl
  all_goals (after_results_simp; assumption)
attribute [local irreducible] val_main_v3 val_main_v6 val_main_v7 val_main_v8
set_option maxRecDepth 8192 in
set_option maxHeartbeats 4000000 in
theorem stage1 (a : Args F) (W : Valuation τ sig (Elt F)) (h : Inv1 a W) : Inv2 a (after (chunk 10 32) W) := by
  unfold Inv1 at h
  obtain ⟨h3, h6, h7, h8, a3, a4, a5, a6, a7, a8, a9, a10, a11⟩ := h
  unfold Inv2
  simp only [chunk, List.drop_zero, List.drop_succ_cons, List.take_succ_cons, List.take_zero]
  refine ⟨?_, ?_, ?_, ?_, ?g4, ?_, ?_, ?_, ?_, ?_, ?_, ?_, ?_, ?_⟩
  case g4 => after_results_simp; simp only [TRef.ofBuf, TRef.toBuf, cast_eq, h3, h6, h7]; rfl
  all_goals (after_results_simp; assumption)
attribute [local irreducible] val_main_v31
set_option maxRecDepth 8192 in
set_option maxHeartbeats 4000000 in
theorem stage2 (a : Args F) (W : Valuation τ sig (Elt F)) (h : Inv2 a W) : Inv3 a (after (chunk 42 19) W) := by
  unfold Inv2 at h
  obtain ⟨h3, h6, h7, h8, h31, a3, a4, a5, a6, a7, a8, a9, a10, a11⟩ := h
  unfold Inv3
  simp only [chunk, List.drop_zero, List.drop_succ_cons, List.take_succ_cons, List.take_zero]
  refine ⟨?_, ?_, ?_, ?g3, ?_, ?_, ?_, ?_, ?_, ?_, ?_, ?_⟩
  case g3 => after_results_simp; simp only [h3, h6, h8, h31, a3]; rfl
  all_goals (after_results_simp; assumption)
attribute [local irreducible] val_main_v47
set_option maxRecDepth 8192 in
set_option maxHeartbeats 4000000 in
theorem stage3 (a : Args F) (W : Valuation τ sig (Elt F)) (h : Inv3 a W) : Inv4 a (after (chunk 61 38) W) := by
  unfold Inv3 at h
  obtain ⟨h3, h6, h7, h47, a4, a5, a6, a7, a8, a9, a10, a11⟩ := h
  unfold Inv4
  simp only [chunk, List.drop_zero, List.drop_succ_cons, List.take_succ_cons, List.take_zero]
  refine ⟨?_, ?_, ?_, ?g3, ?_, ?_, ?_, ?_⟩
  case g3 => after_results_simp; simp only [TRef.ofBuf, TRef.toBuf, cast_eq, h47, a4, a5, a6, a7]; rfl
  all_goals (after_results_simp; assumption)
attribute [local irreducible] val_main_v79
set_option maxRecDepth 8192 in
set_option maxHeartbeats 4000000 in
theorem stage4 (a : Args F) (W : Valuation τ sig (Elt F)) (h : Inv4 a W) : Inv5 a (after (chunk 99 32) W) := by
  unfold Inv4 at h
  obtain ⟨h3, h6, h7, h79, a8, a9, a10, a11⟩ := h
  unfold Inv5
  simp only [chunk, List.drop_zero, List.drop_succ_cons, List.take_succ_cons, List.take_zero]
  refine ⟨?_, ?_, ?_, ?g3, ?_, ?_, ?_, ?_⟩
  case g3 => after_results_simp; simp only [TRef.ofBuf, TRef.toBuf, cast_eq, h3, h6, h7]; rfl
  all_goals (after_results_simp; assumption)
attribute [local irreducible] val_main_v102
set_option maxRecDepth 8192 in
set_option maxHeartbeats 4000000 in
theorem stage5 (a : Args F) (W : Valuation τ sig (Elt F)) (h : Inv5 a W) : Inv6 a (after (chunk 131 19) W) := by
  unfold Inv5 at h
  obtain ⟨h3, h6, h79, h102, a8, a9, a10, a11⟩ := h
  unfold Inv6
  simp only [chunk, List.drop_zero, List.drop_succ_cons, List.take_succ_cons, List.take_zero]
  refine ⟨?g0, ?_, ?_, ?_⟩
  case g0 => after_results_simp; simp only [h3, h6, h79, h102, a8]; rfl
  all_goals (after_results_simp; assumption)
attribute [local irreducible] val_main_v118
set_option maxRecDepth 8192 in
set_option maxHeartbeats 4000000 in
theorem stage6 (a : Args F) (W : Valuation τ sig (Elt F)) (h : Inv6 a W) :
    (after ((ValueP.ops (F := F)).drop 150) W)⟪main_v149⟫
      = val_main_v149 (F := F) a.x0 a.x1 a.x2 a.x3 a.x4 a.x5 a.x6 a.x7 a.x8 a.x9 a.x10 a.x11 := by
  unfold Inv6 at h
  obtain ⟨h118, a9, a10, a11⟩ := h
  simp only [List.drop_zero, List.drop_succ_cons]
  after_results_simp
  simp only [TRef.ofBuf, TRef.toBuf, cast_eq, h118, a9, a10, a11]
  rfl
theorem res_eq (m : (ℓ : Loc Cert.ReferenceIdeal.nD Cert.ReferenceIdeal.τ Cert.ReferenceIdeal.sig) → Buf (Elt F) ℓ)
    (c : Dev Cert.ReferenceIdeal.nD) :
    Cert.ReferenceIdeal.ValueP.res_main_v149 (F := F) m c
      = Cert.ReferenceIdeal.ReadP.val_main_v149 (F := F)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  have h0 : Inv0 (F := F)
      ⟨m ((c.tc : Thread nD τ).loc main_arg0), m ((c.tc : Thread nD τ).loc main_arg1),
       m ((c.tc : Thread nD τ).loc main_arg2), m ((c.tc : Thread nD τ).loc main_arg3),
       m ((c.tc : Thread nD τ).loc main_arg4), m ((c.tc : Thread nD τ).loc main_arg5),
       m ((c.tc : Thread nD τ).loc main_arg6), m ((c.tc : Thread nD τ).loc main_arg7),
       m ((c.tc : Thread nD τ).loc main_arg8), m ((c.tc : Thread nD τ).loc main_arg9),
       m ((c.tc : Thread nD τ).loc main_arg10), m ((c.tc : Thread nD τ).loc main_arg11)⟩
      (launchContents m c) :=
    ⟨rfl, rfl, rfl, rfl, rfl, rfl, rfl, rfl, rfl, rfl, rfl, rfl⟩
  have h7 := stage6 _ _ (stage5 _ _ (stage4 _ _ (stage3 _ _ (stage2 _ _ (stage1 _ _ (stage0 _ _ h0))))))
  unfold Cert.ReferenceIdeal.ValueP.res_main_v149
  exact (congrFun (after_ops_cut (launchContents m c)) _).trans h7
end Cert.RefStaged
end
-- ==== Proof.PreReal.lean ====
-- Finite inputs are real numbers.
import proofs.«164947_j60361470378157_1_alg».proof.Proof.Spec
import proofs.«164947_j60361470378157_1_alg».proof.Defs
import proofs.«164947_j60361470378157_1_alg».proof.Proof.Gen.Pre_finite_inputs
import Idealize.ShloMosaic.Lib.ReduceAll
import Idealize.ShloMosaic.Lib.ValueIdx
import Idealize.ShloMosaic.PureOps.Ideal
noncomputable section
namespace Cert.PreReal
open Idealize.ShloMosaic Idealize.ShloMosaic.ValueIdx
theorem inf_word : Ideal.ofBits .f32 0x7F800000#32 = (⊤ : EReal) := by
  simp [Ideal.ofBits, Ideal.ieee]
theorem real_of_abs_lt_top (x : EReal) (h : max x (-x) < ⊤) : ∃ r : ℝ, x = (r : EReal) := by
  induction x using EReal.rec with
  | bot => simp at h
  | coe r => exact ⟨r, rfl⟩
  | top => simp at h
theorem isReal_of_cmp {ι : Type} (v : ι → EReal)
    (h : ∀ i, Ideal.cmp .olt (max (v i) (-(v i))) (Ideal.ofBits .f32 0x7F800000#32) = 1#1) : Cert.Spec.IsReal v := by
  intro i
  have hi := h i
  rw [inf_word] at hi
  refine real_of_abs_lt_top (v i) ?_
  by_contra hn
  simp [Ideal.cmp, hn] at hi
instance subsingleton_scalar : Subsingleton (Cert.Pre_finite_inputs.S_).Idx :=
  ⟨fun a b => funext fun d => d.elim0⟩
theorem isReal_of_all {s : Shape} {axes : List (Fin s.rank)} (v : FVec Ideal s .f32)
    (hb : (Cert.Pre_finite_inputs.S_).BroadcastsInDim s (![] : Fin 0 → Fin s.rank))
    (hr : s.ReducesTo axes Cert.Pre_finite_inputs.S_) (hu : 0 < (Cert.Pre_finite_inputs.S_).numel)
    (e : Host.reduce IntOp.andi
          (cmpf .olt (Host.absf v) (broadcastInDim s ![] hb (constant Cert.Pre_finite_inputs.S_ .f32 0x7F800000#32)))
          (constantI Cert.Pre_finite_inputs.S_ 1 1#1) hr hu ix0 = 1#1) :
    Cert.Spec.IsReal v :=
  isReal_of_cmp v fun i => Host.reduce_andi_all _ _ hr hu ix0 e i
theorem isReal_of_pre (m : (ℓ : Loc Cert.KernelIdeal.nD Cert.KernelIdeal.τ Cert.KernelIdeal.sig) → Buf (Elt Ideal) ℓ)
    (hm : Cert.Pre_KernelIdeal (hPre_finite_inputs := Cert.Pre_finite_inputs.Gen.facts) m) (c : Dev Cert.KernelIdeal.nD) :
    Cert.Spec.IsReal (m ((c.tc : Thread Cert.KernelIdeal.nD Cert.KernelIdeal.τ).loc Cert.KernelIdeal.main_arg0))
      ∧ Cert.Spec.IsReal (m ((c.tc : Thread Cert.KernelIdeal.nD Cert.KernelIdeal.τ).loc Cert.KernelIdeal.main_arg2))
      ∧ Cert.Spec.IsReal (m ((c.tc : Thread Cert.KernelIdeal.nD Cert.KernelIdeal.τ).loc Cert.KernelIdeal.main_arg3))
      ∧ Cert.Spec.IsReal (m ((c.tc : Thread Cert.KernelIdeal.nD Cert.KernelIdeal.τ).loc Cert.KernelIdeal.main_arg4))
      ∧ Cert.Spec.IsReal (m ((c.tc : Thread Cert.KernelIdeal.nD Cert.KernelIdeal.τ).loc Cert.KernelIdeal.main_arg5))
      ∧ Cert.Spec.IsReal (m ((c.tc : Thread Cert.KernelIdeal.nD Cert.KernelIdeal.τ).loc Cert.KernelIdeal.main_arg6))
      ∧ Cert.Spec.IsReal (m ((c.tc : Thread Cert.KernelIdeal.nD Cert.KernelIdeal.τ).loc Cert.KernelIdeal.main_arg7))
      ∧ Cert.Spec.IsReal (m ((c.tc : Thread Cert.KernelIdeal.nD Cert.KernelIdeal.τ).loc Cert.KernelIdeal.main_arg8))
      ∧ Cert.Spec.IsReal (m ((c.tc : Thread Cert.KernelIdeal.nD Cert.KernelIdeal.τ).loc Cert.KernelIdeal.main_arg9))
      ∧ Cert.Spec.IsReal (m ((c.tc : Thread Cert.KernelIdeal.nD Cert.KernelIdeal.τ).loc Cert.KernelIdeal.main_arg10))
      ∧ Cert.Spec.IsReal (m ((c.tc : Thread Cert.KernelIdeal.nD Cert.KernelIdeal.τ).loc Cert.KernelIdeal.main_arg11)) := by
  have h := congrFun (hm c) ix0
  dsimp only [Cert.Pre_finite_inputs.fn, Cert.Pre_finite_inputs.fn_part1, Cert.Pre_finite_inputs.fn_part2,
    Cert.Pre_finite_inputs.fn_part3] at h
  simp only [andi, IntOp.andi_eq_one] at h
  obtain ⟨⟨⟨⟨⟨⟨⟨⟨⟨⟨h0, h2⟩, h3⟩, h4⟩, h5⟩, h6⟩, h7⟩, h8⟩, h9⟩, h10⟩, h11⟩ := h
  exact ⟨isReal_of_all _ _ _ _ h0, isReal_of_all _ _ _ _ h2, isReal_of_all _ _ _ _ h3, isReal_of_all _ _ _ _ h4,
    isReal_of_all _ _ _ _ h5, isReal_of_all _ _ _ _ h6, isReal_of_all _ _ _ _ h7, isReal_of_all _ _ _ _ h8,
    isReal_of_all _ _ _ _ h9, isReal_of_all _ _ _ _ h10, isReal_of_all _ _ _ _ h11⟩
end Cert.PreReal
end
-- ==== Proof.lean ====
-- The claim: three frames, the four named-constant statements, and equality of the two results over the extended reals.
import proofs.«164947_j60361470378157_1_alg».proof.Defs
import proofs.«164947_j60361470378157_1_alg».proof.Proof.Gen.Kernel
import proofs.«164947_j60361470378157_1_alg».proof.Proof.Gen.Kernel.Skeleton
import proofs.«164947_j60361470378157_1_alg».proof.Proof.Gen.Kernel.Launch
import proofs.«164947_j60361470378157_1_alg».proof.Proof.Gen.Kernel.Regions
import proofs.«164947_j60361470378157_1_alg».proof.Proof.Gen.Kernel.Points
import proofs.«164947_j60361470378157_1_alg».proof.Proof.Gen.KernelIdeal
import proofs.«164947_j60361470378157_1_alg».proof.Proof.Gen.KernelIdeal.Skeleton
import proofs.«164947_j60361470378157_1_alg».proof.Proof.Gen.KernelIdeal.Launch
import proofs.«164947_j60361470378157_1_alg».proof.Proof.Gen.KernelIdeal.Regions
import proofs.«164947_j60361470378157_1_alg».proof.Proof.Gen.KernelIdeal.Points
import proofs.«164947_j60361470378157_1_alg».proof.Proof.Gen.ReferenceIdeal
import proofs.«164947_j60361470378157_1_alg».proof.Proof.Gen.Pre_finite_inputs
import proofs.«164947_j60361470378157_1_alg».proof.Proof.K.Run
import proofs.«164947_j60361470378157_1_alg».proof.Proof.KI.Run
import proofs.«164947_j60361470378157_1_alg».proof.Proof.KI.KVal
import proofs.«164947_j60361470378157_1_alg».proof.Proof.RefRunP
import proofs.«164947_j60361470378157_1_alg».proof.Proof.RefStaged
import proofs.«164947_j60361470378157_1_alg».proof.Proof.RefIs
import proofs.«164947_j60361470378157_1_alg».proof.Proof.SpecAlg
import proofs.«164947_j60361470378157_1_alg».proof.Proof.PreReal
import Idealize.ShloMosaic.Adequacy
import Idealize.ShloMosaic.Init
noncomputable section
namespace Cert.Proof
open Idealize.ShloMosaic Idealize.SL.Sem
theorem frame_k : Cert.frame_Kernel := fun m ρ _ =>
  (θ_run (Cert.Kernel.defs (F := Bits)) _ _).mono (fun _ h c => (h c).2) (Cert.Kernel.Hand.run_main (F := Bits) m ρ)
theorem frame_ki : Cert.frame_KernelIdeal := fun m ρ _ =>
  (θ_run (Cert.KernelIdeal.defs (F := Ideal)) _ _).mono (fun _ h c => (h c).2) (Cert.KernelIdeal.Hand.run_main (F := Ideal) m ρ)
theorem frame_ri : Cert.frame_ReferenceIdeal := fun m ρ _ =>
  (θ_run (Cert.ReferenceIdeal.defs (F := Ideal)) _ _).mono (fun _ h c => (h c).2) (Cert.ReferenceIdeal.ValueP.run (F := Ideal) m ρ)
theorem inv_statement : IdealRules.named_const.Statement Cert.KernelIdeal.κ "inv_50000" .f32 0x37A7C5AC#32 ((1 / 50000 : ℝ) : EReal) :=
  IdealRules.named_const.statement Cert.KernelIdeal.κ "inv_50000" .f32 0x37A7C5AC#32 ((1 / 50000 : ℝ) : EReal) rfl
theorem preserves : Cert.preserves_Kernel_KernelIdeal := ⟨inv_statement, inv_statement, inv_statement, inv_statement⟩
theorem algebraic : Cert.algebraic_KernelIdeal_ReferenceIdeal := by
  intro m ρ m' ρ' hpre hagree
  refine ⟨fun c => Cert.KernelIdeal.Hand.X70 (F := Ideal) m c, Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  show Cert.ReferenceIdeal.ValueP.res_main_v149 (F := Ideal) m' c = Cert.KernelIdeal.Hand.X70 (F := Ideal) m c
  obtain ⟨e0, e1, e2, e3, e4, e5, e6, e7, e8, e9, e10, e11⟩ := hagree c
  obtain ⟨r0, r2, r3, r4, r5, r6, r7, r8, r9, r10, r11⟩ := Cert.PreReal.isReal_of_pre m hpre c
  rw [Cert.RefStaged.res_eq, e0, e1, e2, e3, e4, e5, e6, e7, e8, e9, e10, e11, Cert.RefIs.ref_is, Cert.KernelIdeal.Hand.kernel_value]
  exact (Cert.Spec.netK_eq_netR _ (fun h hh => Cert.RefIs.isReal_aggR _ h hh) _ _ _ _ _ _ _ _ _ _ _ r0 r2 r3 r4 r5 (r6 _) r7 r8).symm
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩
end Cert.Proof
end
